-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S50000x300 : Shape := ⟨2, ![50000, 300]⟩
abbrev S50x300 : Shape := ⟨2, ![50, 300]⟩
abbrev S300x800 : Shape := ⟨2, ![300, 800]⟩
abbrev S800 : Shape := ⟨1, ![800]⟩
abbrev S800x50 : Shape := ⟨2, ![800, 50]⟩
abbrev S50 : Shape := ⟨1, ![50]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S50x300 : S_.BroadcastsInDim S50x300 (![] : Fin 0 → Fin S50x300.rank)
  reducesTo_S50x300_S_d0_1 : S50x300.ReducesTo [0, 1] S_
  bcast_S_S300x800 : S_.BroadcastsInDim S300x800 (![] : Fin 0 → Fin S300x800.rank)
  reducesTo_S300x800_S_d0_1 : S300x800.ReducesTo [0, 1] S_
  bcast_S_S800 : S_.BroadcastsInDim S800 (![] : Fin 0 → Fin S800.rank)
  reducesTo_S800_S_d0 : S800.ReducesTo [0] S_
  bcast_S_S800x50 : S_.BroadcastsInDim S800x50 (![] : Fin 0 → Fin S800x50.rank)
  reducesTo_S800x50_S_d0_1 : S800x50.ReducesTo [0, 1] S_
  bcast_S_S50 : S_.BroadcastsInDim S50 (![] : Fin 0 → Fin S50.rank)
  reducesTo_S50_S_d0 : S50.ReducesTo [0] S_
  bcast_S_S1024x512 : S_.BroadcastsInDim S1024x512 (![] : Fin 0 → Fin S1024x512.rank)
  reducesTo_S1024x512_S_d0_1 : S1024x512.ReducesTo [0, 1] S_

variable [Facts]

def fn_part2 {F : FTy → Type} [FloatOps F] (main_arg0 : IVec S1024x512 32) (main_arg8 : FVec F S50 .f32) (main_v33 : IVec S_ 1) : IVec S_ 1 :=
  let main_v34 : FVec F S50 .f32 := Host.absf main_arg8
  let main_cst_12 : FVec F S_ .f32 := constant S_ .f32 0x7F800000#32
  let main_v35 : FVec F S50 .f32 := broadcastInDim S50 ![] bcast_S_S50 main_cst_12
  let main_v36 : IVec S50 1 := cmpf .olt main_v34 main_v35
  let main_c_13 : IVec S_ 1 := constantI S_ 1 1#1
  let main_v37 : IVec S_ 1 := (fun x v => Host.reduce IntOp.andi x v reducesTo_S50_S_d0 h_S_) main_v36 main_c_13
  let main_v38 : IVec S_ 1 := andi main_v33 main_v37
  let main_c_14 : IVec S_ 32 := constantI S_ 32 0#32
  let main_v39 : IVec S1024x512 32 := broadcastInDim S1024x512 ![] bcast_S_S1024x512 main_c_14
  let main_v40 : IVec S1024x512 1 := cmpi .sge main_arg0 main_v39
  let main_c_15 : IVec S_ 32 := constantI S_ 32 50000#32
  let main_v41 : IVec S1024x512 32 := broadcastInDim S1024x512 ![] bcast_S_S1024x512 main_c_15
  let main_v42 : IVec S1024x512 1 := cmpi .slt main_arg0 main_v41
  let main_v43 : IVec S1024x512 1 := andi main_v40 main_v42
  let main_c_16 : IVec S_ 1 := constantI S_ 1 1#1
  let main_v44 : IVec S_ 1 := (fun x v => Host.reduce IntOp.andi x v reducesTo_S1024x512_S_d0_1 h_S_) main_v43 main_c_16
  let main_v45 : IVec S_ 1 := andi main_v38 main_v44
  main_v45

def fn_part1 {F : FTy → Type} [FloatOps F] (main_arg0 : IVec S1024x512 32) (main_arg5 : FVec F S800x50 .f32) (main_arg6 : FVec F S50 .f32) (main_arg7 : FVec F S800x50 .f32) (main_arg8 : FVec F S50 .f32) (main_v13 : IVec S_ 1) (main_v16 : IVec S800 1) : IVec S_ 1 :=
  let main_c_5 : IVec S_ 1 := constantI S_ 1 1#1
  let main_v17 : IVec S_ 1 := (fun x v => Host.reduce IntOp.andi x v reducesTo_S800_S_d0 h_S_) main_v16 main_c_5
  let main_v18 : IVec S_ 1 := andi main_v13 main_v17
  let main_v19 : FVec F S800x50 .f32 := Host.absf main_arg5
  let main_cst_6 : FVec F S_ .f32 := constant S_ .f32 0x7F800000#32
  let main_v20 : FVec F S800x50 .f32 := broadcastInDim S800x50 ![] bcast_S_S800x50 main_cst_6
  let main_v21 : IVec S800x50 1 := cmpf .olt main_v19 main_v20
  let main_c_7 : IVec S_ 1 := constantI S_ 1 1#1
  let main_v22 : IVec S_ 1 := (fun x v => Host.reduce IntOp.andi x v reducesTo_S800x50_S_d0_1 h_S_) main_v21 main_c_7
  let main_v23 : IVec S_ 1 := andi main_v18 main_v22
  let main_v24 : FVec F S50 .f32 := Host.absf main_arg6
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S800x50 .f32 := Host.absf main_arg7
  let main_cst_10 : FVec F S_ .f32 := constant S_ .f32 0x7F800000#32
  let main_v30 : FVec F S800x50 .f32 := broadcastInDim S800x50 ![] bcast_S_S800x50 main_cst_10
  let main_v31 : IVec S800x50 1 := cmpf .olt main_v29 main_v30
  let main_c_11 : IVec S_ 1 := constantI S_ 1 1#1
  let main_v32 : IVec S_ 1 := (fun x v => Host.reduce IntOp.andi x v reducesTo_S800x50_S_d0_1 h_S_) main_v31 main_c_11
  let main_v33 : IVec S_ 1 := andi main_v28 main_v32
  fn_part2 (F := F) main_arg0 main_arg8 main_v33

def fn {F : FTy → Type} [FloatOps F] (main_arg0 : IVec S1024x512 32) (main_arg1 : FVec F S50000x300 .f32) (main_arg2 : FVec F S50x300 .f32) (main_arg3 : FVec F S300x800 .f32) (main_arg4 : FVec F S800 .f32) (main_arg5 : FVec F S800x50 .f32) (main_arg6 : FVec F S50 .f32) (main_arg7 : FVec F S800x50 .f32) (main_arg8 : FVec F S50 .f32) : IVec S_ 1 :=
  let main_v0 : FVec F S50000x300 .f32 := Host.absf main_arg1
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S50x300 .f32 := Host.absf main_arg2
  let main_cst_0 : FVec F S_ .f32 := constant S_ .f32 0x7F800000#32
  let main_v5 : FVec F S50x300 .f32 := broadcastInDim S50x300 ![] bcast_S_S50x300 main_cst_0
  let main_v6 : IVec S50x300 1 := cmpf .olt main_v4 main_v5
  let main_c_1 : IVec S_ 1 := constantI S_ 1 1#1
  let main_v7 : IVec S_ 1 := (fun x v => Host.reduce IntOp.andi x v reducesTo_S50x300_S_d0_1 h_S_) main_v6 main_c_1
  let main_v8 : IVec S_ 1 := andi main_v3 main_v7
  let main_v9 : FVec F S300x800 .f32 := Host.absf main_arg3
  let main_cst_2 : FVec F S_ .f32 := constant S_ .f32 0x7F800000#32
  let main_v10 : FVec F S300x800 .f32 := broadcastInDim S300x800 ![] bcast_S_S300x800 main_cst_2
  let main_v11 : IVec S300x800 1 := cmpf .olt main_v9 main_v10
  let main_c_3 : IVec S_ 1 := constantI S_ 1 1#1
  let main_v12 : IVec S_ 1 := (fun x v => Host.reduce IntOp.andi x v reducesTo_S300x800_S_d0_1 h_S_) main_v11 main_c_3
  let main_v13 : IVec S_ 1 := andi main_v8 main_v12
  let main_v14 : FVec F S800 .f32 := Host.absf main_arg4
  let main_cst_4 : FVec F S_ .f32 := constant S_ .f32 0x7F800000#32
  let main_v15 : FVec F S800 .f32 := broadcastInDim S800 ![] bcast_S_S800 main_cst_4
  let main_v16 : IVec S800 1 := cmpf .olt main_v14 main_v15
  fn_part1 (F := F) main_arg0 main_arg5 main_arg6 main_arg7 main_arg8 main_v13 main_v16
-- ==== Kernel.lean ====
abbrev S1024x512 : Shape := ⟨2, ![1024, 512]⟩
abbrev S50000x300 : Shape := ⟨2, ![50000, 300]⟩
abbrev S50x300 : Shape := ⟨2, ![50, 300]⟩
abbrev S300x800 : Shape := ⟨2, ![300, 800]⟩
abbrev S800 : Shape := ⟨1, ![800]⟩
abbrev S800x50 : Shape := ⟨2, ![800, 50]⟩
abbrev S50 : Shape := ⟨1, ![50]⟩
abbrev S2 : Shape := ⟨1, ![2]⟩
abbrev S_ : Shape := ⟨0, ![]⟩
abbrev S1024x50048 : Shape := ⟨2, ![1024, 50048]⟩
abbrev S1024 : Shape := ⟨1, ![1024]⟩
abbrev S1024x1 : Shape := ⟨2, ![1024, 1]⟩
abbrev S1024x512x1 : Shape := ⟨3, ![1024, 512, 1]⟩
abbrev S1024x512x2 : Shape := ⟨3, ![1024, 512, 2]⟩
abbrev S2x1 : Shape := ⟨2, ![2, 1]⟩
abbrev S1024x2 : Shape := ⟨2, ![1024, 2]⟩
abbrev S50048x300 : Shape := ⟨2, ![50048, 300]⟩
abbrev S50048 : Shape := ⟨1, ![50048]⟩
abbrev S1x50048 : Shape := ⟨2, ![1, 50048]⟩
abbrev S50x50048 : Shape := ⟨2, ![50, 50048]⟩
abbrev S50x1 : Shape := ⟨2, ![50, 1]⟩
abbrev S1x800 : Shape := ⟨2, ![1, 800]⟩
abbrev S1x50 : Shape := ⟨2, ![1, 50]⟩
abbrev S1024x50 : Shape := ⟨2, ![1024, 50]⟩
abbrev S512x2944 : Shape := ⟨2, ![512, 2944]⟩
abbrev S512x1 : Shape := ⟨2, ![512, 1]⟩
abbrev S2944x300 : Shape := ⟨2, ![2944, 300]⟩
abbrev S512x50 : Shape := ⟨2, ![512, 50]⟩
abbrev S512x300 : Shape := ⟨2, ![512, 300]⟩
abbrev S512x800 : Shape := ⟨2, ![512, 800]⟩
abbrev S512 : Shape := ⟨1, ![512]⟩
abbrev S50x2944 : Shape := ⟨2, ![50, 2944]⟩

abbrev nBuf : Space → Nat
  | .hbm => 97
  | .vmem => 26
  | .smem => 0
  | _ => 0

abbrev bufTy : (tb : Table) → Fin (tcTables nBuf tb) → BufTy
  | .hbm, ⟨0, _⟩ => ⟨S1024x512, .i32⟩
  | .hbm, ⟨1, _⟩ => ⟨S50000x300, .f32⟩
  | .hbm, ⟨2, _⟩ => ⟨S50x300, .f32⟩
  | .hbm, ⟨3, _⟩ => ⟨S300x800, .f32⟩
  | .hbm, ⟨4, _⟩ => ⟨S800, .f32⟩
  | .hbm, ⟨5, _⟩ => ⟨S800x50, .f32⟩
  | .hbm, ⟨6, _⟩ => ⟨S50, .f32⟩
  | .hbm, ⟨7, _⟩ => ⟨S800x50, .f32⟩
  | .hbm, ⟨8, _⟩ => ⟨S50, .f32⟩
  | .hbm, ⟨9, _⟩ => ⟨S2, .i32⟩
  | .hbm, ⟨10, _⟩ => ⟨S_, .f32⟩
  | .hbm, ⟨11, _⟩ => ⟨S1024x50048, .f32⟩
  | .hbm, ⟨12, _⟩ => ⟨S1024, .i32⟩
  | .hbm, ⟨13, _⟩ => ⟨S1024x1, .i32⟩
  | .hbm, ⟨14, _⟩ => ⟨S_, .i32⟩
  | .hbm, ⟨15, _⟩ => ⟨S1024x1, .i32⟩
  | .hbm, ⟨16, _⟩ => ⟨S1024x1, .i1⟩
  | .hbm, ⟨17, _⟩ => ⟨S_, .i32⟩
  | .hbm, ⟨18, _⟩ => ⟨S1024x1, .i32⟩
  | .hbm, ⟨19, _⟩ => ⟨S1024x1, .i32⟩
  | .hbm, ⟨20, _⟩ => ⟨S1024x1, .i32⟩
  | .hbm, ⟨21, _⟩ => ⟨S_, .i32⟩
  | .hbm, ⟨22, _⟩ => ⟨S1024x512, .i32⟩
  | .hbm, ⟨23, _⟩ => ⟨S1024x512, .i1⟩
  | .hbm, ⟨24, _⟩ => ⟨S_, .i32⟩
  | .hbm, ⟨25, _⟩ => ⟨S1024x512, .i32⟩
  | .hbm, ⟨26, _⟩ => ⟨S1024x512, .i32⟩
  | .hbm, ⟨27, _⟩ => ⟨S1024x512, .i32⟩
  | .hbm, ⟨28, _⟩ => ⟨S1024x512, .i32⟩
  | .hbm, ⟨29, _⟩ => ⟨S1024x512x1, .i32⟩
  | .hbm, ⟨30, _⟩ => ⟨S1024x512x1, .i32⟩
  | .hbm, ⟨31, _⟩ => ⟨S1024x512x2, .i32⟩
  | .hbm, ⟨32, _⟩ => ⟨S_, .f32⟩
  | .hbm, ⟨33, _⟩ => ⟨S1024x512, .f32⟩
  | .hbm, ⟨34, _⟩ => ⟨S1024x50048, .f32⟩
  | .hbm, ⟨35, _⟩ => ⟨S_, .i32⟩
  | .hbm, ⟨36, _⟩ => ⟨S2, .i32⟩
  | .hbm, ⟨37, _⟩ => ⟨S2, .i1⟩
  | .hbm, ⟨38, _⟩ => ⟨S_, .i32⟩
  | .hbm, ⟨39, _⟩ => ⟨S2, .i32⟩
  | .hbm, ⟨40, _⟩ => ⟨S2, .i32⟩
  | .hbm, ⟨41, _⟩ => ⟨S2, .i32⟩
  | .hbm, ⟨42, _⟩ => ⟨S2x1, .i32⟩
  | .hbm, ⟨43, _⟩ => ⟨S_, .f32⟩
  | .hbm, ⟨44, _⟩ => ⟨S1024x2, .f32⟩
  | .hbm, ⟨45, _⟩ => ⟨S1024x50048, .f32⟩
  | .hbm, ⟨46, _⟩ => ⟨S_, .f32⟩
  | .hbm, ⟨47, _⟩ => ⟨S1024, .f32⟩
  | .hbm, ⟨48, _⟩ => ⟨S1024x1, .f32⟩
  | .hbm, ⟨49, _⟩ => ⟨S_, .i32⟩
  | .hbm, ⟨50, _⟩ => ⟨S_, .f32⟩
  | .hbm, ⟨51, _⟩ => ⟨S50048x300, .f32⟩
  | .hbm, ⟨52, _⟩ => ⟨S50048x300, .bf16⟩
  | .hbm, ⟨53, _⟩ => ⟨S50048, .i32⟩
  | .hbm, ⟨54, _⟩ => ⟨S_, .i32⟩
  | .hbm, ⟨55, _⟩ => ⟨S50048, .i32⟩
  | .hbm, ⟨56, _⟩ => ⟨S50048, .i1⟩
  | .hbm, ⟨57, _⟩ => ⟨S1x50048, .i1⟩
  | .hbm, ⟨58, _⟩ => ⟨S50x50048, .f32⟩
  | .hbm, ⟨59, _⟩ => ⟨S_, .f32⟩
  | .hbm, ⟨60, _⟩ => ⟨S_, .f32⟩
  | .hbm, ⟨61, _⟩ => ⟨S50x50048, .i1⟩
  | .hbm, ⟨62, _⟩ => ⟨S50x50048, .f32⟩
  | .hbm, ⟨63, _⟩ => ⟨S50x50048, .f32⟩
  | .hbm, ⟨64, _⟩ => ⟨S_, .f32⟩
  | .hbm, ⟨65, _⟩ => ⟨S50, .f32⟩
  | .hbm, ⟨66, _⟩ => ⟨S_, .f32⟩
  | .hbm, ⟨67, _⟩ => ⟨S50, .f32⟩
  | .hbm, ⟨68, _⟩ => ⟨S50, .f32⟩
  | .hbm, ⟨69, _⟩ => ⟨S50x1, .f32⟩
  | .hbm, ⟨70, _⟩ => ⟨S50x50048, .f32⟩
  | .hbm, ⟨71, _⟩ => ⟨S50x50048, .f32⟩
  | .hbm, ⟨72, _⟩ => ⟨S50x50048, .f32⟩
  | .hbm, ⟨73, _⟩ => ⟨S_, .f32⟩
  | .hbm, ⟨74, _⟩ => ⟨S50, .f32⟩
  | .hbm, ⟨75, _⟩ => ⟨S50x1, .f32⟩
  | .hbm, ⟨76, _⟩ => ⟨S50x50048, .f32⟩
  | .hbm, ⟨77, _⟩ => ⟨S50x50048, .f32⟩
  | .hbm, ⟨78, _⟩ => ⟨S50x50048, .bf16⟩
  | .hbm, ⟨79, _⟩ => ⟨S1x800, .f32⟩
  | .hbm, ⟨80, _⟩ => ⟨S1x50, .f32⟩
  | .hbm, ⟨81, _⟩ => ⟨S1x50, .f32⟩
  | .hbm, ⟨82, _⟩ => ⟨S300x800, .bf16⟩
  | .hbm, ⟨83, _⟩ => ⟨S800x50, .bf16⟩
  | .hbm, ⟨84, _⟩ => ⟨S800x50, .bf16⟩
  | .hbm, ⟨85, _⟩ => ⟨S1024x50, .f32⟩
  | .hbm, ⟨86, _⟩ => ⟨S1024x1, .f32⟩
  | .hbm, ⟨87, _⟩ => ⟨S1024x1, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .local _ .vmem, ⟨0, _⟩ => ⟨S512x2944, .f32⟩
  | .local _ .vmem, ⟨1, _⟩ => ⟨S512x2944, .f32⟩
  | .local _ .vmem, ⟨2, _⟩ => ⟨S512x1, .f32⟩
  | .local _ .vmem, ⟨3, _⟩ => ⟨S512x1, .f32⟩
  | .local _ .vmem, ⟨4, _⟩ => ⟨S2944x300, .bf16⟩
  | .local _ .vmem, ⟨5, _⟩ => ⟨S2944x300, .bf16⟩
  | .local _ .vmem, ⟨6, _⟩ => ⟨S300x800, .bf16⟩
  | .local _ .vmem, ⟨7, _⟩ => ⟨S1x800, .f32⟩
  | .local _ .vmem, ⟨8, _⟩ => ⟨S800x50, .bf16⟩
  | .local _ .vmem, ⟨9, _⟩ => ⟨S1x50, .f32⟩
  | .local _ .vmem, ⟨10, _⟩ => ⟨S800x50, .bf16⟩
  | .local _ .vmem, ⟨11, _⟩ => ⟨S1x50, .f32⟩
  | .local _ .vmem, ⟨12, _⟩ => ⟨S512x50, .f32⟩
  | .local _ .vmem, ⟨13, _⟩ => ⟨S512x50, .f32⟩
  | .local _ .vmem, ⟨14, _⟩ => ⟨S512x1, .f32⟩
  | .local _ .vmem, ⟨15, _⟩ => ⟨S512x1, .f32⟩
  | .local _ .vmem, ⟨16, _⟩ => ⟨S512x300, .f32⟩
  | .local _ .vmem, ⟨17, _⟩ => ⟨S512x2944, .f32⟩
  | .local _ .vmem, ⟨18, _⟩ => ⟨S512x2944, .f32⟩
  | .local _ .vmem, ⟨19, _⟩ => ⟨S512x50, .f32⟩
  | .local _ .vmem, ⟨20, _⟩ => ⟨S512x50, .f32⟩
  | .local _ .vmem, ⟨21, _⟩ => ⟨S50x2944, .bf16⟩
  | .local _ .vmem, ⟨22, _⟩ => ⟨S50x2944, .bf16⟩
  | .local _ .vmem, ⟨23, _⟩ => ⟨S512x1, .f32⟩
  | .local _ .vmem, ⟨24, _⟩ => ⟨S512x1, .f32⟩
  | .local _ .vmem, ⟨25, _⟩ => ⟨S512x1, .f32⟩
  | _, _ => ⟨S1024x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_c_9 : Ref sig .tc := ⟨.hbm, 49, rfl⟩
abbrev main_call0_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_10 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_11 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v36 : Ref sig .tc := ⟨.hbm, 63, rfl⟩
abbrev main_cst_12 : Ref sig .tc := ⟨.hbm, 64, rfl⟩
abbrev main_v37 : Ref sig .tc := ⟨.hbm, 65, rfl⟩
abbrev main_cst_13 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_14 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55_0 : Ref sig .tc := ⟨.hbm, 85, rfl⟩
abbrev main_v55_1 : Ref sig .tc := ⟨.hbm, 86, rfl⟩
abbrev main_v56 : Ref sig .tc := ⟨.hbm, 87, rfl⟩
abbrev main_cst_15 : Ref sig .tc := ⟨.hbm, 88, rfl⟩
abbrev main_v57 : Ref sig .tc := ⟨.hbm, 89, rfl⟩
abbrev main_cst_16 : Ref sig .tc := ⟨.hbm, 90, rfl⟩
abbrev main_v58 : Ref sig .tc := ⟨.hbm, 91, rfl⟩
abbrev main_cst_17 : Ref sig .tc := ⟨.hbm, 92, rfl⟩
abbrev main_v59 : Ref sig .tc := ⟨.hbm, 93, rfl⟩
abbrev main_cst_18 : Ref sig .tc := ⟨.hbm, 94, rfl⟩
abbrev main_v60 : Ref sig .tc := ⟨.hbm, 95, rfl⟩
abbrev main_v61 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23

abbrev nD : Nat := 1
abbrev τ : Topo := Topo.v7x

variable {F : FTy → Type} [FloatOps F]

abbrev grid0 : Pipeline.Grid := ⟨2, ![2, 17], ![false, false]⟩

def k0_cond2 (i : grid0.Coords) : BitVec 1 :=
  let arg1 : BitVec 32 := BitVec.ofNat 32 (i 1).val
  let c16_i32 : BitVec 32 := 16#32
  let v18 : BitVec 1 := Scalar.cmpi .eq arg1 c16_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2944 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2944x300 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S300x800 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x800 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S800x50 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S800x50 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x50 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨2, ![2, 17], ![false, false]⟩

def k1_cond2 (i : grid1.Coords) : BitVec 1 :=
  let arg1 : BitVec 32 := BitVec.ofNat 32 (i 1).val
  let c16_i32 : BitVec 32 := 16#32
  let v24 : BitVec 1 := Scalar.cmpi .eq arg1 c16_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2944 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x50 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S50x2944 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S1024x50048 : S_.BroadcastsInDim S1024x50048 (![] : Fin 0 → Fin S1024x50048.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S_S1024x512 : S_.BroadcastsInDim S1024x512 (![] : Fin 0 → Fin S1024x512.rank)
  bcast_S1024x1_S1024x512_0_1 : S1024x1.BroadcastsInDim S1024x512 (![0, 1] : Fin 2 → Fin S1024x512.rank)
  bcast_S1024x512_S1024x512x1_0_1 : S1024x512.BroadcastsInDim S1024x512x1 (![0, 1] : Fin 2 → Fin S1024x512x1.rank)
  concatenates_S1024x512x1_S1024x512x1_S1024x512x2_d2 : Shape.Concatenates [S1024x512x1, S1024x512x1] S1024x512x2 2
  bcast_S_S2 : S_.BroadcastsInDim S2 (![] : Fin 0 → Fin S2.rank)
  bcast_S2_S2x1_0 : S2.BroadcastsInDim S2x1 (![0] : Fin 1 → Fin S2x1.rank)
  bcast_S_S1024x2 : S_.BroadcastsInDim S1024x2 (![] : Fin 0 → Fin S1024x2.rank)
  reducesTo_S1024x50048_S1024_d1 : S1024x50048.ReducesTo [1] S1024
  h_S_ : 0 < S_.numel
  pads_S50000x300_S50048x300_0480_000 : S50000x300.Pads (![0, 0] : Fin 2 → Nat) ![48, 0] ![0, 0] S50048x300
  bitsLt_bf16_f32 : FTy.bits .bf16 < FTy.bits .f32
  bcast_S_S50048 : S_.BroadcastsInDim S50048 (![] : Fin 0 → Fin S50048.rank)
  bcast_S50048_S1x50048_1 : S50048.BroadcastsInDim S1x50048 (![1] : Fin 1 → Fin S1x50048.rank)
  bcast_S1x50048_S50x50048_0_1 : S1x50048.BroadcastsInDim S50x50048 (![0, 1] : Fin 2 → Fin S50x50048.rank)
  bcast_S_S50x50048 : S_.BroadcastsInDim S50x50048 (![] : Fin 0 → Fin S50x50048.rank)
  reducesTo_S50x50048_S50_d1 : S50x50048.ReducesTo [1] S50
  bcast_S_S50 : S_.BroadcastsInDim S50 (![] : Fin 0 → Fin S50.rank)
  bcast_S50_S50x1_0 : S50.BroadcastsInDim S50x1 (![0] : Fin 1 → Fin S50x1.rank)
  bcast_S50x1_S50x50048_0_1 : S50x1.BroadcastsInDim S50x50048 (![0, 1] : Fin 2 → Fin S50x50048.rank)
  shapeCasts_S800_S1x800 : S800.ShapeCasts S1x800
  shapeCasts_S50_S1x50 : S50.ShapeCasts S1x50
  inb_S512x300_S512x300_0_0 : ∀ a, (![0, 0] : Fin 2 → Nat) a + S512x300.size a ≤ S512x300.size a
  h_S512x300 : 0 < S512x300.numel
  shapeCasts_S512x300_S512x300 : S512x300.ShapeCasts S512x300
  inb_S512x2944_S512x2944_0_0 : ∀ a, (![0, 0] : Fin 2 → Nat) a + S512x2944.size a ≤ S512x2944.size a
  h_S512x2944 : 0 < S512x2944.numel
  shapeCasts_S512x2944_S512x2944 : S512x2944.ShapeCasts S512x2944
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2944 : S512x1.Broadcasts S512x2944
  inb_S2944x300_S2944x300_0_0 : ∀ a, (![0, 0] : Fin 2 → Nat) a + S2944x300.size a ≤ S2944x300.size a
  h_S2944x300 : 0 < S2944x300.numel
  shapeCasts_S2944x300_S2944x300 : S2944x300.ShapeCasts S2944x300
  inb_S300x800_S300x800_0_0 : ∀ a, (![0, 0] : Fin 2 → Nat) a + S300x800.size a ≤ S300x800.size a
  h_S300x800 : 0 < S300x800.numel
  shapeCasts_S300x800_S300x800 : S300x800.ShapeCasts S300x800
  inb_S1x800_S1x800_0_0 : ∀ a, (![0, 0] : Fin 2 → Nat) a + S1x800.size a ≤ S1x800.size a
  h_S1x800 : 0 < S1x800.numel
  shapeCasts_S1x800_S1x800 : S1x800.ShapeCasts S1x800
  broadcasts_S1x800_S512x800 : S1x800.Broadcasts S512x800
  inb_S800x50_S800x50_0_0 : ∀ a, (![0, 0] : Fin 2 → Nat) a + S800x50.size a ≤ S800x50.size a
  h_S800x50 : 0 < S800x50.numel
  shapeCasts_S800x50_S800x50 : S800x50.ShapeCasts S800x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S512x50 : S1x50.Broadcasts S512x50
  reduces_S512x50_S512 : S512x50.Reduces [1] S512
  shapeCasts_S512_S512x1 : S512.ShapeCasts S512x1
  broadcasts_S512x1_S512x50 : S512x1.Broadcasts S512x50
  inb_S512x50_S512x50_0_0 : ∀ a, (![0, 0] : Fin 2 → Nat) a + S512x50.size a ≤ S512x50.size a
  h_S512x50 : 0 < S512x50.numel
  shapeCasts_S512x50_S512x50 : S512x50.ShapeCasts S512x50
  inb_S50x2944_S50x2944_0_0 : ∀ a, (![0, 0] : Fin 2 → Nat) a + S50x2944.size a ≤ S50x2944.size a
  h_S50x2944 : 0 < S50x2944.numel
  shapeCasts_S50x2944_S50x2944 : S50x2944.ShapeCasts S50x2944
  reduces_S512x2944_S512 : S512x2944.Reduces [1] S512
  reducesTo_S1024x1_S_d0_1 : S1024x1.ReducesTo [0, 1] S_
  scatter_S1024x50048_S1024x512x2_S1024x512_n_01_01_2_wf : ScatterDims.WF S1024x50048 S1024x512x2 S1024x512 [] [0, 1] [0, 1] 2
  scatter_S1024x50048_S2x1_S1024x2_0_1_1_1_wf : ScatterDims.WF S1024x50048 S2x1 S1024x2 [0] [1] [1] 1
  dot_S50x300_S50048x300_S50x50048_1_1_0_0_n_n_wf : DotDims.WF S50x300 S50048x300 S50x50048 [1] [1] [0] [0] [] []
  dot_S512x2944_S2944x300_S512x300_1_0_0_1_n_n_wf : DotDims.WF S512x2944 S2944x300 S512x300 [1] [0] [0] [1] [] []
  dot_S512x300_S300x800_S512x800_1_0_0_1_n_n_wf : DotDims.WF S512x300 S300x800 S512x800 [1] [0] [0] [1] [] []
  dot_S512x800_S800x50_S512x50_1_0_0_1_n_n_wf : DotDims.WF S512x800 S800x50 S512x50 [1] [0] [0] [1] [] []
  dot_S512x50_S50x2944_S512x2944_1_0_0_1_n_n_wf : DotDims.WF S512x50 S50x2944 S512x2944 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2944.size a ≤ S1024x50048.size a
  hwx0_0 : ∀ i : grid0.Coords, EltTy.bits .f32 = 32 ∨ (Rect.block (s := S1024x50048) S512x2944.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S1024x1.size a
  hwx0_1 : ∀ i : grid0.Coords, EltTy.bits .f32 = 32 ∨ (Rect.block (s := S1024x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2944x300.size a ≤ S50048x300.size a
  hwx0_2 : ∀ i : grid0.Coords, EltTy.bits .bf16 = 32 ∨ (Rect.block (s := S50048x300) S2944x300.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S300x800.size a ≤ S300x800.size a
  hwx0_3 : ∀ i : grid0.Coords, EltTy.bits .bf16 = 32 ∨ (Rect.block (s := S300x800) S300x800.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x800.size a ≤ S1x800.size a
  hwx0_4 : ∀ i : grid0.Coords, EltTy.bits .f32 = 32 ∨ (Rect.block (s := S1x800) S1x800.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S800x50.size a ≤ S800x50.size a
  hwx0_5 : ∀ i : grid0.Coords, EltTy.bits .bf16 = 32 ∨ (Rect.block (s := S800x50) S800x50.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x50.size a ≤ S1x50.size a
  hwx0_6 : ∀ i : grid0.Coords, EltTy.bits .f32 = 32 ∨ (Rect.block (s := S1x50) S1x50.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S800x50.size a ≤ S800x50.size a
  hwx0_7 : ∀ i : grid0.Coords, EltTy.bits .bf16 = 32 ∨ (Rect.block (s := S800x50) S800x50.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x50.size a ≤ S1x50.size a
  hwx0_8 : ∀ i : grid0.Coords, EltTy.bits .f32 = 32 ∨ (Rect.block (s := S1x50) S1x50.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x50.size a ≤ S1024x50.size a
  hwx0_9 : ∀ i : grid0.Coords, EltTy.bits .f32 = 32 ∨ (Rect.block (s := S1024x50) S512x50.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S1024x1.size a
  hwx0_10 : ∀ i : grid0.Coords, EltTy.bits .f32 = 32 ∨ (Rect.block (s := S1024x1) S512x1.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2944.size a ≤ S1024x50048.size a
  hwx1_0 : ∀ i : grid1.Coords, EltTy.bits .f32 = 32 ∨ (Rect.block (s := S1024x50048) S512x2944.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x50.size a ≤ S1024x50.size a
  hwx1_1 : ∀ i : grid1.Coords, EltTy.bits .f32 = 32 ∨ (Rect.block (s := S1024x50) S512x50.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S50x2944.size a ≤ S50x50048.size a
  hwx1_2 : ∀ i : grid1.Coords, EltTy.bits .bf16 = 32 ∨ (Rect.block (s := S50x50048) S50x2944.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S1024x1.size a
  hwx1_3 : ∀ i : grid1.Coords, EltTy.bits .f32 = 32 ∨ (Rect.block (s := S1024x1) S512x1.size (cc1_transform_3 i) (hinb1_3 i)).WholeWords (EltTy.packing .f32)

variable [Facts₀]

def scatter_S1024x50048_S1024x512x2_S1024x512_n_01_01_2 : ScatterDims S1024x50048 S1024x512x2 S1024x512 where
  updateWindowDims := []
  insertedWindowDims := [0, 1]
  scatterDimsToOperandDims := [0, 1]
  indexVectorDim := 2
  wf := scatter_S1024x50048_S1024x512x2_S1024x512_n_01_01_2_wf
def scatter_S1024x50048_S2x1_S1024x2_0_1_1_1 : ScatterDims S1024x50048 S2x1 S1024x2 where
  updateWindowDims := [0]
  insertedWindowDims := [1]
  scatterDimsToOperandDims := [1]
  indexVectorDim := 1
  wf := scatter_S1024x50048_S2x1_S1024x2_0_1_1_1_wf
def dot_S50x300_S50048x300_S50x50048_1_1_0_0_n_n : DotDims S50x300 S50048x300 S50x50048 where
  lhsContracting := [1]
  rhsContracting := [1]
  lhsNonContracting := [0]
  rhsNonContracting := [0]
  lhsBatch := []
  rhsBatch := []
  wf := dot_S50x300_S50048x300_S50x50048_1_1_0_0_n_n_wf
def dot_S512x2944_S2944x300_S512x300_1_0_0_1_n_n : DotDims S512x2944 S2944x300 S512x300 where
  lhsContracting := [1]
  rhsContracting := [0]
  lhsNonContracting := [0]
  rhsNonContracting := [1]
  lhsBatch := []
  rhsBatch := []
  wf := dot_S512x2944_S2944x300_S512x300_1_0_0_1_n_n_wf
def dot_S512x300_S300x800_S512x800_1_0_0_1_n_n : DotDims S512x300 S300x800 S512x800 where
  lhsContracting := [1]
  rhsContracting := [0]
  lhsNonContracting := [0]
  rhsNonContracting := [1]
  lhsBatch := []
  rhsBatch := []
  wf := dot_S512x300_S300x800_S512x800_1_0_0_1_n_n_wf
def dot_S512x800_S800x50_S512x50_1_0_0_1_n_n : DotDims S512x800 S800x50 S512x50 where
  lhsContracting := [1]
  rhsContracting := [0]
  lhsNonContracting := [0]
  rhsNonContracting := [1]
  lhsBatch := []
  rhsBatch := []
  wf := dot_S512x800_S800x50_S512x50_1_0_0_1_n_n_wf
def dot_S512x50_S50x2944_S512x2944_1_0_0_1_n_n : DotDims S512x50 S50x2944 S512x2944 where
  lhsContracting := [1]
  rhsContracting := [0]
  lhsNonContracting := [0]
  rhsNonContracting := [1]
  lhsBatch := []
  rhsBatch := []
  wf := dot_S512x50_S50x2944_S512x2944_1_0_0_1_n_n_wf

abbrev win0_0 : Pipeline.Window sig grid0 :=
  Pipeline.Window.ofSpec (Memref.whole main_v26) S512x2944.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2944x300.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v52) S300x800.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S1x800.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v53) S800x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v50) S1x50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v54) S800x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v51) S1x50.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v55_0) S512x50.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v55_1) S512x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

abbrev win1_0 : Pipeline.Window sig grid1 :=
  Pipeline.Window.ofSpec (Memref.whole main_v26) S512x2944.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55_0) S512x50.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S50x2944.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v56) S512x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S1024x512 : Shape := ⟨2, ![1024, 512]⟩
abbrev S50000x300 : Shape := ⟨2, ![50000, 300]⟩
abbrev S50x300 : Shape := ⟨2, ![50, 300]⟩
abbrev S300x800 : Shape := ⟨2, ![300, 800]⟩
abbrev S800 : Shape := ⟨1, ![800]⟩
abbrev S800x50 : Shape := ⟨2, ![800, 50]⟩
abbrev S50 : Shape := ⟨1, ![50]⟩
abbrev S2 : Shape := ⟨1, ![2]⟩
abbrev S_ : Shape := ⟨0, ![]⟩
abbrev S1024x50000 : Shape := ⟨2, ![1024, 50000]⟩
abbrev S1024 : Shape := ⟨1, ![1024]⟩
abbrev S1024x1 : Shape := ⟨2, ![1024, 1]⟩
abbrev S1024x512x1 : Shape := ⟨3, ![1024, 512, 1]⟩
abbrev S1024x512x2 : Shape := ⟨3, ![1024, 512, 2]⟩
abbrev S2x1 : Shape := ⟨2, ![2, 1]⟩
abbrev S1024x2 : Shape := ⟨2, ![1024, 2]⟩
abbrev S1024x300 : Shape := ⟨2, ![1024, 300]⟩
abbrev S1024x800 : Shape := ⟨2, ![1024, 800]⟩
abbrev S1x800 : Shape := ⟨2, ![1, 800]⟩
abbrev S1024x50 : Shape := ⟨2, ![1024, 50]⟩
abbrev S1x50 : Shape := ⟨2, ![1, 50]⟩
abbrev S50x50000 : Shape := ⟨2, ![50, 50000]⟩
abbrev S50x1 : Shape := ⟨2, ![50, 1]⟩

abbrev nBuf : Space → Nat
  | .hbm => 126
  | .vmem => 0
  | .smem => 0
  | _ => 0

abbrev bufTy : (tb : Table) → Fin (tcTables nBuf tb) → BufTy
  | .hbm, ⟨0, _⟩ => ⟨S1024x512, .i32⟩
  | .hbm, ⟨1, _⟩ => ⟨S50000x300, .f32⟩
  | .hbm, ⟨2, _⟩ => ⟨S50x300, .f32⟩
  | .hbm, ⟨3, _⟩ => ⟨S300x800, .f32⟩
  | .hbm, ⟨4, _⟩ => ⟨S800, .f32⟩
  | .hbm, ⟨5, _⟩ => ⟨S800x50, .f32⟩
  | .hbm, ⟨6, _⟩ => ⟨S50, .f32⟩
  | .hbm, ⟨7, _⟩ => ⟨S800x50, .f32⟩
  | .hbm, ⟨8, _⟩ => ⟨S50, .f32⟩
  | .hbm, ⟨9, _⟩ => ⟨S2, .i32⟩
  | .hbm, ⟨10, _⟩ => ⟨S_, .f32⟩
  | .hbm, ⟨11, _⟩ => ⟨S1024x50000, .f32⟩
  | .hbm, ⟨12, _⟩ => ⟨S1024, .i32⟩
  | .hbm, ⟨13, _⟩ => ⟨S1024x1, .i32⟩
  | .hbm, ⟨14, _⟩ => ⟨S_, .i32⟩
  | .hbm, ⟨15, _⟩ => ⟨S1024x1, .i32⟩
  | .hbm, ⟨16, _⟩ => ⟨S1024x1, .i1⟩
  | .hbm, ⟨17, _⟩ => ⟨S_, .i32⟩
  | .hbm, ⟨18, _⟩ => ⟨S1024x1, .i32⟩
  | .hbm, ⟨19, _⟩ => ⟨S1024x1, .i32⟩
  | .hbm, ⟨20, _⟩ => ⟨S1024x1, .i32⟩
  | .hbm, ⟨21, _⟩ => ⟨S_, .i32⟩
  | .hbm, ⟨22, _⟩ => ⟨S1024x512, .i32⟩
  | .hbm, ⟨23, _⟩ => ⟨S1024x512, .i1⟩
  | .hbm, ⟨24, _⟩ => ⟨S_, .i32⟩
  | .hbm, ⟨25, _⟩ => ⟨S1024x512, .i32⟩
  | .hbm, ⟨26, _⟩ => ⟨S1024x512, .i32⟩
  | .hbm, ⟨27, _⟩ => ⟨S1024x512, .i32⟩
  | .hbm, ⟨28, _⟩ => ⟨S1024x512, .i32⟩
  | .hbm, ⟨29, _⟩ => ⟨S1024x512x1, .i32⟩
  | .hbm, ⟨30, _⟩ => ⟨S1024x512x1, .i32⟩
  | .hbm, ⟨31, _⟩ => ⟨S1024x512x2, .i32⟩
  | .hbm, ⟨32, _⟩ => ⟨S_, .f32⟩
  | .hbm, ⟨33, _⟩ => ⟨S1024x512, .f32⟩
  | .hbm, ⟨34, _⟩ => ⟨S1024x50000, .f32⟩
  | .hbm, ⟨35, _⟩ => ⟨S_, .i32⟩
  | .hbm, ⟨36, _⟩ => ⟨S2, .i32⟩
  | .hbm, ⟨37, _⟩ => ⟨S2, .i1⟩
  | .hbm, ⟨38, _⟩ => ⟨S_, .i32⟩
  | .hbm, ⟨39, _⟩ => ⟨S2, .i32⟩
  | .hbm, ⟨40, _⟩ => ⟨S2, .i32⟩
  | .hbm, ⟨41, _⟩ => ⟨S2, .i32⟩
  | .hbm, ⟨42, _⟩ => ⟨S2x1, .i32⟩
  | .hbm, ⟨43, _⟩ => ⟨S_, .f32⟩
  | .hbm, ⟨44, _⟩ => ⟨S1024x2, .f32⟩
  | .hbm, ⟨45, _⟩ => ⟨S1024x50000, .f32⟩
  | .hbm, ⟨46, _⟩ => ⟨S_, .f32⟩
  | .hbm, ⟨47, _⟩ => ⟨S1024, .f32⟩
  | .hbm, ⟨48, _⟩ => ⟨S1024x1, .f32⟩
  | .hbm, ⟨49, _⟩ => ⟨S1024x50000, .f32⟩
  | .hbm, ⟨50, _⟩ => ⟨S1024x50000, .f32⟩
  | .hbm, ⟨51, _⟩ => ⟨S1024x300, .f32⟩
  | .hbm, ⟨52, _⟩ => ⟨S1024x800, .f32⟩
  | .hbm, ⟨53, _⟩ => ⟨S1x800, .f32⟩
  | .hbm, ⟨54, _⟩ => ⟨S1024x800, .f32⟩
  | .hbm, ⟨55, _⟩ => ⟨S1024x800, .f32⟩
  | .hbm, ⟨56, _⟩ => ⟨S_, .f32⟩
  | .hbm, ⟨57, _⟩ => ⟨S1024x800, .f32⟩
  | .hbm, ⟨58, _⟩ => ⟨S1024x800, .f32⟩
  | .hbm, ⟨59, _⟩ => ⟨S1024x50, .f32⟩
  | .hbm, ⟨60, _⟩ => ⟨S1x50, .f32⟩
  | .hbm, ⟨61, _⟩ => ⟨S1024x50, .f32⟩
  | .hbm, ⟨62, _⟩ => ⟨S1024x50, .f32⟩
  | .hbm, ⟨63, _⟩ => ⟨S1024x50, .f32⟩
  | .hbm, ⟨64, _⟩ => ⟨S1x50, .f32⟩
  | .hbm, ⟨65, _⟩ => ⟨S1024x50, .f32⟩
  | .hbm, ⟨66, _⟩ => ⟨S1024x50, .f32⟩
  | .hbm, ⟨67, _⟩ => ⟨S_, .f32⟩
  | .hbm, ⟨68, _⟩ => ⟨S1024x50, .f32⟩
  | .hbm, ⟨69, _⟩ => ⟨S1024x50, .f32⟩
  | .hbm, ⟨70, _⟩ => ⟨S1024x50, .f32⟩
  | .hbm, ⟨71, _⟩ => ⟨S1024x50, .f32⟩
  | .hbm, ⟨72, _⟩ => ⟨S1024x50, .f32⟩
  | .hbm, ⟨73, _⟩ => ⟨S1024x50, .f32⟩
  | .hbm, ⟨74, _⟩ => ⟨S_, .f32⟩
  | .hbm, ⟨75, _⟩ => ⟨S1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S_, .f32⟩
  | .hbm, ⟨80, _⟩ => ⟨S1024, .f32⟩
  | .hbm, ⟨81, _⟩ => ⟨S_, .f32⟩
  | .hbm, ⟨82, _⟩ => ⟨S1024, .f32⟩
  | .hbm, ⟨83, _⟩ => ⟨S1024, .f32⟩
  | .hbm, ⟨84, _⟩ => ⟨S1024x1, .f32⟩
  | .hbm, ⟨85, _⟩ => ⟨S1024x50, .f32⟩
  | .hbm, ⟨86, _⟩ => ⟨S1024x50, .f32⟩
  | .hbm, ⟨87, _⟩ => ⟨S1024x50, .f32⟩
  | .hbm, ⟨88, _⟩ => ⟨S_, .f32⟩
  | .hbm, ⟨89, _⟩ => ⟨S1024, .f32⟩
  | .hbm, ⟨90, _⟩ => ⟨S1024x1, .f32⟩
  | .hbm, ⟨91, _⟩ => ⟨S1024x50, .f32⟩
  | .hbm, ⟨92, _⟩ => ⟨S1024x50, .f32⟩
  | .hbm, ⟨93, _⟩ => ⟨S50x50000, .f32⟩
  | .hbm, ⟨94, _⟩ => ⟨S_, .f32⟩
  | .hbm, ⟨95, _⟩ => ⟨S50, .f32⟩
  | .hbm, ⟨96, _⟩ => ⟨S_, .f32⟩
  | .hbm, ⟨97, _⟩ => ⟨S50, .f32⟩
  | .hbm, ⟨98, _⟩ => ⟨S50, .f32⟩
  | .hbm, ⟨99, _⟩ => ⟨S50x1, .f32⟩
  | .hbm, ⟨100, _⟩ => ⟨S50x50000, .f32⟩
  | .hbm, ⟨101, _⟩ => ⟨S50x50000, .f32⟩
  | .hbm, ⟨102, _⟩ => ⟨S50x50000, .f32⟩
  | .hbm, ⟨103, _⟩ => ⟨S_, .f32⟩
  | .hbm, ⟨104, _⟩ => ⟨S50, .f32⟩
  | .hbm, ⟨105, _⟩ => ⟨S50x1, .f32⟩
  | .hbm, ⟨106, _⟩ => ⟨S50x50000, .f32⟩
  | .hbm, ⟨107, _⟩ => ⟨S50x50000, .f32⟩
  | .hbm, ⟨108, _⟩ => ⟨S1024x50000, .f32⟩
  | .hbm, ⟨109, _⟩ => ⟨S_, .f32⟩
  | .hbm, ⟨110, _⟩ => ⟨S1024x50000, .f32⟩
  | .hbm, ⟨111, _⟩ => ⟨S1024x50000, .f32⟩
  | .hbm, ⟨112, _⟩ => ⟨S1024x50000, .f32⟩
  | .hbm, ⟨113, _⟩ => ⟨S1024x50000, .f32⟩
  | .hbm, ⟨114, _⟩ => ⟨S_, .f32⟩
  | .hbm, ⟨115, _⟩ => ⟨S1024, .f32⟩
  | .hbm, ⟨116, _⟩ => ⟨S1024, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | _, _ => ⟨S1024x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call0_cst : Ref sig .tc := ⟨.hbm, 56, rfl⟩
abbrev main_call0_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_cst_13 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_cst_16 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_17 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_18 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_19 : Ref sig .tc := ⟨.hbm, 114, rfl⟩
abbrev main_v82 : Ref sig .tc := ⟨.hbm, 115, rfl⟩
abbrev main_v83 : Ref sig .tc := ⟨.hbm, 116, rfl⟩
abbrev main_cst_20 : Ref sig .tc := ⟨.hbm, 117, rfl⟩
abbrev main_v84 : Ref sig .tc := ⟨.hbm, 118, rfl⟩
abbrev main_cst_21 : Ref sig .tc := ⟨.hbm, 119, rfl⟩
abbrev main_v85 : Ref sig .tc := ⟨.hbm, 120, rfl⟩
abbrev main_cst_22 : Ref sig .tc := ⟨.hbm, 121, rfl⟩
abbrev main_v86 : Ref sig .tc := ⟨.hbm, 122, rfl⟩
abbrev main_cst_23 : Ref sig .tc := ⟨.hbm, 123, rfl⟩
abbrev main_v87 : Ref sig .tc := ⟨.hbm, 124, rfl⟩
abbrev main_v88 : Ref sig .tc := ⟨.hbm, 125, rfl⟩

abbrev nD : Nat := 1
abbrev τ : Topo := Topo.v7x

variable {F : FTy → Type} [FloatOps F]

class Facts₀ : Prop where
  bcast_S_S1024x50000 : S_.BroadcastsInDim S1024x50000 (![] : Fin 0 → Fin S1024x50000.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S_S1024x512 : S_.BroadcastsInDim S1024x512 (![] : Fin 0 → Fin S1024x512.rank)
  bcast_S1024x1_S1024x512_0_1 : S1024x1.BroadcastsInDim S1024x512 (![0, 1] : Fin 2 → Fin S1024x512.rank)
  bcast_S1024x512_S1024x512x1_0_1 : S1024x512.BroadcastsInDim S1024x512x1 (![0, 1] : Fin 2 → Fin S1024x512x1.rank)
  concatenates_S1024x512x1_S1024x512x1_S1024x512x2_d2 : Shape.Concatenates [S1024x512x1, S1024x512x1] S1024x512x2 2
  bcast_S_S2 : S_.BroadcastsInDim S2 (![] : Fin 0 → Fin S2.rank)
  bcast_S2_S2x1_0 : S2.BroadcastsInDim S2x1 (![0] : Fin 1 → Fin S2x1.rank)
  bcast_S_S1024x2 : S_.BroadcastsInDim S1024x2 (![] : Fin 0 → Fin S1024x2.rank)
  reducesTo_S1024x50000_S1024_d1 : S1024x50000.ReducesTo [1] S1024
  h_S_ : 0 < S_.numel
  bcast_S1024x1_S1024x50000_0_1 : S1024x1.BroadcastsInDim S1024x50000 (![0, 1] : Fin 2 → Fin S1024x50000.rank)
  bcast_S800_S1x800_1 : S800.BroadcastsInDim S1x800 (![1] : Fin 1 → Fin S1x800.rank)
  bcast_S1x800_S1024x800_0_1 : S1x800.BroadcastsInDim S1024x800 (![0, 1] : Fin 2 → Fin S1024x800.rank)
  bcast_S_S1024x800 : S_.BroadcastsInDim S1024x800 (![] : Fin 0 → Fin S1024x800.rank)
  bcast_S50_S1x50_1 : S50.BroadcastsInDim S1x50 (![1] : Fin 1 → Fin S1x50.rank)
  bcast_S1x50_S1024x50_0_1 : S1x50.BroadcastsInDim S1024x50 (![0, 1] : Fin 2 → Fin S1024x50.rank)
  bcast_S_S1024x50 : S_.BroadcastsInDim S1024x50 (![] : Fin 0 → Fin S1024x50.rank)
  reducesTo_S1024x50_S1024_d1 : S1024x50.ReducesTo [1] S1024
  bcast_S_S1024 : S_.BroadcastsInDim S1024 (![] : Fin 0 → Fin S1024.rank)
  bcast_S1024x1_S1024x50_0_1 : S1024x1.BroadcastsInDim S1024x50 (![0, 1] : Fin 2 → Fin S1024x50.rank)
  reducesTo_S50x50000_S50_d1 : S50x50000.ReducesTo [1] S50
  bcast_S_S50 : S_.BroadcastsInDim S50 (![] : Fin 0 → Fin S50.rank)
  bcast_S50_S50x1_0 : S50.BroadcastsInDim S50x1 (![0] : Fin 1 → Fin S50x1.rank)
  bcast_S50x1_S50x50000_0_1 : S50x1.BroadcastsInDim S50x50000 (![0, 1] : Fin 2 → Fin S50x50000.rank)
  reducesTo_S1024_S_d0 : S1024.ReducesTo [0] S_
  scatter_S1024x50000_S1024x512x2_S1024x512_n_01_01_2_wf : ScatterDims.WF S1024x50000 S1024x512x2 S1024x512 [] [0, 1] [0, 1] 2
  scatter_S1024x50000_S2x1_S1024x2_0_1_1_1_wf : ScatterDims.WF S1024x50000 S2x1 S1024x2 [0] [1] [1] 1
  dot_S1024x50000_S50000x300_S1024x300_1_0_0_1_n_n_wf : DotDims.WF S1024x50000 S50000x300 S1024x300 [1] [0] [0] [1] [] []
  dot_S1024x300_S300x800_S1024x800_1_0_0_1_n_n_wf : DotDims.WF S1024x300 S300x800 S1024x800 [1] [0] [0] [1] [] []
  dot_S1024x800_S800x50_S1024x50_1_0_0_1_n_n_wf : DotDims.WF S1024x800 S800x50 S1024x50 [1] [0] [0] [1] [] []
  dot_S50x300_S50000x300_S50x50000_1_1_0_0_n_n_wf : DotDims.WF S50x300 S50000x300 S50x50000 [1] [1] [0] [0] [] []
  dot_S1024x50_S50x50000_S1024x50000_1_0_0_1_n_n_wf : DotDims.WF S1024x50 S50x50000 S1024x50000 [1] [0] [0] [1] [] []

variable [Facts₀]

def scatter_S1024x50000_S1024x512x2_S1024x512_n_01_01_2 : ScatterDims S1024x50000 S1024x512x2 S1024x512 where
  updateWindowDims := []
  insertedWindowDims := [0, 1]
  scatterDimsToOperandDims := [0, 1]
  indexVectorDim := 2
  wf := scatter_S1024x50000_S1024x512x2_S1024x512_n_01_01_2_wf
def scatter_S1024x50000_S2x1_S1024x2_0_1_1_1 : ScatterDims S1024x50000 S2x1 S1024x2 where
  updateWindowDims := [0]
  insertedWindowDims := [1]
  scatterDimsToOperandDims := [1]
  indexVectorDim := 1
  wf := scatter_S1024x50000_S2x1_S1024x2_0_1_1_1_wf
def dot_S1024x50000_S50000x300_S1024x300_1_0_0_1_n_n : DotDims S1024x50000 S50000x300 S1024x300 where
  lhsContracting := [1]
  rhsContracting := [0]
  lhsNonContracting := [0]
  rhsNonContracting := [1]
  lhsBatch := []
  rhsBatch := []
  wf := dot_S1024x50000_S50000x300_S1024x300_1_0_0_1_n_n_wf
def dot_S1024x300_S300x800_S1024x800_1_0_0_1_n_n : DotDims S1024x300 S300x800 S1024x800 where
  lhsContracting := [1]
  rhsContracting := [0]
  lhsNonContracting := [0]
  rhsNonContracting := [1]
  lhsBatch := []
  rhsBatch := []
  wf := dot_S1024x300_S300x800_S1024x800_1_0_0_1_n_n_wf
def dot_S1024x800_S800x50_S1024x50_1_0_0_1_n_n : DotDims S1024x800 S800x50 S1024x50 where
  lhsContracting := [1]
  rhsContracting := [0]
  lhsNonContracting := [0]
  rhsNonContracting := [1]
  lhsBatch := []
  rhsBatch := []
  wf := dot_S1024x800_S800x50_S1024x50_1_0_0_1_n_n_wf
def dot_S50x300_S50000x300_S50x50000_1_1_0_0_n_n : DotDims S50x300 S50000x300 S50x50000 where
  lhsContracting := [1]
  rhsContracting := [1]
  lhsNonContracting := [0]
  rhsNonContracting := [0]
  lhsBatch := []
  rhsBatch := []
  wf := dot_S50x300_S50000x300_S50x50000_1_1_0_0_n_n_wf
def dot_S1024x50_S50x50000_S1024x50000_1_0_0_1_n_n : DotDims S1024x50 S50x50000 S1024x50000 where
  lhsContracting := [1]
  rhsContracting := [0]
  lhsNonContracting := [0]
  rhsNonContracting := [1]
  lhsBatch := []
  rhsBatch := []
  wf := dot_S1024x50_S50x50000_S1024x50000_1_0_0_1_n_n_wf

class Facts : Prop extends Facts₀ where

variable [Facts]
-- ==== Proof.KbEncRuns.lean ====
import proofs.«427360_j50826642981279_1_alg».proof.Proof.Gen.Kernel.Launch
import proofs.«427360_j50826642981279_1_alg».proof.Proof.Gen.Kernel.Skeleton
import proofs.«427360_j50826642981279_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Enc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 17 = 0 :=
  (by decide +kernel : ∀ t : Fin grid0.N, isFirst (grid0.coords t) ↔ t.val % 17 = 0)

abbrev isLast (i : grid0.Coords) : Prop := k0_cond2 i = 1#1
theorem isLast_iff : ∀ t : Fin cfg0.N, isLast (grid0.coords t) ↔ t.val % 17 = 16 :=
  (by decide +kernel : ∀ t : Fin grid0.N, isLast (grid0.coords t) ↔ t.val % 17 = 16)

/-- Decided point by point over the grid. -/
theorem idle_out : ∀ t : Fin cfg0.N, ¬t.val % 17 = 16 → ∀ w : Fin cfg0.W, 9 ≤ w.val → cfg0.idle w (grid0.coords t) = true ∧ (cfg0.win w).flush t = false := by decide +kernel
theorem live_out : ∀ t : Fin cfg0.N, t.val % 17 = 16 → ∀ w : Fin cfg0.W, 9 ≤ w.val → cfg0.idle w (grid0.coords t) = false := by decide +kernel

theorem hst (w : Fin cfg0.W) (t : Fin cfg0.N) : ((cfg0.win w).stage (cfg0.slots t w)).IsWhole := launch0.stage_whole w _

abbrev accM : Memref sig .tc .vmem S512x300 .f32 := Memref.whole cc0_scratch0
abbrev accV : View sig .tc .vmem S512x300 .f32 := accM.view
abbrev thetaV : View sig .tc .vmem S512x50 .f32 := (Memref.whole cc0_stg9_0 : Memref sig .tc .vmem S512x50 .f32).view
abbrev klV : View sig .tc .vmem S512x1 .f32 := (Memref.whole cc0_stg10_0 : Memref sig .tc .vmem S512x1 .f32).view

/-- Everything the class invariant holds besides the accumulator, kept folded. -/
abbrev restOther (c : Dev nD) : sProp 𝕄 :=
  Pipeline.scopedRestBut (Ix := Unit) (Name := ℕ) (U := UR sig nD τ) (Lvl := ℕ) (Val := Elt F) spec0 c [cc0_scratch0]

/-- The class invariant with the accumulator split off at some contents. -/
theorem PhiA_acc (c : Dev nD) :
    (Pipeline.ΦA spec0 c : sProp 𝕄)
      = iprop(iprop((∃ d, owns (c : Thread nD τ) accM fullShare d) ∗ restOther (F := F) c) ∗ (∃ r, prngReg c r)) := by
  unfold Pipeline.ΦA; rw [Pipeline.scopedRest_split_of_list spec0 c [cc0_scratch0] (by decide) (by decide)]; simp only [accM, owns_whole]; try rfl

theorem owns_eq_unread (c : Thread nD τ) {sp : Space} {sh : Shape} {e : EltTy} {m : Memref sig c.2.kind sp sh e} (h : m.IsWhole)
    (q : PosShare TreeShare) (x : sh.Idx → Elt F e) :
    (owns c m q x : sProp 𝕄) = (m.view.loc c ↦[m.view.set]{q} h.unread x) := by
  have h₁ : (owns c m q x : sProp 𝕄) ⊢ (m.view.loc c ↦[m.view.set]{q} h.unread x) := by
    unfold owns; iintro ⟨%f, %hf, H⟩; obtain rfl := h.eq_unread hf; iexact H
  exact BI.equiv_iff.mp ⟨h₁, (owns_intro c m q _).trans (Entails.of_eq (by rw [h.read_unread]))⟩

variable (V : (c : Dev nD) → (b : Ref sig .tc) → Buf (Elt F) ((c : Thread nD τ).loc b))

/-- The block of array `w` that point `t` works on, at the entry contents `V`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end Cert.Kernel.Enc

end
-- ==== Proof.KbEncRunA.lean ====
import proofs.«427360_j50826642981279_1_alg».proof.Proof.KbEncRuns

noncomputable section

namespace Cert.Kernel.Enc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x2944 .f32) (harg2 : arg2.IsWhole) (arg3 : Memref sig .tc .vmem S512x1 .f32) (harg3 : arg3.IsWhole) (arg4 : Memref sig .tc .vmem S2944x300 .bf16) (harg4 : arg4.IsWhole) (arg5 : Memref sig .tc .vmem S300x800 .bf16) (harg5 : arg5.IsWhole) (arg6 : Memref sig .tc .vmem S1x800 .f32) (harg6 : arg6.IsWhole) (arg7 : Memref sig .tc .vmem S800x50 .bf16) (harg7 : arg7.IsWhole) (arg8 : Memref sig .tc .vmem S1x50 .f32) (harg8 : arg8.IsWhole) (arg9 : Memref sig .tc .vmem S800x50 .bf16) (harg9 : arg9.IsWhole) (arg10 : Memref sig .tc .vmem S1x50 .f32) (harg10 : arg10.IsWhole) (arg11 : Memref sig .tc .vmem S512x50 .f32) (harg11 : arg11.IsWhole) (arg12 : Memref sig .tc .vmem S512x1 .f32) (harg12 : arg12.IsWhole) (arg13 : Memref sig .tc .vmem S512x300 .f32) (harg13 : arg13.IsWhole)
  (x0 : Vec F S512x2944 .f32) (x1 : Vec F S512x1 .f32) (x2 : Vec F S2944x300 .bf16) (x3 : Vec F S300x800 .bf16) (x4 : Vec F S1x800 .f32) (x5 : Vec F S800x50 .bf16) (x6 : Vec F S1x50 .f32) (x7 : Vec F S800x50 .bf16) (x8 : Vec F S1x50 .f32)

/-- The nine input buffers at their contents, as one resource: each run returns it unchanged. -/
def ins : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8)

/-- First point of a row: whatever the accumulator held, it ends as the pieces `LS`. The outputs are not touched, so they are not mentioned. -/
noncomputable def runFirst (hc0 : isFirst i) (hc1 : ¬isLast i) :
    { LS : List (View.Piece (Elt F) S512x300 .f32) //
      ∀ (E : Set ℕ) (K : PUnit → sProp 𝕄),
        iprop(ins c arg2 arg3 arg4 arg5 arg6 arg7 arg8 arg9 arg10 x0 x1 x2 x3 x4 x5 x6 x7 x8 ∗ (∃ d, owns (c : Thread nD τ) arg13 fullShare d) ∗ (iprop(ins c arg2 arg3 arg4 arg5 arg6 arg7 arg8 arg9 arg10 x0 x1 x2 x3 x4 x5 x6 x7 x8 ∗ (∃ f, arg13.view.loc (c : Thread nD τ) ↦[arg13.view.set]{fullShare} arg13.view.writes (Elt F) f LS)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__encoder_kernel_eq_skeleton]; unfold cc0__encoder_kernel_skel ins
    rw [owns_eq_unread c harg2, owns_eq_unread c harg3, owns_eq_unread c harg4, owns_eq_unread c harg5, owns_eq_unread c harg6, owns_eq_unread c harg7, owns_eq_unread c harg8, owns_eq_unread c harg9, owns_eq_unread c harg10]; unfold owns
    iintro ⟨⟨H0, H1, H2, H3, H4, H5, H6, H7, H8⟩, ⟨%ds, %fs, -, HS⟩, Hk⟩
    sl_exec (disch := first | exact hc0 | exact hc1)
    sl_step
    iapply Hk
    iframe H0 H1 H2 H3 H4 H5 H6 H7 H8
    iexists _; iexact HS

/-- Inner point of a row: the accumulator goes from `xs` to the pieces `LS`. -/
noncomputable def runMid (hc0 : ¬isFirst i) (hc1 : ¬isLast i) (xs : Vec F S512x300 .f32) :
    { LS : List (View.Piece (Elt F) S512x300 .f32) //
      ∀ (E : Set ℕ) (K : PUnit → sProp 𝕄),
        iprop(ins c arg2 arg3 arg4 arg5 arg6 arg7 arg8 arg9 arg10 x0 x1 x2 x3 x4 x5 x6 x7 x8 ∗ owns (c : Thread nD τ) arg13 fullShare xs ∗ (iprop(ins c arg2 arg3 arg4 arg5 arg6 arg7 arg8 arg9 arg10 x0 x1 x2 x3 x4 x5 x6 x7 x8 ∗ (∃ f, arg13.view.loc (c : Thread nD τ) ↦[arg13.view.set]{fullShare} arg13.view.writes (Elt F) f LS)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__encoder_kernel_eq_skeleton]; unfold cc0__encoder_kernel_skel ins
    rw [owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg13]
    iintro ⟨⟨H0, H1, H2, H3, H4, H5, H6, H7, H8⟩, HS, Hk⟩
    sl_exec (disch := first | exact hc0 | exact hc1)
    sl_step
    iapply Hk
    iframe H0 H1 H2 H3 H4 H5 H6 H7 H8
    iexists _; iexact HS

/-- Last point of a row: the accumulator goes from `xs` to `LS`, and the two outputs end as the pieces `L9` and `L10`. -/
noncomputable def runLast (hc0 : ¬isFirst i) (hc1 : isLast i) (xs : Vec F S512x300 .f32) :
    Σ' (L9 : List (View.Piece (Elt F) S512x50 .f32)) (L10 : List (View.Piece (Elt F) S512x1 .f32)), { LS : List (View.Piece (Elt F) S512x300 .f32) //
      ∀ (E : Set ℕ) (K : PUnit → sProp 𝕄),
        iprop(ins c arg2 arg3 arg4 arg5 arg6 arg7 arg8 arg9 arg10 x0 x1 x2 x3 x4 x5 x6 x7 x8 ∗ (∃ d, owns (c : Thread nD τ) arg11 fullShare d) ∗ (∃ d, owns (c : Thread nD τ) arg12 fullShare d) ∗ owns (c : Thread nD τ) arg13 fullShare xs
            ∗ (iprop(ins c arg2 arg3 arg4 arg5 arg6 arg7 arg8 arg9 arg10 x0 x1 x2 x3 x4 x5 x6 x7 x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__encoder_kernel_eq_skeleton]; unfold cc0__encoder_kernel_skel ins
    simp only [k0_part1_eq_skeleton]
    rw [owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg13]; unfold owns
    iintro ⟨⟨H0, H1, H2, H3, H4, H5, H6, H7, H8⟩, ⟨%d9, %f9, -, H9⟩, ⟨%d10, %f10, -, H10⟩, HS, Hk⟩
    sl_exec (disch := first | exact hc0 | exact hc1)
    sl_step
    iapply Hk
    iframe H0 H1 H2 H3 H4 H5 H6 H7 H8
    isplitl [H9]; · iexists _; iexact H9
    isplitl [H10]; · iexists _; iexact H10
    iexists _; iexact HS

end Cert.Kernel.Enc

end
-- ==== Proof.KbEncFrame.lean ====
import proofs.«427360_j50826642981279_1_alg».proof.Proof.KbEncRunA

noncomputable section

namespace Cert.Kernel.Enc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three runs instantiated at grid point `t`. -/
def firstAt (c : Dev nD) (t : Fin cfg0.N) (h0 : t.val % 17 = 0) :=
  runFirst (F := F) c (grid0.coords t) (st0_0 t) (hst 0 t) (st0_1 t) (hst 1 t) (st0_2 t) (hst 2 t) (st0_3 t) (hst 3 t) (st0_4 t) (hst 4 t) (st0_5 t) (hst 5 t) (st0_6 t) (hst 6 t) (st0_7 t) (hst 7 t) (st0_8 t) (hst 8 t) (st0_9 t) (hst 9 t) (st0_10 t) (hst 10 t) accM (Memref.isWhole_whole _)
    (blk0 V c 0 t) (blk0 V c 1 t) (blk0 V c 2 t) (blk0 V c 3 t) (blk0 V c 4 t) (blk0 V c 5 t) (blk0 V c 6 t) (blk0 V c 7 t) (blk0 V c 8 t) ((isFirst_iff t).mpr h0) (fun h => by have := (isLast_iff t).mp h; omega)

def midAt (c : Dev nD) (t : Fin cfg0.N) (h0 : ¬t.val % 17 = 0) (h1 : ¬t.val % 17 = 16) (xs : Vec F S512x300 .f32) :=
  runMid (F := F) c (grid0.coords t) (st0_0 t) (hst 0 t) (st0_1 t) (hst 1 t) (st0_2 t) (hst 2 t) (st0_3 t) (hst 3 t) (st0_4 t) (hst 4 t) (st0_5 t) (hst 5 t) (st0_6 t) (hst 6 t) (st0_7 t) (hst 7 t) (st0_8 t) (hst 8 t) (st0_9 t) (hst 9 t) (st0_10 t) (hst 10 t) accM (Memref.isWhole_whole _)
    (blk0 V c 0 t) (blk0 V c 1 t) (blk0 V c 2 t) (blk0 V c 3 t) (blk0 V c 4 t) (blk0 V c 5 t) (blk0 V c 6 t) (blk0 V c 7 t) (blk0 V c 8 t) (fun h => h0 ((isFirst_iff t).mp h)) (fun h => h1 ((isLast_iff t).mp h)) xs

def lastAt (c : Dev nD) (t : Fin cfg0.N) (h1 : t.val % 17 = 16) (xs : Vec F S512x300 .f32) :=
  runLast (F := F) c (grid0.coords t) (st0_0 t) (hst 0 t) (st0_1 t) (hst 1 t) (st0_2 t) (hst 2 t) (st0_3 t) (hst 3 t) (st0_4 t) (hst 4 t) (st0_5 t) (hst 5 t) (st0_6 t) (hst 6 t) (st0_7 t) (hst 7 t) (st0_8 t) (hst 8 t) (st0_9 t) (hst 9 t) (st0_10 t) (hst 10 t) accM (Memref.isWhole_whole _)
    (blk0 V c 0 t) (blk0 V c 1 t) (blk0 V c 2 t) (blk0 V c 3 t) (blk0 V c 4 t) (blk0 V c 5 t) (blk0 V c 6 t) (blk0 V c 7 t) (blk0 V c 8 t) (fun h => by have := (isFirst_iff t).mp h; omega) ((isLast_iff t).mpr h1) xs

/-- What each run leaves, as a value: its pieces read back (they cover, so the base does not matter). -/
def accFirst (c : Dev nD) (t : Fin cfg0.N) (h0 : t.val % 17 = 0) : Vec F S512x300 .f32 :=
  accV.read (Elt F) (accV.writes (Elt F) accV.junk (firstAt V c t h0).1)

def accMid (c : Dev nD) (t : Fin cfg0.N) (h0 : ¬t.val % 17 = 0) (h1 : ¬t.val % 17 = 16) (xs : Vec F S512x300 .f32) : Vec F S512x300 .f32 :=
  accV.read (Elt F) (accV.writes (Elt F) accV.junk (midAt V c t h0 h1 xs).1)

def accLast (c : Dev nD) (t : Fin cfg0.N) (h1 : t.val % 17 = 16) (xs : Vec F S512x300 .f32) : Vec F S512x300 .f32 :=
  accV.read (Elt F) (accV.writes (Elt F) accV.junk (lastAt V c t h1 xs).2.2.1)
def thetaLast (c : Dev nD) (t : Fin cfg0.N) (h1 : t.val % 17 = 16) (xs : Vec F S512x300 .f32) : Vec F S512x50 .f32 :=
  thetaV.read (Elt F) (thetaV.writes (Elt F) thetaV.junk (lastAt V c t h1 xs).1)
def klLast (c : Dev nD) (t : Fin cfg0.N) (h1 : t.val % 17 = 16) (xs : Vec F S512x300 .f32) : Vec F S512x1 .f32 :=
  klV.read (Elt F) (klV.writes (Elt F) klV.junk (lastAt V c t h1 xs).2.1)

/-- A default value for an output at a point that does not produce it. -/
abbrev thetaIdle : Vec F S512x50 .f32 := thetaV.read (Elt F) thetaV.junk
abbrev klIdle : Vec F S512x1 .f32 := klV.read (Elt F) klV.junk

/-- One step of the recurrence: the outputs and the accumulator after point `t`, from the accumulator's value `xs` before it. -/
def stepAt (c : Dev nD) (t : Fin cfg0.N) (xs : Vec F S512x300 .f32) : Vec F S512x50 .f32 × Vec F S512x1 .f32 × Vec F S512x300 .f32 :=
  if h0 : t.val % 17 = 0 then (thetaIdle, klIdle, accFirst V c t h0)
  else if h1 : t.val % 17 = 16 then (thetaLast V c t h1 xs, klLast V c t h1 xs, accLast V c t h1 xs)
  else (thetaIdle, klIdle, accMid V c t h0 h1 xs)

/-- The recurrence unrolled in grid order. -/
def stateAt (c : Dev nD) : (n : ℕ) → n < cfg0.N → Vec F S512x50 .f32 × Vec F S512x1 .f32 × Vec F S512x300 .f32
  | 0, hn => stepAt V c ⟨0, hn⟩ (accV.read (Elt F) accV.junk)
  | n + 1, hn => stepAt V c ⟨n + 1, hn⟩ (stateAt c n (Nat.lt_of_succ_lt hn)).2.2

def accBefore (c : Dev nD) (t : Fin cfg0.N) : Vec F S512x300 .f32 :=
  if h : t.val = 0 then accV.read (Elt F) accV.junk
  else (stateAt V c (t.val - 1) (Nat.lt_of_le_of_lt (Nat.sub_le _ _) t.isLt)).2.2

theorem stateAt_eq (c : Dev nD) (t : Fin cfg0.N) : stateAt V c t.val t.isLt = stepAt V c t (accBefore V c t) := by
  obtain ⟨n, hn⟩ := t
  cases n <;> rfl

theorem stateAt_first (c : Dev nD) (t : Fin cfg0.N) (h0 : t.val % 17 = 0) :
    stateAt V c t.val t.isLt = (thetaIdle, klIdle, accFirst V c t h0) := by
  rw [stateAt_eq]; exact dif_pos h0

theorem stateAt_mid (c : Dev nD) (t : Fin cfg0.N) (h0 : ¬t.val % 17 = 0) (h1 : ¬t.val % 17 = 16) :
    stateAt V c t.val t.isLt = (thetaIdle, klIdle, accMid V c t h0 h1 (accBefore V c t)) := by
  rw [stateAt_eq]; exact (dif_neg h0).trans (dif_neg h1)

theorem stateAt_last (c : Dev nD) (t : Fin cfg0.N) (h1 : t.val % 17 = 16) :
    stateAt V c t.val t.isLt = (thetaLast V c t h1 (accBefore V c t), klLast V c t h1 (accBefore V c t), accLast V c t h1 (accBefore V c t)) := by
  rw [stateAt_eq]; exact (dif_neg (by omega)).trans (dif_pos h1)

theorem accBefore_pos (c : Dev nD) (t : Fin cfg0.N) (hz : t.val ≠ 0) :
    accBefore V c t = (stateAt V c (t.val - 1) (Nat.lt_of_le_of_lt (Nat.sub_le _ _) t.isLt)).2.2 := dif_neg hz

/-- The invariant at position `n`: the accumulator holds the recurrence's value after `n` points (anything when `n = 0`). -/
def PhiAt (c : Dev nD) : (n : ℕ) → n ≤ cfg0.N → sProp 𝕄
  | 0, _ => Pipeline.ΦA spec0 c
  | n + 1, hn => iprop(iprop(owns (c : Thread nD τ) accM fullShare ((stateAt V c n hn).2.2) ∗ restOther (F := F) c) ∗ (∃ r, prngReg c r))

/-- The proof data: inputs keep their blocks, outputs follow `stateAt`, the invariant is `PhiAt`. -/
def dat0 (V : (c : Dev nD) → (b : Ref sig .tc) → Buf (Elt F) ((c : Thread nD τ).loc b)) (c : Dev nD) :
    Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => (stateAt V c t.val t.isLt).1
    | ⟨10, _⟩ => (stateAt V c t.val t.isLt).2.1
  Φ t := PhiAt V c t.val (Nat.le_of_lt_succ t.isLt)
  q _ := fullShare
  owed _ := 0

theorem A_eq0 (c : Dev nD) (w : Fin cfg0.W) : (dat0 V c).A w = V c (Pipeline.arrRef spec0 w) := rfl
theorem q_full0 (c : Dev nD) (w : Fin cfg0.W) : (dat0 V c).q w = fullShare := rfl
theorem owed0 (c : Dev nD) (t : Fin (cfg0.N + 1)) : (dat0 V c).owed t = 0 := rfl
theorem recorded0 (c : Dev nD) (t : Fin (cfg0.N + 1)) : (dat0 V c).recorded t = Set.univ := rfl
theorem after9 (c : Dev nD) (t : Fin cfg0.N) : (dat0 V c).after 9 t = (stateAt V c t.val t.isLt).1 := rfl
theorem after10 (c : Dev nD) (t : Fin cfg0.N) : (dat0 V c).after 10 t = (stateAt V c t.val t.isLt).2.1 := rfl

/-- For `t ≠ 0` the invariant names the accumulator's value, `accBefore`. -/
theorem Phi_pos (c : Dev nD) (t : Fin cfg0.N) (hz : t.val ≠ 0) :
    (dat0 V c).Φ t.castSucc = iprop(iprop(owns (c : Thread nD τ) accM fullShare (accBefore V c t) ∗ restOther (F := F) c) ∗ (∃ r, prngReg c r)) := by
  obtain ⟨n, hn⟩ := t
  cases n with
  | zero => exact absurd rfl hz
  | succ n => rfl

/-- At any position the invariant implies the class invariant: forget the accumulator's value. -/
theorem Phi_out (c : Dev nD) (t : Fin (cfg0.N + 1)) : (dat0 V c).Φ t ⊢ (Pipeline.ΦA spec0 c : sProp 𝕄) := by
  obtain ⟨n, hn⟩ := t
  cases n with
  | zero => exact Entails.refl _
  | succ n =>
    rw [PhiA_acc]
    show iprop(iprop(owns (c : Thread nD τ) accM fullShare _ ∗ restOther (F := F) c) ∗ (∃ r, prngReg c r)) ⊢ _
    iintro ⟨⟨HS, Hrest⟩, Hg⟩
    iframe Hrest Hg; iexists _; iexact HS

/-- One proof for the nine windows. -/
theorem before_in (c : Dev nD) (t : Fin cfg0.N) :
    (∀ d, (dat0 V c).before 0 t d = blk0 V c 0 t) ∧ (∀ d, (dat0 V c).before 1 t d = blk0 V c 1 t) ∧ (∀ d, (dat0 V c).before 2 t d = blk0 V c 2 t)
      ∧ (∀ d, (dat0 V c).before 3 t d = blk0 V c 3 t) ∧ (∀ d, (dat0 V c).before 4 t d = blk0 V c 4 t) ∧ (∀ d, (dat0 V c).before 5 t d = blk0 V c 5 t)
      ∧ (∀ d, (dat0 V c).before 6 t d = blk0 V c 6 t) ∧ (∀ d, (dat0 V c).before 7 t d = blk0 V c 7 t) ∧ (∀ d, (dat0 V c).before 8 t d = blk0 V c 8 t) := by
  refine ⟨?_, ?_, ?_, ?_, ?_, ?_, ?_, ?_, ?_⟩ <;> intro d <;>
    exact ((dat0 V c).before_in_eq_fetched _ rfl (fun _ => rfl) (fun _ _ _ => rfl) (fun t => rfl) t d).trans rfl

/-- The body's precondition at point `t` -/
def bodyPre (c : Dev nD) (t : Fin cfg0.N) : sProp 𝕄 :=
  let p (w : Fin cfg0.W) : sProp 𝕄 := iprop(∃ d, owns (c : Thread nD τ) ((cfg0.win w).stage (cfg0.slots t w)) fullShare ((dat0 V c).before w t d))
  iprop((dat0 V c).Φ t.castSucc ∗ (dat0 V c).owesAt () t.castSucc ∗ p 0 ∗ p 1 ∗ p 2 ∗ p 3 ∗ p 4 ∗ p 5 ∗ p 6 ∗ p 7 ∗ p 8 ∗ p 9 ∗ p 10)

/-- and its postcondition. -/
def bodyPost (c : Dev nD) (t : Fin cfg0.N) : sProp 𝕄 :=
  let q (w : Fin cfg0.W) (x : (cfg0.win w).block.Idx → Elt F (cfg0.win w).elt) : sProp 𝕄 := owns (c : Thread nD τ) ((cfg0.win w).stage (cfg0.slots t w)) fullShare x
  iprop((dat0 V c).Φ t.succ ∗ (dat0 V c).owesAt () t.succ ∗ q 0 (blk0 V c 0 t) ∗ q 1 (blk0 V c 1 t) ∗ q 2 (blk0 V c 2 t) ∗ q 3 (blk0 V c 3 t) ∗ q 4 (blk0 V c 4 t) ∗ q 5 (blk0 V c 5 t) ∗ q 6 (blk0 V c 6 t) ∗ q 7 (blk0 V c 7 t) ∗ q 8 (blk0 V c 8 t)
    ∗ (dat0 V c).leavesExact 9 t ∗ (dat0 V c).leavesExact 10 t)

/-- The body's triple at any point, by cases on the position in the row: each case is its run, framed by the rest of the invariant. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  obtain ⟨b0, b1, b2, b3, b4, b5, b6, b7, b8⟩ := before_in V c t
  simp only [b0, b1, b2, b3, b4, b5, b6, b7, b8]
  rw [show (dat0 V c).owesAt () t.succ = (dat0 V c).owesAt () t.castSucc from rfl,
    show (dat0 V c).Φ t.succ = iprop(iprop(owns (c : Thread nD τ) accM fullShare ((stateAt V c t.val t.isLt).2.2) ∗ restOther (F := F) c) ∗ (∃ r, prngReg c r)) from rfl]
  by_cases h0 : t.val % 17 = 0
  · have h1 : ¬t.val % 17 = 16 := by omega
    rw [Dat.leavesExact_idle (dat0 V c) 9 t (idle_out t h1 9 (by decide)).1 (idle_out t h1 9 (by decide)).2, Dat.leavesExact_idle (dat0 V c) 10 t (idle_out t h1 10 (by decide)).1 (idle_out t h1 10 (by decide)).2, stateAt_first V c t h0]
    unfold accFirst; (try dsimp only)
    refine (sep_mono_left ((Phi_out V c _).trans (Entails.of_eq (PhiA_acc c)))).trans ?_
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((firstAt V c t h0).2 Set.univ _)
    unfold ins
    iframe H0 H1 H2 H3 H4 H5 H6 H7 H8 HS
    iintro ⟨⟨H0, H1, H2, H3, H4, H5, H6, H7, H8⟩, ⟨%es, HS⟩⟩
    iframe Hrest Hg Ho H0 H1 H2 H3 H4 H5 H6 H7 H8
    isplitl [HS]
    · iapply (Ring.owns_of_writes_tiledL accV S512x300.size) $$ HS; ipureintro; sl_kernel_rfl
    isplitl [H9]; · iexists _; iexact H9
    iexists _; iexact H10
  · have hz : t.val ≠ 0 := fun h => h0 (by rw [h])
    rw [Phi_pos V c t hz]
    by_cases h1 : t.val % 17 = 16
    · rw [show (dat0 V c).leavesExact 9 t = owns (c : Thread nD τ) (st0_9 t) fullShare ((dat0 V c).after 9 t) from by
        unfold Dat.leavesExact; rw [(live_out t h1 9 (by decide))], after9]
      rw [show (dat0 V c).leavesExact 10 t = owns (c : Thread nD τ) (st0_10 t) fullShare ((dat0 V c).after 10 t) from by
        unfold Dat.leavesExact; rw [(live_out t h1 10 (by decide))], after10]
      rw [stateAt_last V c t h1]
      unfold thetaLast klLast accLast; (try dsimp only)
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((lastAt V c t h1 _).2.2.2 Set.univ _)
      unfold ins
      iframe H0 H1 H2 H3 H4 H5 H6 H7 H8 HS
      isplitl [H9]; · iexists _; iexact H9
      isplitl [H10]; · iexists _; iexact H10
      iintro ⟨⟨H0, H1, H2, H3, H4, H5, H6, H7, H8⟩, ⟨%e9, H9⟩, ⟨%e10, H10⟩, ⟨%es, HS⟩⟩
      iframe Hrest Hg Ho H0 H1 H2 H3 H4 H5 H6 H7 H8
      isplitl [HS]
      · iapply (Ring.owns_of_writes_tiledL accV S512x300.size) $$ HS; ipureintro; sl_kernel_rfl
      isplitl [H9]
      · iapply (Ring.owns_of_writes_tiledL thetaV S512x50.size) $$ H9; ipureintro; sl_kernel_rfl
      iapply (Ring.owns_of_writes_tiledL klV S512x1.size) $$ H10; ipureintro; sl_kernel_rfl
    · rw [Dat.leavesExact_idle (dat0 V c) 9 t (idle_out t h1 9 (by decide)).1 (idle_out t h1 9 (by decide)).2, Dat.leavesExact_idle (dat0 V c) 10 t (idle_out t h1 10 (by decide)).1 (idle_out t h1 10 (by decide)).2, stateAt_mid V c t h0 h1]
      unfold accMid; (try dsimp only)
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((midAt V c t h0 h1 _).2 Set.univ _)
      unfold ins
      iframe H0 H1 H2 H3 H4 H5 H6 H7 H8 HS
      iintro ⟨⟨H0, H1, H2, H3, H4, H5, H6, H7, H8⟩, ⟨%es, HS⟩⟩
      iframe Hrest Hg Ho H0 H1 H2 H3 H4 H5 H6 H7 H8
      isplitl [HS]
      · iapply (Ring.owns_of_writes_tiledL accV S512x300.size) $$ HS; ipureintro; sl_kernel_rfl
      isplitl [H9]; · iexists _; iexact H9
      iexists _; iexact H10

theorem body_obligation0 (c : Dev nD) : BodyObligation (dat0 (F := F) V c) (defs₀ (F := F)) Variants.none () Set.univ := fun t => by
  rw [bigSep_W0, bigSep_W0]
  exact sound_body V c t

theorem hin0 (c : Dev nD) : (Pipeline.ΦA spec0 c : sProp 𝕄) ⊢ (dat0 V c).Φ 0 := Entails.refl _

theorem hout0 (c : Dev nD) : (dat0 V c).Φ (Fin.last cfg0.N) ⊢ (Pipeline.ΦA spec0 c : sProp 𝕄) := Phi_out V c _

end Cert.Kernel.Enc

end
-- ==== Proof.KbDecRuns.lean ====
import proofs.«427360_j50826642981279_1_alg».proof.Proof.Gen.Kernel.Launch
import proofs.«427360_j50826642981279_1_alg».proof.Proof.Gen.Kernel.Skeleton
import proofs.«427360_j50826642981279_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dec

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rowStart (i : grid1.Coords) : Prop := (Scalar.cmpi .ne (Scalar.extui (Scalar.cmpi .eq (BitVec.ofNat 32 (i 1).val) 0#32)) 0#32) = 1#1
theorem rowStart_iff : ∀ t : Fin cfg1.N, rowStart (grid1.coords t) ↔ t.val % 17 = 0 :=
  (by decide +kernel : ∀ t : Fin grid1.N, rowStart (grid1.coords t) ↔ t.val % 17 = 0)

abbrev rowEnd (i : grid1.Coords) : Prop := k1_cond2 i = 1#1
theorem rowEnd_iff : ∀ t : Fin cfg1.N, rowEnd (grid1.coords t) ↔ t.val % 17 = 16 :=
  (by decide +kernel : ∀ t : Fin grid1.N, rowEnd (grid1.coords t) ↔ t.val % 17 = 16)

theorem live_in : ∀ w : Fin cfg1.W, w ≠ 3 → ∀ t : Fin cfg1.N, cfg1.idle w (grid1.coords t) = false := by decide +kernel
theorem idle_out : ∀ t : Fin cfg1.N, ¬rowEnd (grid1.coords t) → cfg1.idle 3 (grid1.coords t) = true := by decide +kernel
theorem noFlush_out : ∀ t : Fin cfg1.N, ¬rowEnd (grid1.coords t) → (cfg1.win 3).flush t = false := by decide +kernel
theorem live_out : ∀ t : Fin cfg1.N, rowEnd (grid1.coords t) → cfg1.idle 3 (grid1.coords t) = false := by decide +kernel

abbrev mCounts (t : Fin cfg1.N) : Memref sig .tc .vmem S512x2944 .f32 := win1_0.stage (cfg1.slots t 0)
abbrev hCounts (t : Fin cfg1.N) : (mCounts t).IsWhole := hstage1_0 ((cfg1.slots t 0).cast nbuf1_0)
abbrev mTheta (t : Fin cfg1.N) : Memref sig .tc .vmem S512x50 .f32 := win1_1.stage (cfg1.slots t 1)
abbrev hTheta (t : Fin cfg1.N) : (mTheta t).IsWhole := hstage1_1 ((cfg1.slots t 1).cast nbuf1_1)
abbrev mBeta (t : Fin cfg1.N) : Memref sig .tc .vmem S50x2944 .bf16 := win1_2.stage (cfg1.slots t 2)
abbrev hBeta (t : Fin cfg1.N) : (mBeta t).IsWhole := hstage1_2 ((cfg1.slots t 2).cast nbuf1_2)
abbrev mOut (t : Fin cfg1.N) : Memref sig .tc .vmem S512x1 .f32 := win1_3.stage (cfg1.slots t 3)
abbrev hOut (t : Fin cfg1.N) : (mOut t).IsWhole := hstage1_3 ((cfg1.slots t 3).cast nbuf1_3)
abbrev mAcc : Memref sig .tc .vmem S512x1 .f32 := Memref.whole cc1_scratch0

theorem hz : (![0, 0] : Fin 2 → Nat) = fun _ => 0 := funext fun a => by fin_cases a <;> rfl

-- Every scoped buffer but the accumulator, each at some contents.
def untouched (c : Dev nD) : sProp 𝕄 := Pipeline.scopedRestBut spec1 c [cc1_scratch0]

-- The class invariant with the accumulator split off the other scoped buffers.
theorem classInv_eq (c : Dev nD) :
    (Pipeline.ΦA spec1 c : sProp 𝕄)
      = iprop(iprop(untouched c ∗ (∃ d, owns (c : Thread nD τ) mAcc fullShare d)) ∗ (∃ r, prngReg c r)) := by
  unfold Pipeline.ΦA untouched
  rw [Pipeline.scopedRest_split_of_list spec1 c [cc1_scratch0] (by decide) (by decide)]
  simp only [mAcc, owns_whole, bigSepL_singleton]
  exact congrArg (fun X : sProp 𝕄 => iprop(X ∗ (∃ r, prngReg c r))) (BI.equiv_iff.mp ⟨BI.sep_comm, BI.sep_comm⟩)

end Cert.Kernel.Dec

end
-- ==== Proof.KbDecRunA.lean ====
import proofs.«427360_j50826642981279_1_alg».proof.Proof.KbDecRuns
import Idealize.ShloMosaic.Lib.Pipeline.Value

set_option maxRecDepth 16384

noncomputable section

namespace Cert.Kernel.Dec

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem owns_eq_unread (c : Dev nD) {sp : Space} {sh : Shape} {e : EltTy} {m : Memref sig .tc sp sh e} (h : m.IsWhole) (X : sh.Idx → Elt F e) :
    (owns (c : Thread nD τ) m fullShare X : sProp 𝕄) = (m.view.loc (c : Thread nD τ) ↦[m.view.set]{fullShare} h.unread X) := by
  have h₁ : (owns (c : Thread nD τ) m fullShare X : sProp 𝕄) ⊢ (m.view.loc (c : Thread nD τ) ↦[m.view.set]{fullShare} h.unread X) := by
    unfold owns; iintro ⟨%f, %hf, H⟩; obtain rfl := h.eq_unread hf; iexact H
  have h₂ : (m.view.loc (c : Thread nD τ) ↦[m.view.set]{fullShare} h.unread X : sProp 𝕄) ⊢ owns (c : Thread nD τ) m fullShare X := by
    unfold owns; iintro H; iexists _; isplitr
    · ipureintro; exact h.read_unread X
    iexact H
  exact BI.equiv_iff.mp ⟨h₁, h₂⟩

variable (c : Dev nD) (i : grid1.Coords) (arg2 : Memref sig .tc .vmem S512x2944 .f32) (harg2 : arg2.IsWhole) (arg3 : Memref sig .tc .vmem S512x50 .f32) (harg3 : arg3.IsWhole) (arg4 : Memref sig .tc .vmem S50x2944 .bf16) (harg4 : arg4.IsWhole) (arg5 : Memref sig .tc .vmem S512x1 .f32) (harg5 : arg5.IsWhole) (arg6 : Memref sig .tc .vmem S512x1 .f32) (harg6 : arg6.IsWhole)
  (x0 : Vec F S512x2944 .f32) (x1 : Vec F S512x50 .f32) (x2 : Vec F S50x2944 .bf16)

-- The body at `i` on whole memrefs: the inputs are kept, `P` becomes `Q`, and the accumulator ends with the pieces `LS` written.
def Runs (P Q : sProp 𝕄) (LS : List (View.Piece (Elt F) S512x1 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ P
        ∗ (iprop(owns (c : Thread nD τ) arg2 fullShare x0 ∗ owns (c : Thread nD τ) arg3 fullShare x1 ∗ owns (c : Thread nD τ) arg4 fullShare x2 ∗ Q ∗ (∃ f, arg6.view.loc (c : Thread nD τ) ↦[arg6.view.set]{fullShare} arg6.view.writes (Elt F) f LS)) -∗ K ⟨⟩))
      ⊢ wp frame (wpE (defs₀ (F := F)) Variants.none c none) E (cc1__decoder_kernel i arg2 harg2 arg3 harg3 arg4 harg4 arg5 harg5 arg6 harg6) K

-- A row's first point: the accumulator, found at anything, is reset and receives the block's term; the output's buffer is kept.
noncomputable def runStart (hs : rowStart i) (he : ¬rowEnd i) :
    { LS // ∀ xo xs, Runs c i arg2 harg2 arg3 harg3 arg4 harg4 arg5 harg5 arg6 harg6 x0 x1 x2
      iprop(owns (c : Thread nD τ) arg5 fullShare xo ∗ owns (c : Thread nD τ) arg6 fullShare xs) (owns (c : Thread nD τ) arg5 fullShare xo) LS } := by
  refine ⟨?_, fun xo xs E K => ?run⟩
  case run =>
    simp only [cc1__decoder_kernel_eq_skeleton]; unfold cc1__decoder_kernel_skel
    simp only [owns_eq_unread c harg2, owns_eq_unread c harg3, owns_eq_unread c harg4, owns_eq_unread c harg5, owns_eq_unread c harg6]
    iintro ⟨H0, H1, H2, ⟨H3, HS⟩, Hk⟩
    sl_exec (disch := first | exact hs | exact he)
    sl_step
    iapply Hk
    isplitl [H0]; · iexact H0
    isplitl [H1]; · iexact H1
    isplitl [H2]; · iexact H2
    isplitl [H3]; · iexact H3
    iexists _; iexact HS

-- An inner point: the accumulator, found at `xs`, receives the block's term; the output's buffer is kept.
noncomputable def runMid (hs : ¬rowStart i) (he : ¬rowEnd i) (xs : Vec F S512x1 .f32) :
    { LS // ∀ xo, Runs c i arg2 harg2 arg3 harg3 arg4 harg4 arg5 harg5 arg6 harg6 x0 x1 x2
      iprop(owns (c : Thread nD τ) arg5 fullShare xo ∗ owns (c : Thread nD τ) arg6 fullShare xs) (owns (c : Thread nD τ) arg5 fullShare xo) LS } := by
  refine ⟨?_, fun xo E K => ?run⟩
  case run =>
    simp only [cc1__decoder_kernel_eq_skeleton]; unfold cc1__decoder_kernel_skel
    simp only [owns_eq_unread c harg2, owns_eq_unread c harg3, owns_eq_unread c harg4, owns_eq_unread c harg5, owns_eq_unread c harg6]
    iintro ⟨H0, H1, H2, ⟨H3, HS⟩, Hk⟩
    sl_exec (disch := first | exact hs | exact he)
    sl_step
    iapply Hk
    isplitl [H0]; · iexact H0
    isplitl [H1]; · iexact H1
    isplitl [H2]; · iexact H2
    isplitl [H3]; · iexact H3
    iexists _; iexact HS

-- A row's last point: the accumulator, found at `xs`, receives the block's term and is copied whole into the output's buffer.
noncomputable def runEnd (hs : ¬rowStart i) (he : rowEnd i) (xs : Vec F S512x1 .f32) :
    Σ' (LO : List (View.Piece (Elt F) S512x1 .f32)), { LS // Runs c i arg2 harg2 arg3 harg3 arg4 harg4 arg5 harg5 arg6 harg6 x0 x1 x2
      iprop((∃ d, owns (c : Thread nD τ) arg5 fullShare d) ∗ owns (c : Thread nD τ) arg6 fullShare xs) iprop(∃ f, arg5.view.loc (c : Thread nD τ) ↦[arg5.view.set]{fullShare} arg5.view.writes (Elt F) f LO) LS } := by
  refine ⟨?_, ?_, fun E K => ?run⟩
  case run =>
    simp only [cc1__decoder_kernel_eq_skeleton]; unfold cc1__decoder_kernel_skel
    simp only [owns_eq_unread c harg2, owns_eq_unread c harg3, owns_eq_unread c harg4, owns_eq_unread c harg5, owns_eq_unread c harg6]
    iintro ⟨H0, H1, H2, ⟨⟨%d3, H3⟩, HS⟩, Hk⟩
    sl_exec (disch := first | exact hs | exact he)
    sl_step
    iapply Hk
    isplitl [H0]; · iexact H0
    isplitl [H1]; · iexact H1
    isplitl [H2]; · iexact H2
    isplitl [H3]; · iexists _; iexact H3
    iexists _; iexact HS

-- What the accumulator reads after a row's first point: the block's term added to the zero block.
theorem runStart_acc (hs : rowStart i) (he : ¬rowEnd i) (f) :
    arg6.view.read (Elt F) (arg6.view.writes (Elt F) f (runStart c i arg2 harg2 arg3 harg3 arg4 harg4 arg5 harg5 arg6 harg6 x0 x1 x2 hs he).1) = k1_pay2 x1 x2 k1_pay1 x0 := by
  rw [View.read_writes_eq_canon _ _ _ (View.cover_of_tiledL _ S512x1.size (by sl_kernel_rfl))]
  unfold runStart
  dsimp only
  sl_unfold_words
  rw [View.canon_cons_unit_zero (S := S512x1) hz, View.readCov_unit_zero (S := S512x1) _ hz]
  simp only [View.readAt_eq_ld, harg2.read_unread, harg3.read_unread, harg4.read_unread, harg6.read_unread, View.ld_unit_zero (S := S512x2944) hz, View.ld_unit_zero (S := S512x50) hz, View.ld_unit_zero (S := S50x2944) hz, View.ld_unit_zero (S := S512x1) hz]

-- What it reads after an inner point: the block's term added to what it held.
theorem runMid_acc (hs : ¬rowStart i) (he : ¬rowEnd i) (xs : Vec F S512x1 .f32) (f) :
    arg6.view.read (Elt F) (arg6.view.writes (Elt F) f (runMid c i arg2 harg2 arg3 harg3 arg4 harg4 arg5 harg5 arg6 harg6 x0 x1 x2 hs he xs).1) = k1_pay2 x1 x2 xs x0 := by
  rw [View.read_writes_eq_canon _ _ _ (View.cover_of_tiledL _ S512x1.size (by sl_kernel_rfl))]
  unfold runMid
  dsimp only
  sl_unfold_words
  rw [View.canon_unit_zero hz]
  simp only [View.readAt_eq_ld, harg2.read_unread, harg3.read_unread, harg4.read_unread, harg6.read_unread, View.ld_unit_zero (S := S512x2944) hz, View.ld_unit_zero (S := S512x50) hz, View.ld_unit_zero (S := S50x2944) hz, View.ld_unit_zero (S := S512x1) hz]

-- After a row's last point the accumulator reads the same,
theorem runEnd_acc (hs : ¬rowStart i) (he : rowEnd i) (xs : Vec F S512x1 .f32) (f) :
    arg6.view.read (Elt F) (arg6.view.writes (Elt F) f (runEnd c i arg2 harg2 arg3 harg3 arg4 harg4 arg5 harg5 arg6 harg6 x0 x1 x2 hs he xs).2.1) = k1_pay2 x1 x2 xs x0 := by
  rw [View.read_writes_eq_canon _ _ _ (View.cover_of_tiledL _ S512x1.size (by sl_kernel_rfl))]
  unfold runEnd
  dsimp only
  sl_unfold_words
  rw [View.canon_unit_zero hz]
  simp only [View.readAt_eq_ld, harg2.read_unread, harg3.read_unread, harg4.read_unread, harg6.read_unread, View.ld_unit_zero (S := S512x2944) hz, View.ld_unit_zero (S := S512x50) hz, View.ld_unit_zero (S := S50x2944) hz, View.ld_unit_zero (S := S512x1) hz]

-- and so does the output's buffer, which receives the accumulator.
theorem runEnd_out (hs : ¬rowStart i) (he : rowEnd i) (xs : Vec F S512x1 .f32) (f) :
    arg5.view.read (Elt F) (arg5.view.writes (Elt F) f (runEnd c i arg2 harg2 arg3 harg3 arg4 harg4 arg5 harg5 arg6 harg6 x0 x1 x2 hs he xs).1) = k1_pay2 x1 x2 xs x0 := by
  rw [View.read_writes_eq_canon _ _ _ (View.cover_of_tiledL _ S512x1.size (by sl_kernel_rfl))]
  unfold runEnd
  dsimp only
  sl_unfold_words
  rw [View.canon_unit_zero hz]
  simp only [View.readCov_unit_zero (S := S512x1) _ hz, View.readAt_eq_ld, harg2.read_unread, harg3.read_unread, harg4.read_unread, harg6.read_unread, View.ld_unit_zero (S := S512x2944) hz, View.ld_unit_zero (S := S512x50) hz, View.ld_unit_zero (S := S50x2944) hz, View.ld_unit_zero (S := S512x1) hz]

end Cert.Kernel.Dec

end
-- ==== Proof.KbDecFrame.lean ====
import proofs.«427360_j50826642981279_1_alg».proof.Proof.KbDecRunA

set_option maxRecDepth 16384

noncomputable section

namespace Cert.Kernel.Dec

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- One point's step: the point's tile term is added to the accumulator found at `xs`.
def upd (c : Dev nD) (t : Fin cfg1.N) (xs : Vec F S512x1 .f32) : Vec F S512x1 .f32 :=
  k1_pay2 (blockAt V c 1 t) (blockAt V c 2 t) xs (blockAt V c 0 t)

-- The accumulator after position `n`: a row's first point starts from the zero block, every other from the point before.
def heldAt (c : Dev nD) : (n : ℕ) → n < cfg1.N → Vec F S512x1 .f32
  | 0, hn => upd V c ⟨0, hn⟩ k1_pay1
  | n + 1, hn => upd V c ⟨n + 1, hn⟩ (if (n + 1) % 17 = 0 then k1_pay1 else heldAt c n (Nat.lt_of_succ_lt hn))

theorem heldAt_start (c : Dev nD) (t : Fin cfg1.N) (h0 : t.val % 17 = 0) : heldAt V c t.val t.isLt = upd V c t k1_pay1 := by
  obtain ⟨_ | n, hn⟩ := t
  · rfl
  · exact congrArg (upd V c _) (if_pos h0)

theorem heldAt_next (c : Dev nD) (t : Fin cfg1.N) (h0 : ¬t.val % 17 = 0) :
    heldAt V c t.val t.isLt = upd V c t (heldAt V c (t.val - 1) (Nat.lt_of_le_of_lt (Nat.sub_le _ _) t.isLt)) := by
  obtain ⟨_ | n, hn⟩ := t
  · exact absurd (Nat.zero_mod _) h0
  · exact congrArg (upd V c _) (if_neg h0)

-- Before the first point the class invariant; afterwards the accumulator is named at what the point before left.
def Inv (c : Dev nD) : (n : ℕ) → n ≤ cfg1.N → sProp 𝕄
  | 0, _ => Pipeline.ΦA spec1 c
  | n + 1, hn => iprop(iprop(untouched c ∗ owns (c : Thread nD τ) mAcc fullShare (heldAt V c n hn)) ∗ (∃ r, prngReg c r))

theorem Inv_pos (c : Dev nD) (n : ℕ) (h : n ≤ cfg1.N) (hz : n ≠ 0) :
    Inv V c n h = iprop(iprop(untouched c ∗ owns (c : Thread nD τ) mAcc fullShare (heldAt V c (n - 1) (by omega))) ∗ (∃ r, prngReg c r)) := by
  cases n with
  | zero => exact absurd rfl hz
  | succ n => rfl

-- At every position the invariant gives the class invariant back: the accumulator's named contents are forgotten.
theorem Inv_le (c : Dev nD) (n : ℕ) (h : n ≤ cfg1.N) : Inv V c n h ⊢ (Pipeline.ΦA spec1 c : sProp 𝕄) := by
  by_cases hz : n = 0
  · subst hz; exact Idealize.SL.BI.Entails.refl _
  · rw [Inv_pos V c n h hz, classInv_eq]
    iintro ⟨⟨HU, HS⟩, Hg⟩
    isplitl [HU HS]
    · isplitl [HU]; · iexact HU
      iexists _; iexact HS
    iexact Hg

def dat1 (V : (c : Dev nD) → (b : Ref sig .tc) → Buf (Elt F) ((c : Thread nD τ).loc b)) (c : Dev nD) :
    Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => heldAt V c t.val t.isLt
  Φ t := Inv V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_full1 (c : Dev nD) (w : Fin cfg1.W) : (dat1 V c).q w = fullShare := by
  dsimp only [dat1]
theorem owed1 (c : Dev nD) (t : Fin (cfg1.N + 1)) : (dat1 V c).owed t = 0 := by
  dsimp only [dat1]
theorem recorded1 (c : Dev nD) (t : Fin (cfg1.N + 1)) : (dat1 V c).recorded t = Set.univ := by
  dsimp only [dat1]

theorem after_out (c : Dev nD) (t : Fin cfg1.N) : (dat1 V c).after 3 t = heldAt V c t.val t.isLt := rfl

theorem holds (c : Dev nD) (t : Fin cfg1.N) :
    (∀ d, (dat1 V c).before 0 t d = blockAt V c 0 t) ∧ (∀ d, (dat1 V c).before 1 t d = blockAt V c 1 t) ∧ (∀ d, (dat1 V c).before 2 t d = blockAt V c 2 t) := by
  refine ⟨fun d => ?_, fun d => ?_, fun d => ?_⟩ <;>
  exact ((dat1 V c).before_in_eq_fetched _ rfl (fun _ => rfl) (fun _ _ _ => rfl) (fun _ => rfl) t d).trans rfl

theorem leaves (c : Dev nD) (t : Fin cfg1.N) :
    (dat1 V c).leavesExact 0 t = owns (c : Thread nD τ) (mCounts t) fullShare (blockAt V c 0 t)
    ∧ (dat1 V c).leavesExact 1 t = owns (c : Thread nD τ) (mTheta t) fullShare (blockAt V c 1 t)
    ∧ (dat1 V c).leavesExact 2 t = owns (c : Thread nD τ) (mBeta t) fullShare (blockAt V c 2 t) := by
  refine ⟨?_, ?_, ?_⟩ <;> (unfold Dat.leavesExact; rw [live_in _ (by decide) t]; rfl)

def bodyPre (c : Dev nD) (t : Fin cfg1.N) : sProp 𝕄 :=
  iprop((dat1 V c).Φ t.castSucc ∗ (dat1 V c).owesAt () t.castSucc
    ∗ (∃ d, owns (c : Thread nD τ) (mCounts t) fullShare ((dat1 V c).before 0 t d))
    ∗ (∃ d, owns (c : Thread nD τ) (mTheta t) fullShare ((dat1 V c).before 1 t d))
    ∗ (∃ d, owns (c : Thread nD τ) (mBeta t) fullShare ((dat1 V c).before 2 t d))
    ∗ (∃ d, owns (c : Thread nD τ) (mOut t) fullShare ((dat1 V c).before 3 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

-- The closed forms select the case; each case's run is framed by the rest of the invariant.
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [(holds V c t).1, (holds V c t).2.1, (holds V c t).2.2]
  rw [(leaves V c t).1, (leaves V c t).2.1, (leaves V c t).2.2]
  rw [show (dat1 V c).owesAt () t.succ = (dat1 V c).owesAt () t.castSucc from rfl]
  rw [show (dat1 V c).Φ t.succ = iprop(iprop(untouched c ∗ owns (c : Thread nD τ) mAcc fullShare (heldAt V c t.val t.isLt)) ∗ (∃ r, prngReg c r)) from rfl]
  rw [show (dat1 V c).Φ t.castSucc = Inv V c t.val (Nat.le_of_lt t.isLt) from rfl]
  have hN : t.val < 34 := lt_of_lt_of_eq t.isLt (show cfg1.N = 34 from N_1)
  by_cases h0 : t.val % 17 = 0
  · have he : ¬rowEnd (grid1.coords t) := fun h => by have := (rowEnd_iff t).mp h; omega
    rw [Dat.leavesExact_idle (dat1 V c) 3 t (idle_out t he) (noFlush_out t he), heldAt_start V c t h0]
    refine (sep_mono_left (Inv_le V c _ _)).trans ?_
    rw [classInv_eq]
    iintro ⟨⟨⟨HU, ⟨%ds, HS⟩⟩, Hg⟩, Ho, ⟨%d0, H0⟩, ⟨%d1, H1⟩, ⟨%d2, H2⟩, ⟨%d3, H3⟩⟩
    iapply ((runStart c (grid1.coords t) _ _ _ _ _ _ _ _ _ _ (blockAt V c 0 t) (blockAt V c 1 t) (blockAt V c 2 t) ((rowStart_iff t).mpr h0) he).2 ((dat1 V c).before 3 t d3) ds Set.univ _)
    iframe H0 H1 H2 H3 HS
    iintro ⟨H0, H1, H2, H3, ⟨%es, HS⟩⟩
    iframe HU Hg Ho H0 H1 H2
    isplitl [HS]
    · unfold owns; iexists _; isplitr
      swap; · iexact HS
      ipureintro; exact runStart_acc c _ _ _ _ _ _ _ _ _ _ _ _ _ _ _ _ _
    iexists _; iexact H3
  · have hs : ¬rowStart (grid1.coords t) := fun h => h0 ((rowStart_iff t).mp h)
    rw [Inv_pos V c _ _ (fun e => h0 (by rw [e])), heldAt_next V c t h0]
    by_cases h1 : t.val % 17 = 16
    · have he : rowEnd (grid1.coords t) := (rowEnd_iff t).mpr h1
      rw [show (dat1 V c).leavesExact 3 t = owns (c : Thread nD τ) (mOut t) fullShare (upd V c t (heldAt V c (t.val - 1) (Nat.lt_of_le_of_lt (Nat.sub_le _ _) t.isLt))) from by
        unfold Dat.leavesExact; rw [live_out t he, after_out, heldAt_next V c t h0]]
      iintro ⟨⟨⟨HU, HS⟩, Hg⟩, Ho, ⟨%d0, H0⟩, ⟨%d1, H1⟩, ⟨%d2, H2⟩, ⟨%d3, H3⟩⟩
      iapply ((runEnd c (grid1.coords t) _ _ _ _ _ _ _ _ _ _ (blockAt V c 0 t) (blockAt V c 1 t) (blockAt V c 2 t) hs he _).2.2 Set.univ _)
      iframe H0 H1 H2 HS
      isplitl [H3]; · iexists _; iexact H3
      iintro ⟨H0, H1, H2, ⟨%e3, H3⟩, ⟨%es, HS⟩⟩
      iframe HU Hg Ho H0 H1 H2
      isplitl [HS]
      · unfold owns; iexists _; isplitr
        swap; · iexact HS
        ipureintro; exact runEnd_acc c _ _ _ _ _ _ _ _ _ _ _ _ _ _ _ _ _ _
      unfold owns; iexists _; isplitr
      swap; · iexact H3
      ipureintro; exact runEnd_out c _ _ _ _ _ _ _ _ _ _ _ _ _ _ _ _ _ _
    · have he : ¬rowEnd (grid1.coords t) := fun h => h1 ((rowEnd_iff t).mp h)
      rw [Dat.leavesExact_idle (dat1 V c) 3 t (idle_out t he) (noFlush_out t he)]
      iintro ⟨⟨⟨HU, HS⟩, Hg⟩, Ho, ⟨%d0, H0⟩, ⟨%d1, H1⟩, ⟨%d2, H2⟩, ⟨%d3, H3⟩⟩
      iapply ((runMid c (grid1.coords t) _ _ _ _ _ _ _ _ _ _ (blockAt V c 0 t) (blockAt V c 1 t) (blockAt V c 2 t) hs he _).2 ((dat1 V c).before 3 t d3) Set.univ _)
      iframe H0 H1 H2 H3 HS
      iintro ⟨H0, H1, H2, H3, ⟨%es, HS⟩⟩
      iframe HU Hg Ho H0 H1 H2
      isplitl [HS]
      · unfold owns; iexists _; isplitr
        swap; · iexact HS
        ipureintro; exact runMid_acc c _ _ _ _ _ _ _ _ _ _ _ _ _ _ _ _ _ _
      iexists _; iexact H3

theorem body_obligation1 (c : Dev nD) : BodyObligation (dat1 (F := F) V c) (defs₀ (F := F)) Variants.none () Set.univ := fun t => by
  rw [bigSep_W1, bigSep_W1]
  exact sound_body V c t

theorem hin1 (c : Dev nD) : (Pipeline.ΦA spec1 c : sProp 𝕄) ⊢ (dat1 V c).Φ 0 :=
  Idealize.SL.BI.Entails.refl _

theorem hout1 (c : Dev nD) : (dat1 V c).Φ (Fin.last cfg1.N) ⊢ (Pipeline.ΦA spec1 c : sProp 𝕄) :=
  Inv_le V c (Fin.last _).val (Nat.le_of_lt_succ (Fin.last _).isLt)

end Cert.Kernel.Dec

end
-- ==== Proof.KbKRun.lean ====
import proofs.«427360_j50826642981279_1_alg».proof.Proof.Gen.Kernel.Regions
import proofs.«427360_j50826642981279_1_alg».proof.Proof.KbEncFrame
import proofs.«427360_j50826642981279_1_alg».proof.Proof.KbDecFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev E5 : (c : Dev nD) → (b : Ref sig .tc) → Buf (Elt F) ((c : Thread nD τ).loc b) :=
  fun c b => Gen.V5 m c (Proc.devRef .tc b)

/-- A region changes only its output windows' arrays: there the fold of its write-backs, elsewhere the entry contents. -/
def X6 (c : Dev nD) : Valuation τ sig (Elt F) :=
  Pipeline.withArrays spec0 c (Gen.V5 m c) fun w => (Enc.dat0 (E5 m) c).arrAt w cfg0.N

def outsA : Gen.Outs (F := F) := fun _ r c => X6 m c (Proc.devRef .tc r)

abbrev E6a : (c : Dev nD) → (b : Ref sig .tc) → Buf (Elt F) ((c : Thread nD τ).loc b) :=
  fun c b => Gen.V6 m (outsA m) c (Proc.devRef .tc b)

def X7 (c : Dev nD) : Valuation τ sig (Elt F) :=
  Pipeline.withArrays spec1 c (Gen.V6 m (outsA m) c) fun w => (Dec.dat1 (E6a m) c).arrAt w cfg1.N

def outs : Gen.Outs (F := F) := fun J r c => if J = 6 then X6 m c (Proc.devRef .tc r) else X7 m c (Proc.devRef .tc r)

theorem outs_six (r : Ref sig .tc) (c : Dev nD) : outs m 6 r c = X6 m c (Proc.devRef .tc r) := if_pos rfl
theorem outs_seven (r : Ref sig .tc) (c : Dev nD) : outs m 7 r c = X7 m c (Proc.devRef .tc r) := if_neg (by decide)

abbrev E6 : (c : Dev nD) → (b : Ref sig .tc) → Buf (Elt F) ((c : Thread nD τ).loc b) :=
  fun c b => Gen.V6 m (outs m) c (Proc.devRef .tc b)

theorem V6_outs (c : Dev nD) : Gen.V6 m (outs m) c = Gen.V6 m (outsA m) c := by
  unfold Gen.V6
  rw [outs_six, outs_six]
  rfl
theorem E6_eq : E6 m = E6a m := funext fun c => funext fun b => congrFun (V6_outs m c) _

theorem V6_v55_0 (c : Dev nD) : Gen.V6 m (outs m) c main_v55_0 = (Enc.dat0 (E5 m) c).arrAt 9 cfg0.N := by
  unfold Gen.V6
  rw [Function.update_of_ne (StableHlo.devRef_ne_of_ne (by decide)), Function.update_self, outs_six]
  exact Pipeline.withArrays_arr spec0 launch0.win.arr_inj c _ _ 9

theorem V6_v55_1 (c : Dev nD) : Gen.V6 m (outs m) c main_v55_1 = (Enc.dat0 (E5 m) c).arrAt 10 cfg0.N := by
  unfold Gen.V6
  rw [Function.update_self, outs_six]
  exact Pipeline.withArrays_arr spec0 launch0.win.arr_inj c _ _ 10

theorem V7_v56 (c : Dev nD) : Gen.V7 m (outs m) c main_v56 = (Dec.dat1 (E6 m) c).arrAt 3 cfg1.N := by
  unfold Gen.V7
  rw [Function.update_self, outs_seven, E6_eq]
  exact Pipeline.withArrays_arr spec1 launch1.win.arr_inj c _ _ 3

theorem V6_other (c : Dev nD) (r : Ref sig .tc) (h : r ∉ ([main_v55_0, main_v55_1] : List (Ref sig .tc))) :
    Gen.V6 m (outs m) c r = Gen.V5 m c r := Gen.V6_of m (outs m) c r h

theorem V7_other (c : Dev nD) (r : Ref sig .tc) (h : r ∉ ([main_v56] : List (Ref sig .tc))) :
    Gen.V7 m (outs m) c r = Gen.V6 m (outs m) c r := Gen.V7_of m (outs m) c r h

abbrev E7 : (c : Dev nD) → (b : Ref sig .tc) → Buf (Elt F) ((c : Thread nD τ).loc b) :=
  fun c b => Gen.V7 m (outs m) c (Proc.devRef .tc b)

theorem win0_kinds : ∀ w : Fin 11, (w = 9 ∨ w = 10) ∨ ((cfg0.win w).isOut = false ∧ Pipeline.arrRef spec0 w ∉ ([main_v55_0, main_v55_1] : List (Ref sig .tc))) := by decide

theorem win1_kinds : ∀ w : Fin 4, w = 3 ∨ ((cfg1.win w).isOut = false ∧ Pipeline.arrRef spec1 w ∉ ([main_v56] : List (Ref sig .tc))) := by decide

theorem hF0 (c : Dev nD) (w : Fin cfg0.W) : (Enc.dat0 (E5 m) c).arrAt w cfg0.N = E6 m c (Pipeline.arrRef spec0 w) := by
  rcases win0_kinds w with (rfl | rfl) | ⟨hin, hne⟩
  · exact (V6_v55_0 m c).symm
  · exact (V6_v55_1 m c).symm
  · exact ((Enc.dat0 (E5 m) c).arrAt_in w hin _).trans ((Enc.A_eq0 (E5 m) c w).trans (V6_other m c _ hne).symm)

theorem hrest0 (c : Dev nD) : ∀ b, b ∉ Finset.univ.image (Pipeline.arrRef spec0) → E6 m c b = E5 m c b := fun b hb =>
  V6_other m c b fun hmem => hb ((by decide : ∀ r ∈ ([main_v55_0, main_v55_1] : List (Ref sig .tc)), r ∈ Finset.univ.image (Pipeline.arrRef spec0)) b hmem)

theorem hF1 (c : Dev nD) (w : Fin cfg1.W) : (Dec.dat1 (E6 m) c).arrAt w cfg1.N = E7 m c (Pipeline.arrRef spec1 w) := by
  rcases win1_kinds w with rfl | ⟨hin, hne⟩
  · exact (V7_v56 m c).symm
  · exact ((Dec.dat1 (E6 m) c).arrAt_in w hin _).trans ((Dec.A_eq1 (E6 m) c w).trans (V7_other m c _ hne).symm)

theorem hrest1 (c : Dev nD) : ∀ b, b ∉ Finset.univ.image (Pipeline.arrRef spec1) → E7 m c b = E6 m c b := fun b hb =>
  V7_other m c b fun hmem => hb ((by decide : ∀ r ∈ ([main_v56] : List (Ref sig .tc)), r ∈ Finset.univ.image (Pipeline.arrRef spec1)) b hmem)

def pdats : (p : Fin 2) → (c : Dev nD) → Dat τ (Elt F) Unit ℕ (UR sig nD τ) ℕ (Pipeline.pin (pcfgs (F := F)) Gen.adm p) c
  | ⟨0, _⟩ => fun c => Enc.dat0 (E5 m) c
  | ⟨1, _⟩ => fun c => Dec.dat1 (E6 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 3 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- A kernel region from its launch facts, its proof data's lemmas and the valuations before and after it.
def reg (p : Fin 2) (kit : Pipeline.LaunchFacts (nD := nD) (τ := τ) cfgs p) (Vi Vo : (c : Dev nD) → Valuation τ sig (Elt F))
    (hb : ∀ c, BodyObligation (pdats m p c) (defs₀ (F := F)) 𝒱₀ () Set.univ)
    (hq : ∀ c w, (pdats m p c).q w = fullShare)
    (hA : ∀ c w, (pdats m p c).A w = Vi c (Proc.devRef .tc (Pipeline.arrRef (cfgs p).spec w)))
    (ho : ∀ c t, (pdats m p c).owed t = 0) (hr : ∀ c, (pdats m p c).recorded 0 = Set.univ)
    (hi : ∀ c, (Pipeline.ΦA (cfgs p).spec c : sProp 𝕄) ⊢ (pdats m p c).Φ 0)
    (hou : ∀ c, (pdats m p c).Φ (Fin.last _) ⊢ (Pipeline.ΦA (cfgs p).spec c : sProp 𝕄))
    (hF : ∀ c w, (pdats m p c).arrAt w (cfgs p).N = Vo c (Proc.devRef .tc (Pipeline.arrRef (cfgs p).spec w)))
    (hrest : ∀ c b, b ∉ Finset.univ.image (Pipeline.arrRef (cfgs p).spec) → Vo c (Proc.devRef .tc b) = Vi c (Proc.devRef .tc b)) :
    Pipeline.RegionSeg (pcfgs (F := F)) Gen.adm (pdats m) () defs₀ 𝒱₀ L lv p where
  win := kit.win.to₀
  block_pos := kit.block_pos
  stage_whole := kit.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Vi c (Proc.devRef .tc b)
  hentry c := by
    rw [Pipeline.ownSems0_none]
    have hsplit := Pipeline.arrays_of_unscopedBufs (p := p) (pcfgs (F := F)) Gen.adm (pdats m) kit.win kit.arr_whole c
      ((pdats m p c).share_full (hq c)) (fun b => Vi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [ho c 0, hr c]
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    refine BIBase.Entails.trans (hou c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      kit.win kit.arr_whole c (pdats m) ((pdats m p c).share_full (hq c))
      (fun b => Vi c (Proc.devRef .tc b)) (fun b => Vo c (Proc.devRef .tc b)) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c _]
    icases HO with ⟨%W, -, HO⟩; iexists W; iexact HO

abbrev reg0 := reg m 0 launch0 (Gen.V5 m) (Gen.V6 m (outs m)) (Enc.body_obligation0 (E5 m)) (Enc.q_full0 (E5 m)) (Enc.A_eq0 (E5 m))
  (Enc.owed0 (E5 m)) (fun c => Enc.recorded0 (E5 m) c 0) (Enc.hin0 (E5 m)) (Enc.hout0 (E5 m)) (hF0 m) (hrest0 m)

abbrev reg1 := reg m 1 launch1 (Gen.V6 m (outs m)) (Gen.V7 m (outs m)) (Dec.body_obligation1 (E6 m)) (Dec.q_full1 (E6 m)) (Dec.A_eq1 (E6 m))
  (Dec.owed1 (E6 m)) (fun c => Dec.recorded1 (E6 m) c 0) (Dec.hin1 (E6 m)) (Dec.hout1 (E6 m)) (hF1 m) (hrest1 m)

abbrev W8 (c : Dev nD) : Valuation τ sig (Elt F) := Gen.V8 m (outs m) c

abbrev segs : List (Pipeline.Seg (pcfgs (F := F)) Gen.adm (pdats m) () defs₀ 𝒱₀ L lv) :=
  [ .host (Gen.seg0 m 𝒱₀ L lv E), .host (Gen.seg1 m 𝒱₀ L lv E), .host (Gen.seg2 m 𝒱₀ L lv E), .host (Gen.seg3 m 𝒱₀ L lv E),
    .host (Gen.seg4 m 𝒱₀ L lv E), .region (reg0 m), .region (reg1 m), .host (Gen.seg7 m (outs m) 𝒱₀ L lv E) ]

set_option backward.isDefEq.respectTransparency.types false in

/-- Eight segments chain from the launch memory to the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W8 m c b) :=
  Pipeline.θ_run_regions_kit (pcfgs (F := F)) Gen.adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (W8 m c))
    (hch := ⟨fun _ => .rfl, fun _ => .rfl, fun _ => .rfl, fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨Hh, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- No item writes an argument array, so each is read off the last boundary as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c),
     (h c _ (mem_uc main_arg3 (by decide))).trans (Gen.V8_main_arg3 m (outs m) c),
     (h c _ (mem_uc main_arg4 (by decide))).trans (Gen.V8_main_arg4 m (outs m) c),
     (h c _ (mem_uc main_arg5 (by decide))).trans (Gen.V8_main_arg5 m (outs m) c),
     (h c _ (mem_uc main_arg6 (by decide))).trans (Gen.V8_main_arg6 m (outs m) c),
     (h c _ (mem_uc main_arg7 (by decide))).trans (Gen.V8_main_arg7 m (outs m) c),
     (h c _ (mem_uc main_arg8 (by decide))).trans (Gen.V8_main_arg8 m (outs m) c)⟩) (run_all m ρ)

end Cert.Kernel.KRun

end
-- ==== Proof.EncRuns.lean ====
import proofs.«427360_j50826642981279_1_alg».proof.Proof.Gen.KernelIdeal.Launch
import proofs.«427360_j50826642981279_1_alg».proof.Proof.Gen.KernelIdeal.Skeleton
import proofs.«427360_j50826642981279_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 17 = 0 :=
  (by decide +kernel : ∀ t : Fin grid0.N, isFirst (grid0.coords t) ↔ t.val % 17 = 0)

abbrev isLast (i : grid0.Coords) : Prop := k0_cond2 i = 1#1
theorem isLast_iff : ∀ t : Fin cfg0.N, isLast (grid0.coords t) ↔ t.val % 17 = 16 :=
  (by decide +kernel : ∀ t : Fin grid0.N, isLast (grid0.coords t) ↔ t.val % 17 = 16)

/-- Decided point by point over the grid. -/
theorem idle_out : ∀ t : Fin cfg0.N, ¬t.val % 17 = 16 → ∀ w : Fin cfg0.W, 9 ≤ w.val → cfg0.idle w (grid0.coords t) = true ∧ (cfg0.win w).flush t = false := by decide +kernel
theorem live_out : ∀ t : Fin cfg0.N, t.val % 17 = 16 → ∀ w : Fin cfg0.W, 9 ≤ w.val → cfg0.idle w (grid0.coords t) = false := by decide +kernel

theorem hst (w : Fin cfg0.W) (t : Fin cfg0.N) : ((cfg0.win w).stage (cfg0.slots t w)).IsWhole := launch0.stage_whole w _

abbrev accM : Memref sig .tc .vmem S512x300 .f32 := Memref.whole cc0_scratch0
abbrev accV : View sig .tc .vmem S512x300 .f32 := accM.view
abbrev thetaV : View sig .tc .vmem S512x50 .f32 := (Memref.whole cc0_stg9_0 : Memref sig .tc .vmem S512x50 .f32).view
abbrev klV : View sig .tc .vmem S512x1 .f32 := (Memref.whole cc0_stg10_0 : Memref sig .tc .vmem S512x1 .f32).view

/-- Everything the class invariant holds besides the accumulator, kept folded. -/
abbrev restOther (c : Dev nD) : sProp 𝕄 :=
  Pipeline.scopedRestBut (Ix := Unit) (Name := ℕ) (U := UR sig nD τ) (Lvl := ℕ) (Val := Elt F) spec0 c [cc0_scratch0]

/-- The class invariant with the accumulator split off at some contents. -/
theorem PhiA_acc (c : Dev nD) :
    (Pipeline.ΦA spec0 c : sProp 𝕄)
      = iprop(iprop((∃ d, owns (c : Thread nD τ) accM fullShare d) ∗ restOther (F := F) c) ∗ (∃ r, prngReg c r)) := by
  unfold Pipeline.ΦA; rw [Pipeline.scopedRest_split_of_list spec0 c [cc0_scratch0] (by decide) (by decide)]; simp only [accM, owns_whole]; try rfl

theorem owns_eq_unread (c : Thread nD τ) {sp : Space} {sh : Shape} {e : EltTy} {m : Memref sig c.2.kind sp sh e} (h : m.IsWhole)
    (q : PosShare TreeShare) (x : sh.Idx → Elt F e) :
    (owns c m q x : sProp 𝕄) = (m.view.loc c ↦[m.view.set]{q} h.unread x) := by
  have h₁ : (owns c m q x : sProp 𝕄) ⊢ (m.view.loc c ↦[m.view.set]{q} h.unread x) := by
    unfold owns; iintro ⟨%f, %hf, H⟩; obtain rfl := h.eq_unread hf; iexact H
  exact BI.equiv_iff.mp ⟨h₁, (owns_intro c m q _).trans (Entails.of_eq (by rw [h.read_unread]))⟩

variable (V : (c : Dev nD) → (b : Ref sig .tc) → Buf (Elt F) ((c : Thread nD τ).loc b))

/-- The block of array `w` that point `t` works on, at the entry contents `V`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end Cert.KernelIdeal.Enc

end
-- ==== Proof.EncRunA.lean ====
import proofs.«427360_j50826642981279_1_alg».proof.Proof.EncRuns

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg2 : Memref sig .tc .vmem S512x2944 .f32) (harg2 : arg2.IsWhole) (arg3 : Memref sig .tc .vmem S512x1 .f32) (harg3 : arg3.IsWhole) (arg4 : Memref sig .tc .vmem S2944x300 .bf16) (harg4 : arg4.IsWhole) (arg5 : Memref sig .tc .vmem S300x800 .bf16) (harg5 : arg5.IsWhole) (arg6 : Memref sig .tc .vmem S1x800 .f32) (harg6 : arg6.IsWhole) (arg7 : Memref sig .tc .vmem S800x50 .bf16) (harg7 : arg7.IsWhole) (arg8 : Memref sig .tc .vmem S1x50 .f32) (harg8 : arg8.IsWhole) (arg9 : Memref sig .tc .vmem S800x50 .bf16) (harg9 : arg9.IsWhole) (arg10 : Memref sig .tc .vmem S1x50 .f32) (harg10 : arg10.IsWhole) (arg11 : Memref sig .tc .vmem S512x50 .f32) (harg11 : arg11.IsWhole) (arg12 : Memref sig .tc .vmem S512x1 .f32) (harg12 : arg12.IsWhole) (arg13 : Memref sig .tc .vmem S512x300 .f32) (harg13 : arg13.IsWhole)
  (x0 : Vec F S512x2944 .f32) (x1 : Vec F S512x1 .f32) (x2 : Vec F S2944x300 .bf16) (x3 : Vec F S300x800 .bf16) (x4 : Vec F S1x800 .f32) (x5 : Vec F S800x50 .bf16) (x6 : Vec F S1x50 .f32) (x7 : Vec F S800x50 .bf16) (x8 : Vec F S1x50 .f32)

/-- The nine input buffers at their contents, as one resource: each run returns it unchanged. -/
def ins : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8)

/-- First point of a row: whatever the accumulator held, it ends as the pieces `LS`. The outputs are not touched, so they are not mentioned. -/
noncomputable def runFirst (hc0 : isFirst i) (hc1 : ¬isLast i) :
    { LS : List (View.Piece (Elt F) S512x300 .f32) //
      ∀ (E : Set ℕ) (K : PUnit → sProp 𝕄),
        iprop(ins c arg2 arg3 arg4 arg5 arg6 arg7 arg8 arg9 arg10 x0 x1 x2 x3 x4 x5 x6 x7 x8 ∗ (∃ d, owns (c : Thread nD τ) arg13 fullShare d) ∗ (iprop(ins c arg2 arg3 arg4 arg5 arg6 arg7 arg8 arg9 arg10 x0 x1 x2 x3 x4 x5 x6 x7 x8 ∗ (∃ f, arg13.view.loc (c : Thread nD τ) ↦[arg13.view.set]{fullShare} arg13.view.writes (Elt F) f LS)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__encoder_kernel_eq_skeleton]; unfold cc0__encoder_kernel_skel ins
    rw [owns_eq_unread c harg2, owns_eq_unread c harg3, owns_eq_unread c harg4, owns_eq_unread c harg5, owns_eq_unread c harg6, owns_eq_unread c harg7, owns_eq_unread c harg8, owns_eq_unread c harg9, owns_eq_unread c harg10]; unfold owns
    iintro ⟨⟨H0, H1, H2, H3, H4, H5, H6, H7, H8⟩, ⟨%ds, %fs, -, HS⟩, Hk⟩
    sl_exec (disch := first | exact hc0 | exact hc1)
    sl_step
    iapply Hk
    iframe H0 H1 H2 H3 H4 H5 H6 H7 H8
    iexists _; iexact HS

/-- Inner point of a row: the accumulator goes from `xs` to the pieces `LS`. -/
noncomputable def runMid (hc0 : ¬isFirst i) (hc1 : ¬isLast i) (xs : Vec F S512x300 .f32) :
    { LS : List (View.Piece (Elt F) S512x300 .f32) //
      ∀ (E : Set ℕ) (K : PUnit → sProp 𝕄),
        iprop(ins c arg2 arg3 arg4 arg5 arg6 arg7 arg8 arg9 arg10 x0 x1 x2 x3 x4 x5 x6 x7 x8 ∗ owns (c : Thread nD τ) arg13 fullShare xs ∗ (iprop(ins c arg2 arg3 arg4 arg5 arg6 arg7 arg8 arg9 arg10 x0 x1 x2 x3 x4 x5 x6 x7 x8 ∗ (∃ f, arg13.view.loc (c : Thread nD τ) ↦[arg13.view.set]{fullShare} arg13.view.writes (Elt F) f LS)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__encoder_kernel_eq_skeleton]; unfold cc0__encoder_kernel_skel ins
    rw [owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg13]
    iintro ⟨⟨H0, H1, H2, H3, H4, H5, H6, H7, H8⟩, HS, Hk⟩
    sl_exec (disch := first | exact hc0 | exact hc1)
    sl_step
    iapply Hk
    iframe H0 H1 H2 H3 H4 H5 H6 H7 H8
    iexists _; iexact HS

/-- Last point of a row: the accumulator goes from `xs` to `LS`, and the two outputs end as the pieces `L9` and `L10`. -/
noncomputable def runLast (hc0 : ¬isFirst i) (hc1 : isLast i) (xs : Vec F S512x300 .f32) :
    Σ' (L9 : List (View.Piece (Elt F) S512x50 .f32)) (L10 : List (View.Piece (Elt F) S512x1 .f32)), { LS : List (View.Piece (Elt F) S512x300 .f32) //
      ∀ (E : Set ℕ) (K : PUnit → sProp 𝕄),
        iprop(ins c arg2 arg3 arg4 arg5 arg6 arg7 arg8 arg9 arg10 x0 x1 x2 x3 x4 x5 x6 x7 x8 ∗ (∃ d, owns (c : Thread nD τ) arg11 fullShare d) ∗ (∃ d, owns (c : Thread nD τ) arg12 fullShare d) ∗ owns (c : Thread nD τ) arg13 fullShare xs
            ∗ (iprop(ins c arg2 arg3 arg4 arg5 arg6 arg7 arg8 arg9 arg10 x0 x1 x2 x3 x4 x5 x6 x7 x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__encoder_kernel_eq_skeleton]; unfold cc0__encoder_kernel_skel ins
    simp only [k0_part1_eq_skeleton]
    rw [owns_eq_unread c harg2, owns_eq_unread c harg3, owns_eq_unread c harg4, owns_eq_unread c harg5, owns_eq_unread c harg6, owns_eq_unread c harg7, owns_eq_unread c harg8, owns_eq_unread c harg9, owns_eq_unread c harg10, owns_eq_unread c harg13]; unfold owns
    iintro ⟨⟨H0, H1, H2, H3, H4, H5, H6, H7, H8⟩, ⟨%d9, %f9, -, H9⟩, ⟨%d10, %f10, -, H10⟩, HS, Hk⟩
    sl_exec (disch := first | exact hc0 | exact hc1)
    sl_step
    iapply Hk
    iframe H0 H1 H2 H3 H4 H5 H6 H7 H8
    isplitl [H9]; · iexists _; iexact H9
    isplitl [H10]; · iexists _; iexact H10
    iexists _; iexact HS

end Cert.KernelIdeal.Enc

end
-- ==== Proof.EncFrame.lean ====
import proofs.«427360_j50826642981279_1_alg».proof.Proof.EncRunA

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three runs instantiated at grid point `t`. -/
def firstAt (c : Dev nD) (t : Fin cfg0.N) (h0 : t.val % 17 = 0) :=
  runFirst (F := F) c (grid0.coords t) (st0_0 t) (hst 0 t) (st0_1 t) (hst 1 t) (st0_2 t) (hst 2 t) (st0_3 t) (hst 3 t) (st0_4 t) (hst 4 t) (st0_5 t) (hst 5 t) (st0_6 t) (hst 6 t) (st0_7 t) (hst 7 t) (st0_8 t) (hst 8 t) (st0_9 t) (hst 9 t) (st0_10 t) (hst 10 t) accM (Memref.isWhole_whole _)
    (blk0 V c 0 t) (blk0 V c 1 t) (blk0 V c 2 t) (blk0 V c 3 t) (blk0 V c 4 t) (blk0 V c 5 t) (blk0 V c 6 t) (blk0 V c 7 t) (blk0 V c 8 t) ((isFirst_iff t).mpr h0) (fun h => by have := (isLast_iff t).mp h; omega)

def midAt (c : Dev nD) (t : Fin cfg0.N) (h0 : ¬t.val % 17 = 0) (h1 : ¬t.val % 17 = 16) (xs : Vec F S512x300 .f32) :=
  runMid (F := F) c (grid0.coords t) (st0_0 t) (hst 0 t) (st0_1 t) (hst 1 t) (st0_2 t) (hst 2 t) (st0_3 t) (hst 3 t) (st0_4 t) (hst 4 t) (st0_5 t) (hst 5 t) (st0_6 t) (hst 6 t) (st0_7 t) (hst 7 t) (st0_8 t) (hst 8 t) (st0_9 t) (hst 9 t) (st0_10 t) (hst 10 t) accM (Memref.isWhole_whole _)
    (blk0 V c 0 t) (blk0 V c 1 t) (blk0 V c 2 t) (blk0 V c 3 t) (blk0 V c 4 t) (blk0 V c 5 t) (blk0 V c 6 t) (blk0 V c 7 t) (blk0 V c 8 t) (fun h => h0 ((isFirst_iff t).mp h)) (fun h => h1 ((isLast_iff t).mp h)) xs

def lastAt (c : Dev nD) (t : Fin cfg0.N) (h1 : t.val % 17 = 16) (xs : Vec F S512x300 .f32) :=
  runLast (F := F) c (grid0.coords t) (st0_0 t) (hst 0 t) (st0_1 t) (hst 1 t) (st0_2 t) (hst 2 t) (st0_3 t) (hst 3 t) (st0_4 t) (hst 4 t) (st0_5 t) (hst 5 t) (st0_6 t) (hst 6 t) (st0_7 t) (hst 7 t) (st0_8 t) (hst 8 t) (st0_9 t) (hst 9 t) (st0_10 t) (hst 10 t) accM (Memref.isWhole_whole _)
    (blk0 V c 0 t) (blk0 V c 1 t) (blk0 V c 2 t) (blk0 V c 3 t) (blk0 V c 4 t) (blk0 V c 5 t) (blk0 V c 6 t) (blk0 V c 7 t) (blk0 V c 8 t) (fun h => by have := (isFirst_iff t).mp h; omega) ((isLast_iff t).mpr h1) xs

/-- What each run leaves, as a value: its pieces read back (they cover, so the base does not matter). -/
def accFirst (c : Dev nD) (t : Fin cfg0.N) (h0 : t.val % 17 = 0) : Vec F S512x300 .f32 :=
  accV.read (Elt F) (accV.writes (Elt F) accV.junk (firstAt V c t h0).1)

def accMid (c : Dev nD) (t : Fin cfg0.N) (h0 : ¬t.val % 17 = 0) (h1 : ¬t.val % 17 = 16) (xs : Vec F S512x300 .f32) : Vec F S512x300 .f32 :=
  accV.read (Elt F) (accV.writes (Elt F) accV.junk (midAt V c t h0 h1 xs).1)

def accLast (c : Dev nD) (t : Fin cfg0.N) (h1 : t.val % 17 = 16) (xs : Vec F S512x300 .f32) : Vec F S512x300 .f32 :=
  accV.read (Elt F) (accV.writes (Elt F) accV.junk (lastAt V c t h1 xs).2.2.1)
def thetaLast (c : Dev nD) (t : Fin cfg0.N) (h1 : t.val % 17 = 16) (xs : Vec F S512x300 .f32) : Vec F S512x50 .f32 :=
  thetaV.read (Elt F) (thetaV.writes (Elt F) thetaV.junk (lastAt V c t h1 xs).1)
def klLast (c : Dev nD) (t : Fin cfg0.N) (h1 : t.val % 17 = 16) (xs : Vec F S512x300 .f32) : Vec F S512x1 .f32 :=
  klV.read (Elt F) (klV.writes (Elt F) klV.junk (lastAt V c t h1 xs).2.1)

/-- A default value for an output at a point that does not produce it. -/
abbrev thetaIdle : Vec F S512x50 .f32 := thetaV.read (Elt F) thetaV.junk
abbrev klIdle : Vec F S512x1 .f32 := klV.read (Elt F) klV.junk

/-- One step of the recurrence: the outputs and the accumulator after point `t`, from the accumulator's value `xs` before it. -/
def stepAt (c : Dev nD) (t : Fin cfg0.N) (xs : Vec F S512x300 .f32) : Vec F S512x50 .f32 × Vec F S512x1 .f32 × Vec F S512x300 .f32 :=
  if h0 : t.val % 17 = 0 then (thetaIdle, klIdle, accFirst V c t h0)
  else if h1 : t.val % 17 = 16 then (thetaLast V c t h1 xs, klLast V c t h1 xs, accLast V c t h1 xs)
  else (thetaIdle, klIdle, accMid V c t h0 h1 xs)

/-- The recurrence unrolled in grid order. -/
def stateAt (c : Dev nD) : (n : ℕ) → n < cfg0.N → Vec F S512x50 .f32 × Vec F S512x1 .f32 × Vec F S512x300 .f32
  | 0, hn => stepAt V c ⟨0, hn⟩ (accV.read (Elt F) accV.junk)
  | n + 1, hn => stepAt V c ⟨n + 1, hn⟩ (stateAt c n (Nat.lt_of_succ_lt hn)).2.2

def accBefore (c : Dev nD) (t : Fin cfg0.N) : Vec F S512x300 .f32 :=
  if h : t.val = 0 then accV.read (Elt F) accV.junk
  else (stateAt V c (t.val - 1) (Nat.lt_of_le_of_lt (Nat.sub_le _ _) t.isLt)).2.2

theorem stateAt_eq (c : Dev nD) (t : Fin cfg0.N) : stateAt V c t.val t.isLt = stepAt V c t (accBefore V c t) := by
  obtain ⟨n, hn⟩ := t
  cases n <;> rfl

theorem stateAt_first (c : Dev nD) (t : Fin cfg0.N) (h0 : t.val % 17 = 0) :
    stateAt V c t.val t.isLt = (thetaIdle, klIdle, accFirst V c t h0) := by
  rw [stateAt_eq]; exact dif_pos h0

theorem stateAt_mid (c : Dev nD) (t : Fin cfg0.N) (h0 : ¬t.val % 17 = 0) (h1 : ¬t.val % 17 = 16) :
    stateAt V c t.val t.isLt = (thetaIdle, klIdle, accMid V c t h0 h1 (accBefore V c t)) := by
  rw [stateAt_eq]; exact (dif_neg h0).trans (dif_neg h1)

theorem stateAt_last (c : Dev nD) (t : Fin cfg0.N) (h1 : t.val % 17 = 16) :
    stateAt V c t.val t.isLt = (thetaLast V c t h1 (accBefore V c t), klLast V c t h1 (accBefore V c t), accLast V c t h1 (accBefore V c t)) := by
  rw [stateAt_eq]; exact (dif_neg (by omega)).trans (dif_pos h1)

theorem accBefore_pos (c : Dev nD) (t : Fin cfg0.N) (hz : t.val ≠ 0) :
    accBefore V c t = (stateAt V c (t.val - 1) (Nat.lt_of_le_of_lt (Nat.sub_le _ _) t.isLt)).2.2 := dif_neg hz

/-- The invariant at position `n`: the accumulator holds the recurrence's value after `n` points (anything when `n = 0`). -/
def PhiAt (c : Dev nD) : (n : ℕ) → n ≤ cfg0.N → sProp 𝕄
  | 0, _ => Pipeline.ΦA spec0 c
  | n + 1, hn => iprop(iprop(owns (c : Thread nD τ) accM fullShare ((stateAt V c n hn).2.2) ∗ restOther (F := F) c) ∗ (∃ r, prngReg c r))

/-- The proof data: inputs keep their blocks, outputs follow `stateAt`, the invariant is `PhiAt`. -/
def dat0 (V : (c : Dev nD) → (b : Ref sig .tc) → Buf (Elt F) ((c : Thread nD τ).loc b)) (c : Dev nD) :
    Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => (stateAt V c t.val t.isLt).1
    | ⟨10, _⟩ => (stateAt V c t.val t.isLt).2.1
  Φ t := PhiAt V c t.val (Nat.le_of_lt_succ t.isLt)
  q _ := fullShare
  owed _ := 0

theorem A_eq0 (c : Dev nD) (w : Fin cfg0.W) : (dat0 V c).A w = V c (Pipeline.arrRef spec0 w) := rfl
theorem q_full0 (c : Dev nD) (w : Fin cfg0.W) : (dat0 V c).q w = fullShare := rfl
theorem owed0 (c : Dev nD) (t : Fin (cfg0.N + 1)) : (dat0 V c).owed t = 0 := rfl
theorem recorded0 (c : Dev nD) (t : Fin (cfg0.N + 1)) : (dat0 V c).recorded t = Set.univ := rfl
theorem after9 (c : Dev nD) (t : Fin cfg0.N) : (dat0 V c).after 9 t = (stateAt V c t.val t.isLt).1 := rfl
theorem after10 (c : Dev nD) (t : Fin cfg0.N) : (dat0 V c).after 10 t = (stateAt V c t.val t.isLt).2.1 := rfl

/-- For `t ≠ 0` the invariant names the accumulator's value, `accBefore`. -/
theorem Phi_pos (c : Dev nD) (t : Fin cfg0.N) (hz : t.val ≠ 0) :
    (dat0 V c).Φ t.castSucc = iprop(iprop(owns (c : Thread nD τ) accM fullShare (accBefore V c t) ∗ restOther (F := F) c) ∗ (∃ r, prngReg c r)) := by
  obtain ⟨n, hn⟩ := t
  cases n with
  | zero => exact absurd rfl hz
  | succ n => rfl

/-- At any position the invariant implies the class invariant: forget the accumulator's value. -/
theorem Phi_out (c : Dev nD) (t : Fin (cfg0.N + 1)) : (dat0 V c).Φ t ⊢ (Pipeline.ΦA spec0 c : sProp 𝕄) := by
  obtain ⟨n, hn⟩ := t
  cases n with
  | zero => exact Entails.refl _
  | succ n =>
    rw [PhiA_acc]
    show iprop(iprop(owns (c : Thread nD τ) accM fullShare _ ∗ restOther (F := F) c) ∗ (∃ r, prngReg c r)) ⊢ _
    iintro ⟨⟨HS, Hrest⟩, Hg⟩
    iframe Hrest Hg; iexists _; iexact HS

/-- One proof for the nine windows. -/
theorem before_in (c : Dev nD) (t : Fin cfg0.N) :
    (∀ d, (dat0 V c).before 0 t d = blk0 V c 0 t) ∧ (∀ d, (dat0 V c).before 1 t d = blk0 V c 1 t) ∧ (∀ d, (dat0 V c).before 2 t d = blk0 V c 2 t)
      ∧ (∀ d, (dat0 V c).before 3 t d = blk0 V c 3 t) ∧ (∀ d, (dat0 V c).before 4 t d = blk0 V c 4 t) ∧ (∀ d, (dat0 V c).before 5 t d = blk0 V c 5 t)
      ∧ (∀ d, (dat0 V c).before 6 t d = blk0 V c 6 t) ∧ (∀ d, (dat0 V c).before 7 t d = blk0 V c 7 t) ∧ (∀ d, (dat0 V c).before 8 t d = blk0 V c 8 t) := by
  refine ⟨?_, ?_, ?_, ?_, ?_, ?_, ?_, ?_, ?_⟩ <;> intro d <;>
    exact ((dat0 V c).before_in_eq_fetched _ rfl (fun _ => rfl) (fun _ _ _ => rfl) (fun t => rfl) t d).trans rfl

/-- The body's precondition at point `t` -/
def bodyPre (c : Dev nD) (t : Fin cfg0.N) : sProp 𝕄 :=
  let p (w : Fin cfg0.W) : sProp 𝕄 := iprop(∃ d, owns (c : Thread nD τ) ((cfg0.win w).stage (cfg0.slots t w)) fullShare ((dat0 V c).before w t d))
  iprop((dat0 V c).Φ t.castSucc ∗ (dat0 V c).owesAt () t.castSucc ∗ p 0 ∗ p 1 ∗ p 2 ∗ p 3 ∗ p 4 ∗ p 5 ∗ p 6 ∗ p 7 ∗ p 8 ∗ p 9 ∗ p 10)

/-- and its postcondition. -/
def bodyPost (c : Dev nD) (t : Fin cfg0.N) : sProp 𝕄 :=
  let q (w : Fin cfg0.W) (x : (cfg0.win w).block.Idx → Elt F (cfg0.win w).elt) : sProp 𝕄 := owns (c : Thread nD τ) ((cfg0.win w).stage (cfg0.slots t w)) fullShare x
  iprop((dat0 V c).Φ t.succ ∗ (dat0 V c).owesAt () t.succ ∗ q 0 (blk0 V c 0 t) ∗ q 1 (blk0 V c 1 t) ∗ q 2 (blk0 V c 2 t) ∗ q 3 (blk0 V c 3 t) ∗ q 4 (blk0 V c 4 t) ∗ q 5 (blk0 V c 5 t) ∗ q 6 (blk0 V c 6 t) ∗ q 7 (blk0 V c 7 t) ∗ q 8 (blk0 V c 8 t)
    ∗ (dat0 V c).leavesExact 9 t ∗ (dat0 V c).leavesExact 10 t)

/-- The body's triple at any point, by cases on the position in the row: each case is its run, framed by the rest of the invariant. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  obtain ⟨b0, b1, b2, b3, b4, b5, b6, b7, b8⟩ := before_in V c t
  simp only [b0, b1, b2, b3, b4, b5, b6, b7, b8]
  rw [show (dat0 V c).owesAt () t.succ = (dat0 V c).owesAt () t.castSucc from rfl,
    show (dat0 V c).Φ t.succ = iprop(iprop(owns (c : Thread nD τ) accM fullShare ((stateAt V c t.val t.isLt).2.2) ∗ restOther (F := F) c) ∗ (∃ r, prngReg c r)) from rfl]
  by_cases h0 : t.val % 17 = 0
  · have h1 : ¬t.val % 17 = 16 := by omega
    rw [Dat.leavesExact_idle (dat0 V c) 9 t (idle_out t h1 9 (by decide)).1 (idle_out t h1 9 (by decide)).2, Dat.leavesExact_idle (dat0 V c) 10 t (idle_out t h1 10 (by decide)).1 (idle_out t h1 10 (by decide)).2, stateAt_first V c t h0]
    unfold accFirst; (try dsimp only)
    refine (sep_mono_left ((Phi_out V c _).trans (Entails.of_eq (PhiA_acc c)))).trans ?_
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((firstAt V c t h0).2 Set.univ _)
    unfold ins
    iframe H0 H1 H2 H3 H4 H5 H6 H7 H8 HS
    iintro ⟨⟨H0, H1, H2, H3, H4, H5, H6, H7, H8⟩, ⟨%es, HS⟩⟩
    iframe Hrest Hg Ho H0 H1 H2 H3 H4 H5 H6 H7 H8
    isplitl [HS]
    · iapply (Ring.owns_of_writes_tiledL accV S512x300.size) $$ HS; ipureintro; sl_kernel_rfl
    isplitl [H9]; · iexists _; iexact H9
    iexists _; iexact H10
  · have hz : t.val ≠ 0 := fun h => h0 (by rw [h])
    rw [Phi_pos V c t hz]
    by_cases h1 : t.val % 17 = 16
    · rw [show (dat0 V c).leavesExact 9 t = owns (c : Thread nD τ) (st0_9 t) fullShare ((dat0 V c).after 9 t) from by
        unfold Dat.leavesExact; rw [(live_out t h1 9 (by decide))], after9]
      rw [show (dat0 V c).leavesExact 10 t = owns (c : Thread nD τ) (st0_10 t) fullShare ((dat0 V c).after 10 t) from by
        unfold Dat.leavesExact; rw [(live_out t h1 10 (by decide))], after10]
      rw [stateAt_last V c t h1]
      unfold thetaLast klLast accLast; (try dsimp only)
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((lastAt V c t h1 _).2.2.2 Set.univ _)
      unfold ins
      iframe H0 H1 H2 H3 H4 H5 H6 H7 H8 HS
      isplitl [H9]; · iexists _; iexact H9
      isplitl [H10]; · iexists _; iexact H10
      iintro ⟨⟨H0, H1, H2, H3, H4, H5, H6, H7, H8⟩, ⟨%e9, H9⟩, ⟨%e10, H10⟩, ⟨%es, HS⟩⟩
      iframe Hrest Hg Ho H0 H1 H2 H3 H4 H5 H6 H7 H8
      isplitl [HS]
      · iapply (Ring.owns_of_writes_tiledL accV S512x300.size) $$ HS; ipureintro; sl_kernel_rfl
      isplitl [H9]
      · iapply (Ring.owns_of_writes_tiledL thetaV S512x50.size) $$ H9; ipureintro; sl_kernel_rfl
      iapply (Ring.owns_of_writes_tiledL klV S512x1.size) $$ H10; ipureintro; sl_kernel_rfl
    · rw [Dat.leavesExact_idle (dat0 V c) 9 t (idle_out t h1 9 (by decide)).1 (idle_out t h1 9 (by decide)).2, Dat.leavesExact_idle (dat0 V c) 10 t (idle_out t h1 10 (by decide)).1 (idle_out t h1 10 (by decide)).2, stateAt_mid V c t h0 h1]
      unfold accMid; (try dsimp only)
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((midAt V c t h0 h1 _).2 Set.univ _)
      unfold ins
      iframe H0 H1 H2 H3 H4 H5 H6 H7 H8 HS
      iintro ⟨⟨H0, H1, H2, H3, H4, H5, H6, H7, H8⟩, ⟨%es, HS⟩⟩
      iframe Hrest Hg Ho H0 H1 H2 H3 H4 H5 H6 H7 H8
      isplitl [HS]
      · iapply (Ring.owns_of_writes_tiledL accV S512x300.size) $$ HS; ipureintro; sl_kernel_rfl
      isplitl [H9]; · iexists _; iexact H9
      iexists _; iexact H10

theorem body_obligation0 (c : Dev nD) : BodyObligation (dat0 (F := F) V c) (defs₀ (F := F)) Variants.none () Set.univ := fun t => by
  rw [bigSep_W0, bigSep_W0]
  exact sound_body V c t

theorem hin0 (c : Dev nD) : (Pipeline.ΦA spec0 c : sProp 𝕄) ⊢ (dat0 V c).Φ 0 := Entails.refl _

theorem hout0 (c : Dev nD) : (dat0 V c).Φ (Fin.last cfg0.N) ⊢ (Pipeline.ΦA spec0 c : sProp 𝕄) := Phi_out V c _

end Cert.KernelIdeal.Enc

end
-- ==== Proof.DecRuns.lean ====
import proofs.«427360_j50826642981279_1_alg».proof.Proof.Gen.KernelIdeal.Launch
import proofs.«427360_j50826642981279_1_alg».proof.Proof.Gen.KernelIdeal.Skeleton
import proofs.«427360_j50826642981279_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rowStart (i : grid1.Coords) : Prop := (Scalar.cmpi .ne (Scalar.extui (Scalar.cmpi .eq (BitVec.ofNat 32 (i 1).val) 0#32)) 0#32) = 1#1
theorem rowStart_iff : ∀ t : Fin cfg1.N, rowStart (grid1.coords t) ↔ t.val % 17 = 0 :=
  (by decide +kernel : ∀ t : Fin grid1.N, rowStart (grid1.coords t) ↔ t.val % 17 = 0)

abbrev rowEnd (i : grid1.Coords) : Prop := k1_cond2 i = 1#1
theorem rowEnd_iff : ∀ t : Fin cfg1.N, rowEnd (grid1.coords t) ↔ t.val % 17 = 16 :=
  (by decide +kernel : ∀ t : Fin grid1.N, rowEnd (grid1.coords t) ↔ t.val % 17 = 16)

theorem live_in : ∀ w : Fin cfg1.W, w ≠ 3 → ∀ t : Fin cfg1.N, cfg1.idle w (grid1.coords t) = false := by decide +kernel
theorem idle_out : ∀ t : Fin cfg1.N, ¬rowEnd (grid1.coords t) → cfg1.idle 3 (grid1.coords t) = true := by decide +kernel
theorem noFlush_out : ∀ t : Fin cfg1.N, ¬rowEnd (grid1.coords t) → (cfg1.win 3).flush t = false := by decide +kernel
theorem live_out : ∀ t : Fin cfg1.N, rowEnd (grid1.coords t) → cfg1.idle 3 (grid1.coords t) = false := by decide +kernel

abbrev mCounts (t : Fin cfg1.N) : Memref sig .tc .vmem S512x2944 .f32 := win1_0.stage (cfg1.slots t 0)
abbrev hCounts (t : Fin cfg1.N) : (mCounts t).IsWhole := hstage1_0 ((cfg1.slots t 0).cast nbuf1_0)
abbrev mTheta (t : Fin cfg1.N) : Memref sig .tc .vmem S512x50 .f32 := win1_1.stage (cfg1.slots t 1)
abbrev hTheta (t : Fin cfg1.N) : (mTheta t).IsWhole := hstage1_1 ((cfg1.slots t 1).cast nbuf1_1)
abbrev mBeta (t : Fin cfg1.N) : Memref sig .tc .vmem S50x2944 .bf16 := win1_2.stage (cfg1.slots t 2)
abbrev hBeta (t : Fin cfg1.N) : (mBeta t).IsWhole := hstage1_2 ((cfg1.slots t 2).cast nbuf1_2)
abbrev mOut (t : Fin cfg1.N) : Memref sig .tc .vmem S512x1 .f32 := win1_3.stage (cfg1.slots t 3)
abbrev hOut (t : Fin cfg1.N) : (mOut t).IsWhole := hstage1_3 ((cfg1.slots t 3).cast nbuf1_3)
abbrev mAcc : Memref sig .tc .vmem S512x1 .f32 := Memref.whole cc1_scratch0

theorem hz : (![0, 0] : Fin 2 → Nat) = fun _ => 0 := funext fun a => by fin_cases a <;> rfl

-- Every scoped buffer but the accumulator, each at some contents.
def untouched (c : Dev nD) : sProp 𝕄 := Pipeline.scopedRestBut spec1 c [cc1_scratch0]

-- The class invariant with the accumulator split off the other scoped buffers.
theorem classInv_eq (c : Dev nD) :
    (Pipeline.ΦA spec1 c : sProp 𝕄)
      = iprop(iprop(untouched c ∗ (∃ d, owns (c : Thread nD τ) mAcc fullShare d)) ∗ (∃ r, prngReg c r)) := by
  unfold Pipeline.ΦA untouched
  rw [Pipeline.scopedRest_split_of_list spec1 c [cc1_scratch0] (by decide) (by decide)]
  simp only [mAcc, owns_whole, bigSepL_singleton]
  exact congrArg (fun X : sProp 𝕄 => iprop(X ∗ (∃ r, prngReg c r))) (BI.equiv_iff.mp ⟨BI.sep_comm, BI.sep_comm⟩)

end Cert.KernelIdeal.Dec

end
-- ==== Proof.DecRunA.lean ====
import proofs.«427360_j50826642981279_1_alg».proof.Proof.DecRuns
import Idealize.ShloMosaic.Lib.Pipeline.Value

set_option maxRecDepth 16384

noncomputable section

namespace Cert.KernelIdeal.Dec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem owns_eq_unread (c : Dev nD) {sp : Space} {sh : Shape} {e : EltTy} {m : Memref sig .tc sp sh e} (h : m.IsWhole) (X : sh.Idx → Elt F e) :
    (owns (c : Thread nD τ) m fullShare X : sProp 𝕄) = (m.view.loc (c : Thread nD τ) ↦[m.view.set]{fullShare} h.unread X) := by
  have h₁ : (owns (c : Thread nD τ) m fullShare X : sProp 𝕄) ⊢ (m.view.loc (c : Thread nD τ) ↦[m.view.set]{fullShare} h.unread X) := by
    unfold owns; iintro ⟨%f, %hf, H⟩; obtain rfl := h.eq_unread hf; iexact H
  have h₂ : (m.view.loc (c : Thread nD τ) ↦[m.view.set]{fullShare} h.unread X : sProp 𝕄) ⊢ owns (c : Thread nD τ) m fullShare X := by
    unfold owns; iintro H; iexists _; isplitr
    · ipureintro; exact h.read_unread X
    iexact H
  exact BI.equiv_iff.mp ⟨h₁, h₂⟩

variable (c : Dev nD) (i : grid1.Coords) (arg2 : Memref sig .tc .vmem S512x2944 .f32) (harg2 : arg2.IsWhole) (arg3 : Memref sig .tc .vmem S512x50 .f32) (harg3 : arg3.IsWhole) (arg4 : Memref sig .tc .vmem S50x2944 .bf16) (harg4 : arg4.IsWhole) (arg5 : Memref sig .tc .vmem S512x1 .f32) (harg5 : arg5.IsWhole) (arg6 : Memref sig .tc .vmem S512x1 .f32) (harg6 : arg6.IsWhole)
  (x0 : Vec F S512x2944 .f32) (x1 : Vec F S512x50 .f32) (x2 : Vec F S50x2944 .bf16)

-- The body at `i` on whole memrefs: the inputs are kept, `P` becomes `Q`, and the accumulator ends with the pieces `LS` written.
def Runs (P Q : sProp 𝕄) (LS : List (View.Piece (Elt F) S512x1 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ P
        ∗ (iprop(owns (c : Thread nD τ) arg2 fullShare x0 ∗ owns (c : Thread nD τ) arg3 fullShare x1 ∗ owns (c : Thread nD τ) arg4 fullShare x2 ∗ Q ∗ (∃ f, arg6.view.loc (c : Thread nD τ) ↦[arg6.view.set]{fullShare} arg6.view.writes (Elt F) f LS)) -∗ K ⟨⟩))
      ⊢ wp frame (wpE (defs₀ (F := F)) Variants.none c none) E (cc1__decoder_kernel i arg2 harg2 arg3 harg3 arg4 harg4 arg5 harg5 arg6 harg6) K

-- A row's first point: the accumulator, found at anything, is reset and receives the block's term; the output's buffer is kept.
noncomputable def runStart (hs : rowStart i) (he : ¬rowEnd i) :
    { LS // ∀ xo xs, Runs c i arg2 harg2 arg3 harg3 arg4 harg4 arg5 harg5 arg6 harg6 x0 x1 x2
      iprop(owns (c : Thread nD τ) arg5 fullShare xo ∗ owns (c : Thread nD τ) arg6 fullShare xs) (owns (c : Thread nD τ) arg5 fullShare xo) LS } := by
  refine ⟨?_, fun xo xs E K => ?run⟩
  case run =>
    simp only [cc1__decoder_kernel_eq_skeleton]; unfold cc1__decoder_kernel_skel
    simp only [owns_eq_unread c harg2, owns_eq_unread c harg3, owns_eq_unread c harg4, owns_eq_unread c harg5, owns_eq_unread c harg6]
    iintro ⟨H0, H1, H2, ⟨H3, HS⟩, Hk⟩
    sl_exec (disch := first | exact hs | exact he)
    sl_step
    iapply Hk
    isplitl [H0]; · iexact H0
    isplitl [H1]; · iexact H1
    isplitl [H2]; · iexact H2
    isplitl [H3]; · iexact H3
    iexists _; iexact HS

-- An inner point: the accumulator, found at `xs`, receives the block's term; the output's buffer is kept.
noncomputable def runMid (hs : ¬rowStart i) (he : ¬rowEnd i) (xs : Vec F S512x1 .f32) :
    { LS // ∀ xo, Runs c i arg2 harg2 arg3 harg3 arg4 harg4 arg5 harg5 arg6 harg6 x0 x1 x2
      iprop(owns (c : Thread nD τ) arg5 fullShare xo ∗ owns (c : Thread nD τ) arg6 fullShare xs) (owns (c : Thread nD τ) arg5 fullShare xo) LS } := by
  refine ⟨?_, fun xo E K => ?run⟩
  case run =>
    simp only [cc1__decoder_kernel_eq_skeleton]; unfold cc1__decoder_kernel_skel
    simp only [owns_eq_unread c harg2, owns_eq_unread c harg3, owns_eq_unread c harg4, owns_eq_unread c harg5, owns_eq_unread c harg6]
    iintro ⟨H0, H1, H2, ⟨H3, HS⟩, Hk⟩
    sl_exec (disch := first | exact hs | exact he)
    sl_step
    iapply Hk
    isplitl [H0]; · iexact H0
    isplitl [H1]; · iexact H1
    isplitl [H2]; · iexact H2
    isplitl [H3]; · iexact H3
    iexists _; iexact HS

-- A row's last point: the accumulator, found at `xs`, receives the block's term and is copied whole into the output's buffer.
noncomputable def runEnd (hs : ¬rowStart i) (he : rowEnd i) (xs : Vec F S512x1 .f32) :
    Σ' (LO : List (View.Piece (Elt F) S512x1 .f32)), { LS // Runs c i arg2 harg2 arg3 harg3 arg4 harg4 arg5 harg5 arg6 harg6 x0 x1 x2
      iprop((∃ d, owns (c : Thread nD τ) arg5 fullShare d) ∗ owns (c : Thread nD τ) arg6 fullShare xs) iprop(∃ f, arg5.view.loc (c : Thread nD τ) ↦[arg5.view.set]{fullShare} arg5.view.writes (Elt F) f LO) LS } := by
  refine ⟨?_, ?_, fun E K => ?run⟩
  case run =>
    simp only [cc1__decoder_kernel_eq_skeleton]; unfold cc1__decoder_kernel_skel
    simp only [owns_eq_unread c harg2, owns_eq_unread c harg3, owns_eq_unread c harg4, owns_eq_unread c harg5, owns_eq_unread c harg6]
    iintro ⟨H0, H1, H2, ⟨⟨%d3, H3⟩, HS⟩, Hk⟩
    sl_exec (disch := first | exact hs | exact he)
    sl_step
    iapply Hk
    isplitl [H0]; · iexact H0
    isplitl [H1]; · iexact H1
    isplitl [H2]; · iexact H2
    isplitl [H3]; · iexists _; iexact H3
    iexists _; iexact HS

-- What the accumulator reads after a row's first point: the block's term added to the zero block.
theorem runStart_acc (hs : rowStart i) (he : ¬rowEnd i) (f) :
    arg6.view.read (Elt F) (arg6.view.writes (Elt F) f (runStart c i arg2 harg2 arg3 harg3 arg4 harg4 arg5 harg5 arg6 harg6 x0 x1 x2 hs he).1) = k1_pay2 x1 x2 k1_pay1 x0 := by
  rw [View.read_writes_eq_canon _ _ _ (View.cover_of_tiledL _ S512x1.size (by sl_kernel_rfl))]
  unfold runStart
  dsimp only
  sl_unfold_words
  rw [View.canon_cons_unit_zero (S := S512x1) hz, View.readCov_unit_zero (S := S512x1) _ hz]
  simp only [View.readAt_eq_ld, harg2.read_unread, harg3.read_unread, harg4.read_unread, harg6.read_unread, View.ld_unit_zero (S := S512x2944) hz, View.ld_unit_zero (S := S512x50) hz, View.ld_unit_zero (S := S50x2944) hz, View.ld_unit_zero (S := S512x1) hz]

-- What it reads after an inner point: the block's term added to what it held.
theorem runMid_acc (hs : ¬rowStart i) (he : ¬rowEnd i) (xs : Vec F S512x1 .f32) (f) :
    arg6.view.read (Elt F) (arg6.view.writes (Elt F) f (runMid c i arg2 harg2 arg3 harg3 arg4 harg4 arg5 harg5 arg6 harg6 x0 x1 x2 hs he xs).1) = k1_pay2 x1 x2 xs x0 := by
  rw [View.read_writes_eq_canon _ _ _ (View.cover_of_tiledL _ S512x1.size (by sl_kernel_rfl))]
  unfold runMid
  dsimp only
  sl_unfold_words
  rw [View.canon_unit_zero hz]
  simp only [View.readAt_eq_ld, harg2.read_unread, harg3.read_unread, harg4.read_unread, harg6.read_unread, View.ld_unit_zero (S := S512x2944) hz, View.ld_unit_zero (S := S512x50) hz, View.ld_unit_zero (S := S50x2944) hz, View.ld_unit_zero (S := S512x1) hz]

-- After a row's last point the accumulator reads the same,
theorem runEnd_acc (hs : ¬rowStart i) (he : rowEnd i) (xs : Vec F S512x1 .f32) (f) :
    arg6.view.read (Elt F) (arg6.view.writes (Elt F) f (runEnd c i arg2 harg2 arg3 harg3 arg4 harg4 arg5 harg5 arg6 harg6 x0 x1 x2 hs he xs).2.1) = k1_pay2 x1 x2 xs x0 := by
  rw [View.read_writes_eq_canon _ _ _ (View.cover_of_tiledL _ S512x1.size (by sl_kernel_rfl))]
  unfold runEnd
  dsimp only
  sl_unfold_words
  rw [View.canon_unit_zero hz]
  simp only [View.readAt_eq_ld, harg2.read_unread, harg3.read_unread, harg4.read_unread, harg6.read_unread, View.ld_unit_zero (S := S512x2944) hz, View.ld_unit_zero (S := S512x50) hz, View.ld_unit_zero (S := S50x2944) hz, View.ld_unit_zero (S := S512x1) hz]

-- and so does the output's buffer, which receives the accumulator.
theorem runEnd_out (hs : ¬rowStart i) (he : rowEnd i) (xs : Vec F S512x1 .f32) (f) :
    arg5.view.read (Elt F) (arg5.view.writes (Elt F) f (runEnd c i arg2 harg2 arg3 harg3 arg4 harg4 arg5 harg5 arg6 harg6 x0 x1 x2 hs he xs).1) = k1_pay2 x1 x2 xs x0 := by
  rw [View.read_writes_eq_canon _ _ _ (View.cover_of_tiledL _ S512x1.size (by sl_kernel_rfl))]
  unfold runEnd
  dsimp only
  sl_unfold_words
  rw [View.canon_unit_zero hz]
  simp only [View.readCov_unit_zero (S := S512x1) _ hz, View.readAt_eq_ld, harg2.read_unread, harg3.read_unread, harg4.read_unread, harg6.read_unread, View.ld_unit_zero (S := S512x2944) hz, View.ld_unit_zero (S := S512x50) hz, View.ld_unit_zero (S := S50x2944) hz, View.ld_unit_zero (S := S512x1) hz]

end Cert.KernelIdeal.Dec

end
-- ==== Proof.DecFrame.lean ====
import proofs.«427360_j50826642981279_1_alg».proof.Proof.DecRunA

set_option maxRecDepth 16384

noncomputable section

namespace Cert.KernelIdeal.Dec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- One point's step: the point's tile term is added to the accumulator found at `xs`.
def upd (c : Dev nD) (t : Fin cfg1.N) (xs : Vec F S512x1 .f32) : Vec F S512x1 .f32 :=
  k1_pay2 (blockAt V c 1 t) (blockAt V c 2 t) xs (blockAt V c 0 t)

-- The accumulator after position `n`: a row's first point starts from the zero block, every other from the point before.
def heldAt (c : Dev nD) : (n : ℕ) → n < cfg1.N → Vec F S512x1 .f32
  | 0, hn => upd V c ⟨0, hn⟩ k1_pay1
  | n + 1, hn => upd V c ⟨n + 1, hn⟩ (if (n + 1) % 17 = 0 then k1_pay1 else heldAt c n (Nat.lt_of_succ_lt hn))

theorem heldAt_start (c : Dev nD) (t : Fin cfg1.N) (h0 : t.val % 17 = 0) : heldAt V c t.val t.isLt = upd V c t k1_pay1 := by
  obtain ⟨_ | n, hn⟩ := t
  · rfl
  · exact congrArg (upd V c _) (if_pos h0)

theorem heldAt_next (c : Dev nD) (t : Fin cfg1.N) (h0 : ¬t.val % 17 = 0) :
    heldAt V c t.val t.isLt = upd V c t (heldAt V c (t.val - 1) (Nat.lt_of_le_of_lt (Nat.sub_le _ _) t.isLt)) := by
  obtain ⟨_ | n, hn⟩ := t
  · exact absurd (Nat.zero_mod _) h0
  · exact congrArg (upd V c _) (if_neg h0)

-- Before the first point the class invariant; afterwards the accumulator is named at what the point before left.
def Inv (c : Dev nD) : (n : ℕ) → n ≤ cfg1.N → sProp 𝕄
  | 0, _ => Pipeline.ΦA spec1 c
  | n + 1, hn => iprop(iprop(untouched c ∗ owns (c : Thread nD τ) mAcc fullShare (heldAt V c n hn)) ∗ (∃ r, prngReg c r))

theorem Inv_pos (c : Dev nD) (n : ℕ) (h : n ≤ cfg1.N) (hz : n ≠ 0) :
    Inv V c n h = iprop(iprop(untouched c ∗ owns (c : Thread nD τ) mAcc fullShare (heldAt V c (n - 1) (by omega))) ∗ (∃ r, prngReg c r)) := by
  cases n with
  | zero => exact absurd rfl hz
  | succ n => rfl

-- At every position the invariant gives the class invariant back: the accumulator's named contents are forgotten.
theorem Inv_le (c : Dev nD) (n : ℕ) (h : n ≤ cfg1.N) : Inv V c n h ⊢ (Pipeline.ΦA spec1 c : sProp 𝕄) := by
  by_cases hz : n = 0
  · subst hz; exact Idealize.SL.BI.Entails.refl _
  · rw [Inv_pos V c n h hz, classInv_eq]
    iintro ⟨⟨HU, HS⟩, Hg⟩
    isplitl [HU HS]
    · isplitl [HU]; · iexact HU
      iexists _; iexact HS
    iexact Hg

def dat1 (V : (c : Dev nD) → (b : Ref sig .tc) → Buf (Elt F) ((c : Thread nD τ).loc b)) (c : Dev nD) :
    Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => heldAt V c t.val t.isLt
  Φ t := Inv V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_full1 (c : Dev nD) (w : Fin cfg1.W) : (dat1 V c).q w = fullShare := by
  dsimp only [dat1]
theorem owed1 (c : Dev nD) (t : Fin (cfg1.N + 1)) : (dat1 V c).owed t = 0 := by
  dsimp only [dat1]
theorem recorded1 (c : Dev nD) (t : Fin (cfg1.N + 1)) : (dat1 V c).recorded t = Set.univ := by
  dsimp only [dat1]

theorem after_out (c : Dev nD) (t : Fin cfg1.N) : (dat1 V c).after 3 t = heldAt V c t.val t.isLt := rfl

theorem holds (c : Dev nD) (t : Fin cfg1.N) :
    (∀ d, (dat1 V c).before 0 t d = blockAt V c 0 t) ∧ (∀ d, (dat1 V c).before 1 t d = blockAt V c 1 t) ∧ (∀ d, (dat1 V c).before 2 t d = blockAt V c 2 t) := by
  refine ⟨fun d => ?_, fun d => ?_, fun d => ?_⟩ <;>
  exact ((dat1 V c).before_in_eq_fetched _ rfl (fun _ => rfl) (fun _ _ _ => rfl) (fun _ => rfl) t d).trans rfl

theorem leaves (c : Dev nD) (t : Fin cfg1.N) :
    (dat1 V c).leavesExact 0 t = owns (c : Thread nD τ) (mCounts t) fullShare (blockAt V c 0 t)
    ∧ (dat1 V c).leavesExact 1 t = owns (c : Thread nD τ) (mTheta t) fullShare (blockAt V c 1 t)
    ∧ (dat1 V c).leavesExact 2 t = owns (c : Thread nD τ) (mBeta t) fullShare (blockAt V c 2 t) := by
  refine ⟨?_, ?_, ?_⟩ <;> (unfold Dat.leavesExact; rw [live_in _ (by decide) t]; rfl)

def bodyPre (c : Dev nD) (t : Fin cfg1.N) : sProp 𝕄 :=
  iprop((dat1 V c).Φ t.castSucc ∗ (dat1 V c).owesAt () t.castSucc
    ∗ (∃ d, owns (c : Thread nD τ) (mCounts t) fullShare ((dat1 V c).before 0 t d))
    ∗ (∃ d, owns (c : Thread nD τ) (mTheta t) fullShare ((dat1 V c).before 1 t d))
    ∗ (∃ d, owns (c : Thread nD τ) (mBeta t) fullShare ((dat1 V c).before 2 t d))
    ∗ (∃ d, owns (c : Thread nD τ) (mOut t) fullShare ((dat1 V c).before 3 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

-- The closed forms select the case; each case's run is framed by the rest of the invariant.
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [(holds V c t).1, (holds V c t).2.1, (holds V c t).2.2]
  rw [(leaves V c t).1, (leaves V c t).2.1, (leaves V c t).2.2]
  rw [show (dat1 V c).owesAt () t.succ = (dat1 V c).owesAt () t.castSucc from rfl]
  rw [show (dat1 V c).Φ t.succ = iprop(iprop(untouched c ∗ owns (c : Thread nD τ) mAcc fullShare (heldAt V c t.val t.isLt)) ∗ (∃ r, prngReg c r)) from rfl]
  rw [show (dat1 V c).Φ t.castSucc = Inv V c t.val (Nat.le_of_lt t.isLt) from rfl]
  have hN : t.val < 34 := lt_of_lt_of_eq t.isLt (show cfg1.N = 34 from N_1)
  by_cases h0 : t.val % 17 = 0
  · have he : ¬rowEnd (grid1.coords t) := fun h => by have := (rowEnd_iff t).mp h; omega
    rw [Dat.leavesExact_idle (dat1 V c) 3 t (idle_out t he) (noFlush_out t he), heldAt_start V c t h0]
    refine (sep_mono_left (Inv_le V c _ _)).trans ?_
    rw [classInv_eq]
    iintro ⟨⟨⟨HU, ⟨%ds, HS⟩⟩, Hg⟩, Ho, ⟨%d0, H0⟩, ⟨%d1, H1⟩, ⟨%d2, H2⟩, ⟨%d3, H3⟩⟩
    iapply ((runStart c (grid1.coords t) _ _ _ _ _ _ _ _ _ _ (blockAt V c 0 t) (blockAt V c 1 t) (blockAt V c 2 t) ((rowStart_iff t).mpr h0) he).2 ((dat1 V c).before 3 t d3) ds Set.univ _)
    iframe H0 H1 H2 H3 HS
    iintro ⟨H0, H1, H2, H3, ⟨%es, HS⟩⟩
    iframe HU Hg Ho H0 H1 H2
    isplitl [HS]
    · unfold owns; iexists _; isplitr
      swap; · iexact HS
      ipureintro; exact runStart_acc c _ _ _ _ _ _ _ _ _ _ _ _ _ _ _ _ _
    iexists _; iexact H3
  · have hs : ¬rowStart (grid1.coords t) := fun h => h0 ((rowStart_iff t).mp h)
    rw [Inv_pos V c _ _ (fun e => h0 (by rw [e])), heldAt_next V c t h0]
    by_cases h1 : t.val % 17 = 16
    · have he : rowEnd (grid1.coords t) := (rowEnd_iff t).mpr h1
      rw [show (dat1 V c).leavesExact 3 t = owns (c : Thread nD τ) (mOut t) fullShare (upd V c t (heldAt V c (t.val - 1) (Nat.lt_of_le_of_lt (Nat.sub_le _ _) t.isLt))) from by
        unfold Dat.leavesExact; rw [live_out t he, after_out, heldAt_next V c t h0]]
      iintro ⟨⟨⟨HU, HS⟩, Hg⟩, Ho, ⟨%d0, H0⟩, ⟨%d1, H1⟩, ⟨%d2, H2⟩, ⟨%d3, H3⟩⟩
      iapply ((runEnd c (grid1.coords t) _ _ _ _ _ _ _ _ _ _ (blockAt V c 0 t) (blockAt V c 1 t) (blockAt V c 2 t) hs he _).2.2 Set.univ _)
      iframe H0 H1 H2 HS
      isplitl [H3]; · iexists _; iexact H3
      iintro ⟨H0, H1, H2, ⟨%e3, H3⟩, ⟨%es, HS⟩⟩
      iframe HU Hg Ho H0 H1 H2
      isplitl [HS]
      · unfold owns; iexists _; isplitr
        swap; · iexact HS
        ipureintro; exact runEnd_acc c _ _ _ _ _ _ _ _ _ _ _ _ _ _ _ _ _ _
      unfold owns; iexists _; isplitr
      swap; · iexact H3
      ipureintro; exact runEnd_out c _ _ _ _ _ _ _ _ _ _ _ _ _ _ _ _ _ _
    · have he : ¬rowEnd (grid1.coords t) := fun h => h1 ((rowEnd_iff t).mp h)
      rw [Dat.leavesExact_idle (dat1 V c) 3 t (idle_out t he) (noFlush_out t he)]
      iintro ⟨⟨⟨HU, HS⟩, Hg⟩, Ho, ⟨%d0, H0⟩, ⟨%d1, H1⟩, ⟨%d2, H2⟩, ⟨%d3, H3⟩⟩
      iapply ((runMid c (grid1.coords t) _ _ _ _ _ _ _ _ _ _ (blockAt V c 0 t) (blockAt V c 1 t) (blockAt V c 2 t) hs he _).2 ((dat1 V c).before 3 t d3) Set.univ _)
      iframe H0 H1 H2 H3 HS
      iintro ⟨H0, H1, H2, H3, ⟨%es, HS⟩⟩
      iframe HU Hg Ho H0 H1 H2
      isplitl [HS]
      · unfold owns; iexists _; isplitr
        swap; · iexact HS
        ipureintro; exact runMid_acc c _ _ _ _ _ _ _ _ _ _ _ _ _ _ _ _ _ _
      iexists _; iexact H3

theorem body_obligation1 (c : Dev nD) : BodyObligation (dat1 (F := F) V c) (defs₀ (F := F)) Variants.none () Set.univ := fun t => by
  rw [bigSep_W1, bigSep_W1]
  exact sound_body V c t

theorem hin1 (c : Dev nD) : (Pipeline.ΦA spec1 c : sProp 𝕄) ⊢ (dat1 V c).Φ 0 :=
  Idealize.SL.BI.Entails.refl _

theorem hout1 (c : Dev nD) : (dat1 V c).Φ (Fin.last cfg1.N) ⊢ (Pipeline.ΦA spec1 c : sProp 𝕄) :=
  Inv_le V c (Fin.last _).val (Nat.le_of_lt_succ (Fin.last _).isLt)

end Cert.KernelIdeal.Dec

end
-- ==== Proof.KRun.lean ====
import proofs.«427360_j50826642981279_1_alg».proof.Proof.Gen.KernelIdeal.Regions
import proofs.«427360_j50826642981279_1_alg».proof.Proof.EncFrame
import proofs.«427360_j50826642981279_1_alg».proof.Proof.DecFrame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev E5 : (c : Dev nD) → (b : Ref sig .tc) → Buf (Elt F) ((c : Thread nD τ).loc b) :=
  fun c b => Gen.V5 m c (Proc.devRef .tc b)

/-- A region changes only its output windows' arrays: there the fold of its write-backs, elsewhere the entry contents. -/
def X6 (c : Dev nD) : Valuation τ sig (Elt F) :=
  Pipeline.withArrays spec0 c (Gen.V5 m c) fun w => (Enc.dat0 (E5 m) c).arrAt w cfg0.N

def outsA : Gen.Outs (F := F) := fun _ r c => X6 m c (Proc.devRef .tc r)

abbrev E6a : (c : Dev nD) → (b : Ref sig .tc) → Buf (Elt F) ((c : Thread nD τ).loc b) :=
  fun c b => Gen.V6 m (outsA m) c (Proc.devRef .tc b)

def X7 (c : Dev nD) : Valuation τ sig (Elt F) :=
  Pipeline.withArrays spec1 c (Gen.V6 m (outsA m) c) fun w => (Dec.dat1 (E6a m) c).arrAt w cfg1.N

def outs : Gen.Outs (F := F) := fun J r c => if J = 6 then X6 m c (Proc.devRef .tc r) else X7 m c (Proc.devRef .tc r)

theorem outs_six (r : Ref sig .tc) (c : Dev nD) : outs m 6 r c = X6 m c (Proc.devRef .tc r) := if_pos rfl
theorem outs_seven (r : Ref sig .tc) (c : Dev nD) : outs m 7 r c = X7 m c (Proc.devRef .tc r) := if_neg (by decide)

abbrev E6 : (c : Dev nD) → (b : Ref sig .tc) → Buf (Elt F) ((c : Thread nD τ).loc b) :=
  fun c b => Gen.V6 m (outs m) c (Proc.devRef .tc b)

theorem V6_outs (c : Dev nD) : Gen.V6 m (outs m) c = Gen.V6 m (outsA m) c := by
  unfold Gen.V6
  rw [outs_six, outs_six]
  rfl
theorem E6_eq : E6 m = E6a m := funext fun c => funext fun b => congrFun (V6_outs m c) _

theorem V6_v55_0 (c : Dev nD) : Gen.V6 m (outs m) c main_v55_0 = (Enc.dat0 (E5 m) c).arrAt 9 cfg0.N := by
  unfold Gen.V6
  rw [Function.update_of_ne (StableHlo.devRef_ne_of_ne (by decide)), Function.update_self, outs_six]
  exact Pipeline.withArrays_arr spec0 launch0.win.arr_inj c _ _ 9

theorem V6_v55_1 (c : Dev nD) : Gen.V6 m (outs m) c main_v55_1 = (Enc.dat0 (E5 m) c).arrAt 10 cfg0.N := by
  unfold Gen.V6
  rw [Function.update_self, outs_six]
  exact Pipeline.withArrays_arr spec0 launch0.win.arr_inj c _ _ 10

theorem V7_v56 (c : Dev nD) : Gen.V7 m (outs m) c main_v56 = (Dec.dat1 (E6 m) c).arrAt 3 cfg1.N := by
  unfold Gen.V7
  rw [Function.update_self, outs_seven, E6_eq]
  exact Pipeline.withArrays_arr spec1 launch1.win.arr_inj c _ _ 3

theorem V6_other (c : Dev nD) (r : Ref sig .tc) (h : r ∉ ([main_v55_0, main_v55_1] : List (Ref sig .tc))) :
    Gen.V6 m (outs m) c r = Gen.V5 m c r := Gen.V6_of m (outs m) c r h

theorem V7_other (c : Dev nD) (r : Ref sig .tc) (h : r ∉ ([main_v56] : List (Ref sig .tc))) :
    Gen.V7 m (outs m) c r = Gen.V6 m (outs m) c r := Gen.V7_of m (outs m) c r h

abbrev E7 : (c : Dev nD) → (b : Ref sig .tc) → Buf (Elt F) ((c : Thread nD τ).loc b) :=
  fun c b => Gen.V7 m (outs m) c (Proc.devRef .tc b)

theorem win0_kinds : ∀ w : Fin 11, (w = 9 ∨ w = 10) ∨ ((cfg0.win w).isOut = false ∧ Pipeline.arrRef spec0 w ∉ ([main_v55_0, main_v55_1] : List (Ref sig .tc))) := by decide

theorem win1_kinds : ∀ w : Fin 4, w = 3 ∨ ((cfg1.win w).isOut = false ∧ Pipeline.arrRef spec1 w ∉ ([main_v56] : List (Ref sig .tc))) := by decide

theorem hF0 (c : Dev nD) (w : Fin cfg0.W) : (Enc.dat0 (E5 m) c).arrAt w cfg0.N = E6 m c (Pipeline.arrRef spec0 w) := by
  rcases win0_kinds w with (rfl | rfl) | ⟨hin, hne⟩
  · exact (V6_v55_0 m c).symm
  · exact (V6_v55_1 m c).symm
  · exact ((Enc.dat0 (E5 m) c).arrAt_in w hin _).trans ((Enc.A_eq0 (E5 m) c w).trans (V6_other m c _ hne).symm)

theorem hrest0 (c : Dev nD) : ∀ b, b ∉ Finset.univ.image (Pipeline.arrRef spec0) → E6 m c b = E5 m c b := fun b hb =>
  V6_other m c b fun hmem => hb ((by decide : ∀ r ∈ ([main_v55_0, main_v55_1] : List (Ref sig .tc)), r ∈ Finset.univ.image (Pipeline.arrRef spec0)) b hmem)

theorem hF1 (c : Dev nD) (w : Fin cfg1.W) : (Dec.dat1 (E6 m) c).arrAt w cfg1.N = E7 m c (Pipeline.arrRef spec1 w) := by
  rcases win1_kinds w with rfl | ⟨hin, hne⟩
  · exact (V7_v56 m c).symm
  · exact ((Dec.dat1 (E6 m) c).arrAt_in w hin _).trans ((Dec.A_eq1 (E6 m) c w).trans (V7_other m c _ hne).symm)

theorem hrest1 (c : Dev nD) : ∀ b, b ∉ Finset.univ.image (Pipeline.arrRef spec1) → E7 m c b = E6 m c b := fun b hb =>
  V7_other m c b fun hmem => hb ((by decide : ∀ r ∈ ([main_v56] : List (Ref sig .tc)), r ∈ Finset.univ.image (Pipeline.arrRef spec1)) b hmem)

def pdats : (p : Fin 2) → (c : Dev nD) → Dat τ (Elt F) Unit ℕ (UR sig nD τ) ℕ (Pipeline.pin (pcfgs (F := F)) Gen.adm p) c
  | ⟨0, _⟩ => fun c => Enc.dat0 (E5 m) c
  | ⟨1, _⟩ => fun c => Dec.dat1 (E6 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev E : Fin 3 → Dev nD → sProp 𝕄 := fun _ c => R c

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- A kernel region from its launch facts, its proof data's lemmas and the valuations before and after it.
def reg (p : Fin 2) (kit : Pipeline.LaunchFacts (nD := nD) (τ := τ) cfgs p) (Vi Vo : (c : Dev nD) → Valuation τ sig (Elt F))
    (hb : ∀ c, BodyObligation (pdats m p c) (defs₀ (F := F)) 𝒱₀ () Set.univ)
    (hq : ∀ c w, (pdats m p c).q w = fullShare)
    (hA : ∀ c w, (pdats m p c).A w = Vi c (Proc.devRef .tc (Pipeline.arrRef (cfgs p).spec w)))
    (ho : ∀ c t, (pdats m p c).owed t = 0) (hr : ∀ c, (pdats m p c).recorded 0 = Set.univ)
    (hi : ∀ c, (Pipeline.ΦA (cfgs p).spec c : sProp 𝕄) ⊢ (pdats m p c).Φ 0)
    (hou : ∀ c, (pdats m p c).Φ (Fin.last _) ⊢ (Pipeline.ΦA (cfgs p).spec c : sProp 𝕄))
    (hF : ∀ c w, (pdats m p c).arrAt w (cfgs p).N = Vo c (Proc.devRef .tc (Pipeline.arrRef (cfgs p).spec w)))
    (hrest : ∀ c b, b ∉ Finset.univ.image (Pipeline.arrRef (cfgs p).spec) → Vo c (Proc.devRef .tc b) = Vi c (Proc.devRef .tc b)) :
    Pipeline.RegionSeg (pcfgs (F := F)) Gen.adm (pdats m) () defs₀ 𝒱₀ L lv p where
  win := kit.win.to₀
  block_pos := kit.block_pos
  stage_whole := kit.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Vi c (Proc.devRef .tc b)
  hentry c := by
    rw [Pipeline.ownSems0_none]
    have hsplit := Pipeline.arrays_of_unscopedBufs (p := p) (pcfgs (F := F)) Gen.adm (pdats m) kit.win kit.arr_whole c
      ((pdats m p c).share_full (hq c)) (fun b => Vi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [ho c 0, hr c]
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    refine BIBase.Entails.trans (hou c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      kit.win kit.arr_whole c (pdats m) ((pdats m p c).share_full (hq c))
      (fun b => Vi c (Proc.devRef .tc b)) (fun b => Vo c (Proc.devRef .tc b)) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c _]
    icases HO with ⟨%W, -, HO⟩; iexists W; iexact HO

abbrev reg0 := reg m 0 launch0 (Gen.V5 m) (Gen.V6 m (outs m)) (Enc.body_obligation0 (E5 m)) (Enc.q_full0 (E5 m)) (Enc.A_eq0 (E5 m))
  (Enc.owed0 (E5 m)) (fun c => Enc.recorded0 (E5 m) c 0) (Enc.hin0 (E5 m)) (Enc.hout0 (E5 m)) (hF0 m) (hrest0 m)

abbrev reg1 := reg m 1 launch1 (Gen.V6 m (outs m)) (Gen.V7 m (outs m)) (Dec.body_obligation1 (E6 m)) (Dec.q_full1 (E6 m)) (Dec.A_eq1 (E6 m))
  (Dec.owed1 (E6 m)) (fun c => Dec.recorded1 (E6 m) c 0) (Dec.hin1 (E6 m)) (Dec.hout1 (E6 m)) (hF1 m) (hrest1 m)

abbrev W8 (c : Dev nD) : Valuation τ sig (Elt F) := Gen.V8 m (outs m) c

abbrev segs : List (Pipeline.Seg (pcfgs (F := F)) Gen.adm (pdats m) () defs₀ 𝒱₀ L lv) :=
  [ .host (Gen.seg0 m 𝒱₀ L lv E), .host (Gen.seg1 m 𝒱₀ L lv E), .host (Gen.seg2 m 𝒱₀ L lv E), .host (Gen.seg3 m 𝒱₀ L lv E),
    .host (Gen.seg4 m 𝒱₀ L lv E), .region (reg0 m), .region (reg1 m), .host (Gen.seg7 m (outs m) 𝒱₀ L lv E) ]

set_option backward.isDefEq.respectTransparency.types false in

/-- Eight segments chain from the launch memory to the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W8 m c b) :=
  Pipeline.θ_run_regions_kit (pcfgs (F := F)) Gen.adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (W8 m c))
    (hch := ⟨fun _ => .rfl, fun _ => .rfl, fun _ => .rfl, fun _ => .rfl, fun _ => .rfl, fun _ => .rfl, fun _ => .rfl, fun _ => .rfl,
      fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨Hh, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- No item writes an argument array, so each is read off the last boundary as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c),
     (h c _ (mem_uc main_arg3 (by decide))).trans (Gen.V8_main_arg3 m (outs m) c),
     (h c _ (mem_uc main_arg4 (by decide))).trans (Gen.V8_main_arg4 m (outs m) c),
     (h c _ (mem_uc main_arg5 (by decide))).trans (Gen.V8_main_arg5 m (outs m) c),
     (h c _ (mem_uc main_arg6 (by decide))).trans (Gen.V8_main_arg6 m (outs m) c),
     (h c _ (mem_uc main_arg7 (by decide))).trans (Gen.V8_main_arg7 m (outs m) c),
     (h c _ (mem_uc main_arg8 (by decide))).trans (Gen.V8_main_arg8 m (outs m) c)⟩) (run_all m ρ)

end Cert.KernelIdeal.KRun

end
-- ==== Proof.Spec.lean ====
import Idealize.ShloMosaic.PureOps.Ideal
import Idealize.ShloMosaic.Lib.ValueIdx

noncomputable section

namespace Cert.Spec

open Idealize.ShloMosaic

abbrev cur2 {α : Type} {n0 n1 : Nat} (arr : (⟨2, ![n0, n1]⟩ : Shape).Idx → α) : Fin n0 → Fin n1 → α :=
  fun a b => arr (ValueIdx.ix2 a b)

abbrev cur1 {α : Type} {n : Nat} (arr : (⟨1, ![n]⟩ : Shape).Idx → α) : Fin n → α :=
  fun a => arr (ValueIdx.ix1 a)

abbrev one : EReal := Ideal.ofBits .f32 0x3F800000#32
abbrev negHalf : EReal := Ideal.ofBits .f32 0xBF000000#32
abbrev negInf : EReal := Ideal.ofBits .f32 0xFF800000#32
abbrev eps : EReal := Ideal.ofBits .f32 0x3727C5AC#32
abbrev c1024 : EReal := Ideal.ofBits .f32 0x44800000#32

def tcol (j : Fin 17) (k : Fin 2944) : Fin 50048 := ⟨2944 * j.val + k.val, by have := j.isLt; have := k.isLt; omega⟩

def IdsOk (ids : Fin 1024 → Fin 512 → BitVec 32) : Prop := ∀ b s, (ids b s).toNat < 50000

def histo (N : Nat) (ids : Fin 1024 → Fin 512 → BitVec 32) (b : Fin 1024) (v : Fin N) : EReal :=
  if v.val = 1 ∨ v.val = 2 then 0 else ∑ s : Fin 512, if (ids b s).toNat = v.val then (1 : EReal) else 0

def total (N : Nat) (ids : Fin 1024 → Fin 512 → BitVec 32) (b : Fin 1024) : EReal := ∑ v : Fin N, histo N ids b v

def rhoPad (rho : Fin 50000 → Fin 300 → EReal) (v : Fin 50048) (e : Fin 300) : EReal :=
  if h : v.val < 50000 then rho ⟨v.val, h⟩ e else 0

def xK (ids : Fin 1024 → Fin 512 → BitVec 32) (rho : Fin 50000 → Fin 300 → EReal) (b : Fin 1024) (e : Fin 300) : EReal :=
  ∑ j : Fin 17, ∑ k : Fin 2944, Ideal.div (histo 50048 ids b (tcol j k)) (total 50048 ids b) * rhoPad rho (tcol j k) e

def xR (ids : Fin 1024 → Fin 512 → BitVec 32) (rho : Fin 50000 → Fin 300 → EReal) (b : Fin 1024) (e : Fin 300) : EReal :=
  ∑ v : Fin 50000, Ideal.div (histo 50000 ids b v) (total 50000 ids b) * rho v e

section Tail
variable (W1 : Fin 300 → Fin 800 → EReal) (b1 : Fin 800 → EReal)
  (Wmu : Fin 800 → Fin 50 → EReal) (bmu : Fin 50 → EReal) (Wlv : Fin 800 → Fin 50 → EReal) (blv : Fin 50 → EReal)

def hid (x : Fin 300 → EReal) (n : Fin 800) : EReal := max ((∑ e : Fin 300, x e * W1 e n) + b1 n) 0
def muOf (x : Fin 300 → EReal) (t : Fin 50) : EReal := (∑ n : Fin 800, hid W1 b1 x n * Wmu n t) + bmu t
def lvOf (x : Fin 300 → EReal) (t : Fin 50) : EReal := (∑ n : Fin 800, hid W1 b1 x n * Wlv n t) + blv t

def klOf (x : Fin 300 → EReal) : EReal :=
  negHalf * ∑ t : Fin 50, (((one + lvOf W1 b1 Wlv blv x t) - muOf W1 b1 Wmu bmu x t * muOf W1 b1 Wmu bmu x t)
    - Ideal.exp (lvOf W1 b1 Wlv blv x t))

def mxOf (x : Fin 300 → EReal) : EReal := max negInf ((Finset.univ : Finset (Fin 50)).fold max negInf (muOf W1 b1 Wmu bmu x))
def expOf (x : Fin 300 → EReal) (t : Fin 50) : EReal := Ideal.exp (muOf W1 b1 Wmu bmu x t - mxOf W1 b1 Wmu bmu x)

def thetaOf (x : Fin 300 → EReal) (t : Fin 50) : EReal :=
  Ideal.div (expOf W1 b1 Wmu bmu x t) (∑ t' : Fin 50, expOf W1 b1 Wmu bmu x t')
end Tail

def logitK (alpha : Fin 50 → Fin 300 → EReal) (rho : Fin 50000 → Fin 300 → EReal) (t : Fin 50) (v : Fin 50048) : EReal :=
  if v.val < 50000 then ∑ e : Fin 300, alpha t e * rhoPad rho v e else negInf
def logitR (alpha : Fin 50 → Fin 300 → EReal) (rho : Fin 50000 → Fin 300 → EReal) (t : Fin 50) (v : Fin 50000) : EReal :=
  ∑ e : Fin 300, alpha t e * rho v e

def smax {N : Nat} (l : Fin N → EReal) (v : Fin N) : EReal :=
  Ideal.div (Ideal.exp (l v - max negInf ((Finset.univ : Finset (Fin N)).fold max negInf l)))
    (∑ v' : Fin N, Ideal.exp (l v' - max negInf ((Finset.univ : Finset (Fin N)).fold max negInf l)))

def betaK (alpha : Fin 50 → Fin 300 → EReal) (rho : Fin 50000 → Fin 300 → EReal) (t : Fin 50) (v : Fin 50048) : EReal :=
  smax (logitK alpha rho t) v
def betaR (alpha : Fin 50 → Fin 300 → EReal) (rho : Fin 50000 → Fin 300 → EReal) (t : Fin 50) (v : Fin 50000) : EReal :=
  smax (logitR alpha rho t) v

def reconK (ids : Fin 1024 → Fin 512 → BitVec 32) (beta : Fin 50 → Fin 50048 → EReal) (th : Fin 50 → EReal) (b : Fin 1024) : EReal :=
  ∑ j : Fin 17, (0 - ∑ k : Fin 2944,
    Ideal.log ((∑ t : Fin 50, th t * beta t (tcol j k)) + eps) * histo 50048 ids b (tcol j k))

def reconR (ids : Fin 1024 → Fin 512 → BitVec 32) (beta : Fin 50 → Fin 50000 → EReal) (th : Fin 50 → EReal) (b : Fin 1024) : EReal :=
  -(∑ v : Fin 50000, Ideal.log ((∑ t : Fin 50, th t * beta t v) + eps) * histo 50000 ids b v)

def lossOf (recon kl : Fin 1024 → EReal) : EReal :=
  Ideal.div (∑ b : Fin 1024, recon b) c1024 + Ideal.div (∑ b : Fin 1024, kl b) c1024

end Cert.Spec

end
-- ==== Proof.SpecOut.lean ====
import proofs.«427360_j50826642981279_1_alg».proof.Proof.Spec

noncomputable section

namespace Cert.Spec

open Idealize.ShloMosaic

variable (ids : Fin 1024 → Fin 512 → BitVec 32) (rho : Fin 50000 → Fin 300 → EReal) (alpha : Fin 50 → Fin 300 → EReal)
variable (W1 : Fin 300 → Fin 800 → EReal) (b1 : Fin 800 → EReal)
  (Wmu : Fin 800 → Fin 50 → EReal) (bmu : Fin 50 → EReal) (Wlv : Fin 800 → Fin 50 → EReal) (blv : Fin 50 → EReal)

def thetaRef (b : Fin 1024) (t : Fin 50) : EReal := thetaOf W1 b1 Wmu bmu (xR ids rho b) t

def lossRef : EReal :=
  lossOf (fun b => reconR ids (betaR alpha rho) (thetaOf W1 b1 Wmu bmu (xR ids rho b)) b) (fun b => klOf W1 b1 Wmu bmu Wlv blv (xR ids rho b))

def thetaKer (b : Fin 1024) (t : Fin 50) : EReal := thetaOf W1 b1 Wmu bmu (xK ids rho b) t

def lossKer : EReal :=
  lossOf (fun b => reconK ids (betaK alpha rho) (thetaOf W1 b1 Wmu bmu (xK ids rho b)) b) (fun b => klOf W1 b1 Wmu bmu Wlv blv (xK ids rho b))

end Cert.Spec

end
-- ==== Proof.SpecTile.lean ====
import proofs.«427360_j50826642981279_1_alg».proof.Proof.Spec

noncomputable section

namespace Cert.Spec

open Idealize.ShloMosaic

def xTile (bows : Fin 1024 → Fin 50048 → EReal) (tot : Fin 1024 → EReal) (tab : Fin 50048 → Fin 300 → EReal)
    (b : Fin 1024) (e : Fin 300) : EReal :=
  ∑ j : Fin 17, ∑ k : Fin 2944, Ideal.div (bows b (tcol j k)) (tot b) * tab (tcol j k) e

def reconTile (bows : Fin 1024 → Fin 50048 → EReal) (beta : Fin 50 → Fin 50048 → EReal) (th : Fin 50 → EReal) (b : Fin 1024) : EReal :=
  ∑ j : Fin 17, (0 - ∑ k : Fin 2944, Ideal.log ((∑ t : Fin 50, th t * beta t (tcol j k)) + eps) * bows b (tcol j k))

theorem xK_eq_xTile (ids : Fin 1024 → Fin 512 → BitVec 32) (rho : Fin 50000 → Fin 300 → EReal) :
    xK ids rho = xTile (histo 50048 ids) (total 50048 ids) (rhoPad rho) := rfl

theorem reconK_eq_reconTile (ids : Fin 1024 → Fin 512 → BitVec 32) (beta : Fin 50 → Fin 50048 → EReal) (th : Fin 50 → EReal) (b : Fin 1024) :
    reconK ids beta th b = reconTile (histo 50048 ids) beta th b := rfl

end Cert.Spec

end
-- ==== Proof.LibHisto.lean ====
import Idealize.ShloMosaic.PureOps.Ideal.Laws
import Idealize.ShloMosaic.Lib.ValueIdx
import Idealize.ShloMosaic.Lib.IdealHost
noncomputable section
namespace Cert.LibHisto
open Idealize.ShloMosaic Idealize.ShloMosaic.ValueIdx

section General
variable {s si u : Shape} (d : ScatterDims s si u) {w : Nat}

theorem resultIdx?_eq_some_iff (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq, funext_iff]
    refine forall_congr' fun a => ?_
    rw [Fin.ext_iff]
    show (d.start j idx a + (d.window j a : Int)).toNat = (i a).val ↔ _
    have := h a
    omega
  · exact ⟨(fun e => nomatch e), fun e => absurd (fun a => by have := e a; have := (i a).isLt; omega) h⟩

end General

section Add
variable {N : Nat}
  (wf : ScatterDims.WF (⟨2, ![1024, N]⟩ : Shape) ⟨3, ![1024, 512, 2]⟩ ⟨2, ![1024, 512]⟩ [] [0, 1] [0, 1] 2)

abbrev dAdd : ScatterDims (⟨2, ![1024, N]⟩ : Shape) ⟨3, ![1024, 512, 2]⟩ ⟨2, ![1024, 512]⟩ := ⟨[], [0, 1], [0, 1], 2, wf⟩

theorem siIdx_add (b' : Fin 1024) (s : Fin 512) (c : Fin 2) : (dAdd wf).siIdx (ix2 b' s) c = ix3 b' s c :=
  funext fun a => Fin.ext (by match a with | ⟨0, _⟩ | ⟨1, _⟩ | ⟨2, _⟩ => rfl)

theorem start_add (idx : IVec ⟨3, ![1024, 512, 2]⟩ 32) (b' : Fin 1024) (s : Fin 512) (a : Fin 2) :
    (dAdd wf).start (ix2 b' s) idx a = (idx (ix3 b' s a)).toInt := by
  match a with
  | ⟨0, _⟩ | ⟨1, _⟩ => exact congrArg (fun i => (idx i).toInt) (siIdx_add wf b' s _)

theorem resultIdx?_add (idx : IVec ⟨3, ![1024, 512, 2]⟩ 32) (b' : Fin 1024) (s : Fin 512) (b : Fin 1024) (v : Fin N) :
    (dAdd wf).resultIdx? (ix2 b' s) idx = some (ix2 b v)
      ↔ (idx (ix3 b' s 0)).toInt = (b.val : Int) ∧ (idx (ix3 b' s 1)).toInt = (v.val : Int) := by
  rw [resultIdx?_eq_some_iff, Fin.forall_fin_two, start_add, start_add]
  show _ + ((0 : ℕ) : Int) = _ ∧ _ + ((0 : ℕ) : Int) = _ ↔ _
  rw [Nat.cast_zero, add_zero, add_zero]

end Add

theorem scatterAdd_apply {N : Nat}
    (wf : ScatterDims.WF (⟨2, ![1024, N]⟩ : Shape) ⟨3, ![1024, 512, 2]⟩ ⟨2, ![1024, 512]⟩ [] [0, 1] [0, 1] 2)
    (x : FVec Ideal ⟨2, ![1024, N]⟩ .f32) (idx : IVec ⟨3, ![1024, 512, 2]⟩ 32) (upd : FVec Ideal ⟨2, ![1024, 512]⟩ .f32)
    (b : Fin 1024) (v : Fin N) :
    Host.scatterAdd (⟨[], [0, 1], [0, 1], 2, wf⟩ : ScatterDims (⟨2, ![1024, N]⟩ : Shape) ⟨3, ![1024, 512, 2]⟩ ⟨2, ![1024, 512]⟩) x idx upd (ix2 b v)
      = x (ix2 b v) + ∑ b' : Fin 1024, ∑ s : Fin 512,
          if (idx (ix3 b' s 0)).toInt = (b.val : Int) ∧ (idx (ix3 b' s 1)).toInt = (v.val : Int) then upd (ix2 b' s) else 0 := by
  show x (ix2 b v) + ∑ j ∈ Finset.univ.filter (fun j => (dAdd wf).resultIdx? j idx = some (ix2 b v)), upd j = _
  congr 1
  rw [Finset.sum_filter, sum_idx2]
  refine Finset.sum_congr rfl fun b' _ => Finset.sum_congr rfl fun s _ => ?_
  exact if_congr (resultIdx?_add wf idx b' s b v) rfl rfl

section SetConst
variable {s si u : Shape} (d : ScatterDims s si u) {w : Nat} {α : Type}

def scatStep (f : α → α → α) (idx : IVec si w) (upd : u.Idx → α) (r : s.Idx → α) (n : Fin u.numel) : s.Idx → α :=
  match d.resultIdx? (u.rowMajor.symm n) idx with
  | some i => fun i' => if i' = i then f (r i) (upd (u.rowMajor.symm n)) else r i'
  | none => r

theorem scatter_eq_foldl (f : α → α → α) (x : s.Idx → α) (idx : IVec si w) (upd : u.Idx → α) :
    Host.scatter d f x idx upd = (List.finRange u.numel).foldl (scatStep d f idx upd) x := rfl

theorem scatStep_set_apply (idx : IVec si w) (upd : u.Idx → α) (r : s.Idx → α) (n : Fin u.numel) (i' : s.Idx) :
    scatStep d (fun _ b => b) idx upd r n i'
      = if d.resultIdx? (u.rowMajor.symm n) idx = some i' then upd (u.rowMajor.symm n) else r i' := by
  unfold scatStep
  cases h : d.resultIdx? (u.rowMajor.symm n) idx with
  | none => simp
  | some i =>
    by_cases e : i' = i
    · subst e; simp
    · have e' : ¬ some i = some i' := fun h' => e (Option.some.inj h').symm
      simp [e, e']

theorem foldl_scatStep_const (idx : IVec si w) (upd : u.Idx → α) (c : α) (hupd : ∀ j, upd j = c)
    (l : List (Fin u.numel)) (r : s.Idx → α) (i' : s.Idx) :
    (l.foldl (scatStep d (fun _ b => b) idx upd) r) i'
      = if ∃ n ∈ l, d.resultIdx? (u.rowMajor.symm n) idx = some i' then c else r i' := by
  induction l generalizing r with
  | nil => simp
  | cons n l ih =>
    rw [List.foldl_cons, ih, scatStep_set_apply, hupd]
    by_cases h1 : ∃ n' ∈ l, d.resultIdx? (u.rowMajor.symm n') idx = some i' <;>
      by_cases h3 : d.resultIdx? (u.rowMajor.symm n) idx = some i' <;>
      simp only [h1, h3, List.mem_cons, exists_eq_or_imp, if_true, if_false, or_true, true_or, or_self]

theorem scatter_const_apply (x : s.Idx → α) (idx : IVec si w) (upd : u.Idx → α) (c : α) (hupd : ∀ j, upd j = c) (i' : s.Idx) :
    Host.scatter d (fun _ b => b) x idx upd i' = if ∃ j, d.resultIdx? j idx = some i' then c else x i' := by
  rw [scatter_eq_foldl, foldl_scatStep_const d idx upd c hupd]
  exact if_congr ⟨fun ⟨n, _, e⟩ => ⟨_, e⟩, fun ⟨j, hj⟩ => ⟨u.rowMajor j, List.mem_finRange _, by rw [Equiv.symm_apply_apply]; exact hj⟩⟩ rfl rfl

end SetConst

section Set
variable {N : Nat}
  (wf : ScatterDims.WF (⟨2, ![1024, N]⟩ : Shape) ⟨2, ![2, 1]⟩ ⟨2, ![1024, 2]⟩ [0] [1] [1] 1)

abbrev dSet : ScatterDims (⟨2, ![1024, N]⟩ : Shape) ⟨2, ![2, 1]⟩ ⟨2, ![1024, 2]⟩ := ⟨[0], [1], [1], 1, wf⟩

theorem siIdx_set (r : Fin 1024) (k : Fin 2) (c : Fin 1) : (dSet wf).siIdx (ix2 r k) c = ix2 k c :=
  funext fun a => Fin.ext (by match a with | ⟨0, _⟩ | ⟨1, _⟩ => rfl)

theorem start_set_col (idx : IVec ⟨2, ![2, 1]⟩ 32) (r : Fin 1024) (k : Fin 2) :
    (dSet wf).start (ix2 r k) idx (1 : Fin 2) = (idx (ix2 k 0)).toInt := by
  show (idx ((dSet wf).siIdx (ix2 r k) (0 : Fin 1))).toInt = _
  rw [siIdx_set]

theorem resultIdx?_set (idx : IVec ⟨2, ![2, 1]⟩ 32) (r : Fin 1024) (k : Fin 2) (b : Fin 1024) (v : Fin N) :
    (dSet wf).resultIdx? (ix2 r k) idx = some (ix2 b v) ↔ r = b ∧ (idx (ix2 k 0)).toInt = (v.val : Int) := by
  rw [resultIdx?_eq_some_iff, Fin.forall_fin_two, start_set_col]
  show (0 : Int) + ((r.val : ℕ) : Int) = (b.val : Int) ∧ (idx (ix2 k 0)).toInt + ((0 : ℕ) : Int) = (v.val : Int) ↔ _
  rw [zero_add, Nat.cast_zero, add_zero, Nat.cast_inj]
  exact and_congr_left' Fin.val_inj

end Set

theorem scatterSet_const_apply {N : Nat} {α : Type}
    (wf : ScatterDims.WF (⟨2, ![1024, N]⟩ : Shape) ⟨2, ![2, 1]⟩ ⟨2, ![1024, 2]⟩ [0] [1] [1] 1)
    (x : (⟨2, ![1024, N]⟩ : Shape).Idx → α) (idx : IVec ⟨2, ![2, 1]⟩ 32) (upd : (⟨2, ![1024, 2]⟩ : Shape).Idx → α) (c : α)
    (hupd : ∀ j, upd j = c) (b : Fin 1024) (v : Fin N) :
    Host.scatter (⟨[0], [1], [1], 1, wf⟩ : ScatterDims (⟨2, ![1024, N]⟩ : Shape) ⟨2, ![2, 1]⟩ ⟨2, ![1024, 2]⟩) (fun _ u => u) x idx upd (ix2 b v)
      = if (idx (ix2 0 0)).toInt = (v.val : Int) ∨ (idx (ix2 1 0)).toInt = (v.val : Int) then c else x (ix2 b v) := by
  refine (scatter_const_apply (dSet wf) x idx upd c hupd (ix2 b v)).trans (if_congr ⟨?_, ?_⟩ rfl rfl)
  · rintro ⟨j, e⟩
    obtain ⟨r, k, rfl⟩ : ∃ (r : Fin 1024) (k : Fin 2), j = ix2 r k := ⟨j 0, j 1, eq_ix2 j⟩
    have hk := ((resultIdx?_set wf idx r k b v).1 e).2
    match k, hk with
    | ⟨0, _⟩, hk => exact .inl hk
    | ⟨1, _⟩, hk => exact .inr hk
  · rintro (h | h)
    · exact ⟨ix2 b 0, (resultIdx?_set wf idx b 0 b v).2 ⟨rfl, h⟩⟩
    · exact ⟨ix2 b 1, (resultIdx?_set wf idx b 1 b v).2 ⟨rfl, h⟩⟩

end Cert.LibHisto
-- ==== Proof.KHost.lean ====
import proofs.«427360_j50826642981279_1_alg».proof.Proof.Gen.KernelIdeal.Regions
import proofs.«427360_j50826642981279_1_alg».proof.Proof.Spec
import proofs.«427360_j50826642981279_1_alg».proof.Proof.SpecTile
import proofs.«427360_j50826642981279_1_alg».proof.Proof.SpecOut
import proofs.«427360_j50826642981279_1_alg».proof.Proof.LibHisto
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.KernelVsHost
import Idealize.ShloMosaic.Lib.IdealHost

set_option maxRecDepth 16384

noncomputable section

namespace Cert.KernelIdeal.KHost

open Cert.KernelIdeal Cert.KernelIdeal.Gen
open Idealize.ShloMosaic Idealize.ShloMosaic.TcCoe
open Idealize.ShloMosaic.ValueIdx
open Cert.Spec (cur1 cur2)

variable (m : (ℓ : Loc nD τ sig) → Buf (Elt Ideal) ℓ) (c : Dev nD)

theorem hostExp_apply {s : Shape} {φ : FTy} (a : FVec Ideal s φ) (i : s.Idx) : Host.exp a i = Ideal.exp (a i) := rfl
section Histo
open Idealize.ShloMosaic.StableHlo.Predicate

/-- Where negative, an index counts from the end: `n` is added. -/
def wrapT {s : Shape} (hb : S_.BroadcastsInDim s (![] : Fin 0 → Fin s.rank)) (n : BitVec 32) (x : IVec s 32) : IVec s 32 :=
  select (cmpi .slt x (broadcastInDim s ![] hb (constantI S_ 32 0#32))) (addi x (broadcastInDim s ![] hb (constantI S_ 32 n))) x

def rowsT : IVec S1024x1 32 :=
  wrapT bcast_S_S1024x1 1024#32 (broadcastInDim S1024x1 ![0] bcast_S1024_S1024x1_0 (iotaInDim S1024 32 0))

def colsT (ids : IVec S1024x512 32) : IVec S1024x512 32 := wrapT bcast_S_S1024x512 50048#32 ids

def idxT (ids : IVec S1024x512 32) : IVec S1024x512x2 32 :=
  concatenate S1024x512x2 2
    [⟨S1024x512x1, broadcastInDim S1024x512x1 ![0, 1] bcast_S1024x512_S1024x512x1_0_1
        (broadcastInDim S1024x512 ![0, 1] bcast_S1024x1_S1024x512_0_1 rowsT)⟩,
     ⟨S1024x512x1, broadcastInDim S1024x512x1 ![0, 1] bcast_S1024x512_S1024x512x1_0_1 (colsT ids)⟩]
    concatenates_S1024x512x1_S1024x512x1_S1024x512x2_d2

def countsT (ids : IVec S1024x512 32) : FVec Ideal S1024x50048 .f32 :=
  Host.scatterAdd scatter_S1024x50048_S1024x512x2_S1024x512_n_01_01_2
    (broadcastInDim S1024x50048 ![] bcast_S_S1024x50048 (constant S_ .f32 0x00000000#32)) (idxT ids)
    (broadcastInDim S1024x512 ![] bcast_S_S1024x512 (constant S_ .f32 0x3F800000#32))

def clearT : IVec S2x1 32 :=
  broadcastInDim S2x1 ![0] bcast_S2_S2x1_0 (wrapT bcast_S_S2 50048#32 fun i => lit0 (S2.rowMajor i))

def histoT (ids : IVec S1024x512 32) : FVec Ideal S1024x50048 .f32 :=
  Host.scatter scatter_S1024x50048_S2x1_S1024x2_0_1_1_1 (fun _ b => b) (countsT ids) clearT
    (broadcastInDim S1024x2 ![] bcast_S_S1024x2 (constant S_ .f32 0x00000000#32))

def totalT (h : FVec Ideal S1024x50048 .f32) : FVec Ideal S1024x1 .f32 :=
  broadcastInDim S1024x1 ![0] bcast_S1024_S1024x1_0
    (Host.reduceAdd h (constant S_ .f32 0x00000000#32) reducesTo_S1024x50048_S1024_d1 h_S_)

theorem not_slt_zero {a : BitVec 32} (ha : a.toNat < 2 ^ 31) : IntOp.cmpi .slt a 0#32 = 0#1 :=
  eq_zero_of_ne_one fun e => absurd ((slt_iff_toNat ha (by decide)).mp e) (Nat.not_lt_zero _)

theorem wrapT_apply {s : Shape} (hb : S_.BroadcastsInDim s (![] : Fin 0 → Fin s.rank)) (n : BitVec 32) (x : IVec s 32) (i : s.Idx) (h : (x i).toNat < 2 ^ 31) :
    wrapT hb n x i = x i := by
  unfold wrapT
  rw [select_apply]
  show Scalar.select (IntOp.cmpi .slt (x i) 0#32) _ _ = _
  rw [not_slt_zero h, select_zero]

theorem rowsT_apply (b : Fin 1024) : rowsT (ix2 b 0) = BitVec.ofNat 32 b.val := by
  have e : broadcastInDim S1024x1 ![0] bcast_S1024_S1024x1_0 (iotaInDim S1024 32 0) (ix2 b (0 : Fin 1)) = BitVec.ofNat 32 b.val :=
    broadcastInDim_apply _ _ _ (ix2 b (0 : Fin 1)) (ix1 b) fun a => by match a with | ⟨0, _⟩ => rfl
  exact (wrapT_apply _ _ _ _ (by rw [e]; have := b.isLt; simp [BitVec.toNat_ofNat]; omega)).trans e

theorem colsT_apply (ids : IVec S1024x512 32) (b : Fin 1024) (s : Fin 512) (h : (ids (ix2 b s)).toNat < 50000) :
    colsT ids (ix2 b s) = ids (ix2 b s) := wrapT_apply _ _ ids _ (by omega)

theorem idxT_row (ids : IVec S1024x512 32) (b : Fin 1024) (s : Fin 512) : idxT ids (ix3 b s 0) = rowsT (ix2 b 0) := by
  unfold idxT
  refine (concatenate_pair_apply_left (t := S1024x512x2) (s₁ := S1024x512x1) (s₂ := S1024x512x1) (2 : Fin 3) _ _ concatenates_S1024x512x1_S1024x512x1_S1024x512x2_d2 (ix3 b s (0 : Fin 2)) rfl
    (ix3 b s (0 : Fin 1)) fun a => by match a with | ⟨0, _⟩ => rfl | ⟨1, _⟩ => rfl | ⟨2, _⟩ => rfl).trans ?_
  refine (broadcastInDim_apply _ _ _ (ix3 b s (0 : Fin 1)) (ix2 b s) fun a => by match a with | ⟨0, _⟩ => rfl | ⟨1, _⟩ => rfl).trans ?_
  exact broadcastInDim_apply _ _ _ (ix2 b s) (ix2 b (0 : Fin 1)) fun a => by match a with | ⟨0, _⟩ => rfl | ⟨1, _⟩ => rfl

theorem idxT_col (ids : IVec S1024x512 32) (b : Fin 1024) (s : Fin 512) : idxT ids (ix3 b s 1) = colsT ids (ix2 b s) := by
  unfold idxT
  refine (concatenate_pair_apply_right (t := S1024x512x2) (s₁ := S1024x512x1) (s₂ := S1024x512x1) (2 : Fin 3) _ _ concatenates_S1024x512x1_S1024x512x1_S1024x512x2_d2 (ix3 b s (1 : Fin 2)) rfl rfl
    (ix3 b s (0 : Fin 1)) (fun a ha => by match a with | ⟨0, _⟩ => rfl | ⟨1, _⟩ => rfl | ⟨2, _⟩ => exact absurd rfl ha) rfl).trans ?_
  exact broadcastInDim_apply _ _ _ (ix3 b s (0 : Fin 1)) (ix2 b s) fun a => by match a with | ⟨0, _⟩ => rfl | ⟨1, _⟩ => rfl

theorem clearT_zero : clearT (ix2 0 0) = 1#32 := by
  unfold clearT
  refine (broadcastInDim_apply _ _ _ (ix2 (0 : Fin 2) (0 : Fin 1)) (ix1 (0 : Fin 2)) fun a => by match a with | ⟨0, _⟩ => rfl).trans ?_
  rfl

theorem clearT_one : clearT (ix2 1 0) = 2#32 := by
  unfold clearT
  refine (broadcastInDim_apply _ _ _ (ix2 (1 : Fin 2) (0 : Fin 1)) (ix1 (1 : Fin 2)) fun a => by match a with | ⟨0, _⟩ => rfl).trans ?_
  rfl

/-- Only the row's own tokens land in the row, each adding one where its id names the column. -/
theorem countsT_apply (ids : IVec S1024x512 32) (hids : ∀ b s, (ids (ix2 b s)).toNat < 50000) (b : Fin 1024) (v : Fin 50048) :
    countsT ids (ix2 b v) = ∑ s : Fin 512, if (ids (ix2 b s)).toNat = v.val then (1 : EReal) else 0 := by
  unfold countsT scatter_S1024x50048_S1024x512x2_S1024x512_n_01_01_2
  rw [Cert.LibHisto.scatterAdd_apply]
  have e0 : broadcastInDim S1024x50048 ![] bcast_S_S1024x50048 (constant (F := Ideal) S_ .f32 0x00000000#32) (ix2 b v) = 0 :=
    (broadcastInDim_scalar_apply _ _ _).trans Ideal.ofBits_zero_f32
  rw [e0, zero_add]
  have hrow : ∀ b' : Fin 1024, (BitVec.ofNat 32 b'.val).toInt = (b'.val : Int) := fun b' =>
    toInt_ofNat_small b'.val (by have := b'.isLt; omega)
  have hcol : ∀ (b' : Fin 1024) (s : Fin 512), (ids (ix2 b' s)).toInt = ((ids (ix2 b' s)).toNat : Int) := fun b' s =>
    toInt_eq_toNat_of_lt (by have := hids b' s; omega)
  have e1 : ∀ (b' : Fin 1024) (s : Fin 512),
      broadcastInDim S1024x512 ![] bcast_S_S1024x512 (constant (F := Ideal) S_ .f32 0x3F800000#32) (ix2 b' s) = 1 := fun b' s =>
    (broadcastInDim_scalar_apply _ _ _).trans Ideal.ofBits_one_f32
  rw [Finset.sum_eq_single b]
  · refine Finset.sum_congr rfl fun s _ => ?_
    rw [idxT_row, idxT_col, rowsT_apply, colsT_apply ids b s (hids b s), hrow, hcol, e1]
    by_cases h : (ids (ix2 b s)).toNat = v.val
    · rw [if_pos ⟨rfl, by rw [h]⟩, if_pos h]
    · rw [if_neg (fun hh => h (by exact_mod_cast hh.2)), if_neg h]
  · intro b' _ hb'
    refine Finset.sum_eq_zero fun s _ => ?_
    rw [idxT_row, rowsT_apply, hrow]
    exact if_neg fun hh => hb' (Fin.ext (by exact_mod_cast hh.1))
  · intro h; exact absurd (Finset.mem_univ b) h

/-- The set-scatter clears columns 1 and 2 and leaves the counts elsewhere. -/
theorem histoT_apply (ids : IVec S1024x512 32) (hids : ∀ b s, (ids (ix2 b s)).toNat < 50000) (b : Fin 1024) (v : Fin 50048) :
    histoT ids (ix2 b v) = Spec.histo 50048 (cur2 ids) b v := by
  unfold histoT scatter_S1024x50048_S2x1_S1024x2_0_1_1_1 Spec.histo
  rw [Cert.LibHisto.scatterSet_const_apply _ _ _ _ (0 : EReal) (fun j =>
    (broadcastInDim_scalar_apply _ _ j).trans Ideal.ofBits_zero_f32)]
  rw [clearT_zero, clearT_one, countsT_apply ids hids]
  have h1 : (1#32 : BitVec 32).toInt = 1 := by decide
  have h2 : (2#32 : BitVec 32).toInt = 2 := by decide
  rw [h1, h2]
  by_cases h : v.val = 1 ∨ v.val = 2
  · rw [if_pos h, if_pos (h.imp (fun e => by rw [e]; rfl) (fun e => by rw [e]; rfl))]
  · rw [if_neg h, if_neg (fun hh => h (hh.imp (fun e => by exact_mod_cast e.symm) (fun e => by exact_mod_cast e.symm)))]

theorem totalT_apply (h : FVec Ideal S1024x50048 .f32) (b : Fin 1024) :
    totalT h (ix2 b 0) = ∑ v : Fin 50048, h (ix2 b v) := by
  unfold totalT
  refine (broadcastInDim_apply _ _ _ (ix2 b (0 : Fin 1)) (ix1 b) fun a => by match a with | ⟨0, _⟩ => rfl).trans ?_
  have hr : S1024x50048.Reduces [1] S1024 := by decide
  rw [hostReduceAdd_apply, Ideal.hostReduceAdd_single reducesTo_S1024x50048_S1024_d1 hr, constant_apply, Ideal.ofBits_zero_f32, zero_add]
  exact Finset.sum_congr rfl fun k _ => congrArg h (funext fun a => Fin.ext (by match a with | ⟨0, _⟩ => rfl | ⟨1, _⟩ => rfl))

end Histo

section Chain0
variable (W : Valuation τ sig (Elt Ideal))

set_option maxHeartbeats 4000000 in
theorem s0_v26 : (StableHlo.after hostOps0 W (Proc.devRef .tc main_v26) : S1024x50048.Idx → EReal)
    = histoT (W main_arg0 : IVec S1024x512 32) := by
  after_results <;> rfl

theorem s0_v28 : (StableHlo.after hostOps0 W (Proc.devRef .tc main_v28) : S1024x1.Idx → EReal)
    = totalT (StableHlo.after hostOps0 W (Proc.devRef .tc main_v26) : FVec Ideal S1024x50048 .f32) := by
  unfold totalT
  after_results_simp

end Chain0

theorem v26_eq : (Gen.V5 m c main_v26 : S1024x50048.Idx → EReal)
    = histoT (m ((c.tc : Thread nD τ).loc main_arg0) : IVec S1024x512 32) :=
  (V5_of m c main_v26 (by decide)).trans <| (V4_of m c main_v26 (by decide)).trans <| (V3_of m c main_v26 (by decide)).trans <|
    (V2_of m c main_v26 (by decide)).trans (s0_v26 (V0 m c))

theorem v28_eq : (Gen.V5 m c main_v28 : S1024x1.Idx → EReal)
    = totalT (histoT (m ((c.tc : Thread nD τ).loc main_arg0) : IVec S1024x512 32)) :=
  (V5_of m c main_v28 (by decide)).trans <| (V4_of m c main_v28 (by decide)).trans <| (V3_of m c main_v28 (by decide)).trans <|
    (V2_of m c main_v28 (by decide)).trans ((s0_v28 (V0 m c)).trans (congrArg totalT (s0_v26 (V0 m c))))

theorem v26_apply (hids : Spec.IdsOk (cur2 (m ((c.tc : Thread nD τ).loc main_arg0) : S1024x512.Idx → BitVec 32)))
    (b : Fin 1024) (v : Fin 50048) :
    (Gen.V5 m c main_v26 : S1024x50048.Idx → EReal) (ix2 b v)
      = Spec.histo 50048 (cur2 (m ((c.tc : Thread nD τ).loc main_arg0) : S1024x512.Idx → BitVec 32)) b v := by
  rw [v26_eq]
  exact histoT_apply _ (fun b s => hids b s) b v

theorem v28_apply (hids : Spec.IdsOk (cur2 (m ((c.tc : Thread nD τ).loc main_arg0) : S1024x512.Idx → BitVec 32)))
    (b : Fin 1024) :
    (Gen.V5 m c main_v28 : S1024x1.Idx → EReal) (ix2 b 0)
      = Spec.total 50048 (cur2 (m ((c.tc : Thread nD τ).loc main_arg0) : S1024x512.Idx → BitVec 32)) b := by
  refine (congrFun (v28_eq m c) (ix2 b 0)).trans ((totalT_apply _ b).trans ?_)
  unfold Spec.total
  exact Finset.sum_congr rfl fun v _ => histoT_apply _ (fun b s => hids b s) b v

def padVal : FVec Ideal S_ .f32 := sitofp .f32 (constantI S_ 32 0#32 : IVec S_ 32)

def padT (rho : FVec Ideal S50000x300 .f32) (z : FVec Ideal S_ .f32) : FVec Ideal S50048x300 .f32 :=
  pad S50048x300 ![0, 0] ![48, 0] ![0, 0] rho z pads_S50000x300_S50048x300_0480_000 h_S_

theorem padVal_apply (i : S_.Idx) : padVal i = 0 := sitofp_zero

/-- Below row 50000 the table's row, from there on the padding value, which is zero. -/
theorem padT_rho (rho : FVec Ideal S50000x300 .f32) (v : Fin 50048) (e : Fin 300) :
    padT rho padVal (ix2 v e) = Spec.rhoPad (cur2 rho) v e := by
  unfold padT Spec.rhoPad
  by_cases h : v.val < 50000
  · rw [dif_pos h]
    refine pad_apply_of_inside _ _ _ rho _ _ h_S_ (ix2 v e) (ix2 ⟨v.val, h⟩ e) fun a => ?_
    match a with
    | ⟨0, _⟩ => show v.val = 0 + v.val * (0 + 1); omega
    | ⟨1, _⟩ => show e.val = 0 + e.val * (0 + 1); omega
  · rw [dif_neg h]
    refine (pad_apply_of_not_inside _ _ _ rho _ _ h_S_ (ix2 v e) (0 : Fin 2) ?_).trans (padVal_apply _)
    show ¬(0 ≤ v.val ∧ (v.val - 0) % (0 + 1) = 0 ∧ (v.val - 0) / (0 + 1) < 50000)
    omega

theorem v30_eq : (Gen.V5 m c main_v30 : S50048x300.Idx → EReal)
    = (truncf .bf16 (padT (m ((c.tc : Thread nD τ).loc main_arg1) : FVec Ideal S50000x300 .f32) padVal) bitsLt_bf16_f32 : FVec Ideal S50048x300 .bf16) := by
  show StableHlo.after hostOps0_4 (V4 m c) (Proc.devRef .tc main_v30) = _
  after_results <;> rfl

theorem v30_apply (v : Fin 50048) (e : Fin 300) :
    (Gen.V5 m c main_v30 : S50048x300.Idx → EReal) (ix2 v e)
      = Spec.rhoPad (cur2 (m ((c.tc : Thread nD τ).loc main_arg1) : S50000x300.Idx → EReal)) v e := by
  rw [v30_eq]
  exact padT_rho _ v e

section Beta
open Idealize.ShloMosaic.StableHlo.Predicate

def maskRow : IVec S1x50048 1 :=
  broadcastInDim S1x50048 ![1] bcast_S50048_S1x50048_1
    (cmpi .slt (iotaInDim S50048 32 0) (broadcastInDim S50048 ![] bcast_S_S50048 (constantI S_ 32 50000#32)))

def maskedT (mk : IVec S1x50048 1) (d : FVec Ideal S50x50048 .f32) (bot : FVec Ideal S_ .f32) : FVec Ideal S50x50048 .f32 :=
  select (broadcastInDim S50x50048 ![0, 1] bcast_S1x50048_S50x50048_0_1 mk) d (broadcastInDim S50x50048 ![] bcast_S_S50x50048 bot)

def dotT (alpha : FVec Ideal S50x300 .f32) (tab : FVec Ideal S50048x300 .f32) : FVec Ideal S50x50048 .f32 :=
  Host.dotGeneral dot_S50x300_S50048x300_S50x50048_1_1_0_0_n_n none alpha tab

def rowMax (l : FVec Ideal S50x50048 .f32) : FVec Ideal S50 .f32 :=
  maximumf (broadcastInDim S50 ![] bcast_S_S50 (constant S_ .f32 0xFF800000#32))
    (Host.reduce FloatOps.maximumf l (constant S_ .f32 0xFF800000#32) reducesTo_S50x50048_S50_d1 h_S_)

def expT (l : FVec Ideal S50x50048 .f32) : FVec Ideal S50x50048 .f32 :=
  Host.exp (subf l (broadcastInDim S50x50048 ![0, 1] bcast_S50x1_S50x50048_0_1 (broadcastInDim S50x1 ![0] bcast_S50_S50x1_0 (rowMax l))))

def smaxT (l : FVec Ideal S50x50048 .f32) : FVec Ideal S50x50048 .f32 :=
  Host.divf (expT l) (broadcastInDim S50x50048 ![0, 1] bcast_S50x1_S50x50048_0_1 (broadcastInDim S50x1 ![0] bcast_S50_S50x1_0
    (Host.reduceAdd (expT l) (constant S_ .f32 0x00000000#32) reducesTo_S50x50048_S50_d1 h_S_)))

def betaT (l : FVec Ideal S50x50048 .f32) : FVec Ideal S50x50048 .bf16 := truncf .bf16 (smaxT l) bitsLt_bf16_f32

theorem betaT_eq (l : FVec Ideal S50x50048 .f32) (i : S50x50048.Idx) : betaT l i = smaxT l i := by
  unfold betaT; exact truncf_apply _ _ i

theorem maskRow_apply (v : Fin 50048) : maskRow (ix2 0 v) = if v.val < 50000 then 1#1 else 0#1 := by
  unfold maskRow
  refine (broadcastInDim_apply _ _ _ (ix2 (0 : Fin 1) v) (ix1 v) fun a => ?_).trans ?_
  · match a with | ⟨0, _⟩ => rfl
  · show IntOp.cmpi .slt (BitVec.ofNat 32 v.val) (BitVec.ofNat 32 50000) = _
    have hv := v.isLt
    have key : IntOp.cmpi .slt (BitVec.ofNat 32 v.val) (BitVec.ofNat 32 50000) = 1#1 ↔ v.val < 50000 := by
      unfold IntOp.cmpi; exact slt_ofNat_iff v.val 50000 (by omega) (by omega)
    by_cases h : v.val < 50000
    · rw [if_pos h]; exact key.mpr h
    · rw [if_neg h]; exact eq_zero_of_ne_one fun e => h (key.mp e)

theorem maskedT_apply (mk : IVec S1x50048 1) (d : FVec Ideal S50x50048 .f32) (bot : FVec Ideal S_ .f32) (t : Fin 50) (v : Fin 50048) :
    maskedT mk d bot (ix2 t v) = Scalar.select (mk (ix2 0 v)) (d (ix2 t v)) (bot ix0) := by
  unfold maskedT
  rw [select_apply]
  have e1 : broadcastInDim S50x50048 ![0, 1] bcast_S1x50048_S50x50048_0_1 mk (ix2 t v) = mk (ix2 0 v) :=
    broadcastInDim_apply _ _ _ (ix2 t v) (ix2 (0 : Fin 1) v) fun a => by
      match a with | ⟨0, _⟩ => rfl | ⟨1, _⟩ => rfl
  have e2 : broadcastInDim S50x50048 ![] bcast_S_S50x50048 bot (ix2 t v) = bot ix0 :=
    broadcastInDim_scalar_apply _ _ _
  rw [e1, e2]

theorem dotT_apply (alpha : FVec Ideal S50x300 .f32) (tab : FVec Ideal S50048x300 .f32) (t : Fin 50) (v : Fin 50048) :
    dotT alpha tab (ix2 t v) = ∑ e : Fin 300, alpha (ix2 t e) * tab (ix2 v e) := by
  unfold dotT
  refine (Ideal.dotGeneral_apply dot_S50x300_S50048x300_S50x50048_1_1_0_0_n_n none .single alpha tab (ix2 t v)).trans ?_
  refine Fintype.sum_equiv (contrEquiv1 dot_S50x300_S50048x300_S50x50048_1_1_0_0_n_n 300 rfl rfl) _ _ fun k => ?_
  have hl : dot_S50x300_S50048x300_S50x50048_1_1_0_0_n_n.lhsIdx (ix2 t v) k
      = ix2 t (contrEquiv1 dot_S50x300_S50048x300_S50x50048_1_1_0_0_n_n 300 rfl rfl k) :=
    funext fun a => Fin.ext (by match a with | ⟨0, _⟩ => rfl | ⟨1, _⟩ => rfl)
  have hr : dot_S50x300_S50048x300_S50x50048_1_1_0_0_n_n.rhsIdx (ix2 t v) k
      = ix2 v (contrEquiv1 dot_S50x300_S50048x300_S50x50048_1_1_0_0_n_n 300 rfl rfl k) :=
    funext fun a => Fin.ext (by match a with | ⟨0, _⟩ => rfl | ⟨1, _⟩ => rfl)
  rw [hl, hr]

theorem bcastCol_apply {α : Type} (x : S50.Idx → α) (t : Fin 50) (v : Fin 50048) :
    broadcastInDim S50x50048 ![0, 1] bcast_S50x1_S50x50048_0_1 (broadcastInDim S50x1 ![0] bcast_S50_S50x1_0 x) (ix2 t v) = x (ix1 t) := by
  refine (broadcastInDim_apply _ _ _ (ix2 t v) (ix2 t (0 : Fin 1)) fun a => ?_).trans
    (broadcastInDim_apply _ _ _ (ix2 t (0 : Fin 1)) (ix1 t) fun a => ?_)
  · match a with | ⟨0, _⟩ => rfl | ⟨1, _⟩ => rfl
  · match a with | ⟨0, _⟩ => rfl

theorem lift_col (h : S50x50048.Reduces [1] S50) (t : Fin 50) (k : Fin (S50x50048.size 1)) :
    h.lift (ix1 t) k = ix2 t (⟨k.val, k.isLt⟩ : Fin 50048) :=
  funext fun a => Fin.ext (by match a with | ⟨0, _⟩ => rfl | ⟨1, _⟩ => rfl)

theorem rowMax_apply (l : FVec Ideal S50x50048 .f32) (t : Fin 50) :
    rowMax l (ix1 t) = max Spec.negInf ((Finset.univ : Finset (Fin 50048)).fold max Spec.negInf fun v => l (ix2 t v)) := by
  unfold rowMax
  rw [maximumf_apply]
  have h : S50x50048.Reduces [1] S50 := by decide
  rw [Host.reduce_eq_fold_single FloatOps.maximumf l _ reducesTo_S50x50048_S50_d1 h h_S_]
  have hl : (l ∘ h.lift (ix1 t)) = fun v : Fin 50048 => l (ix2 t v) := funext fun k => congrArg l (lift_col h t k)
  rw [hl]
  rfl

theorem expT_apply (l : FVec Ideal S50x50048 .f32) (t : Fin 50) (v : Fin 50048) :
    expT l (ix2 t v) = Ideal.exp (l (ix2 t v) - rowMax l (ix1 t)) := by
  unfold expT
  rw [hostExp_apply, subf_apply, bcastCol_apply]

theorem smaxT_apply (l : FVec Ideal S50x50048 .f32) (t : Fin 50) (v : Fin 50048) :
    smaxT l (ix2 t v) = Ideal.div (expT l (ix2 t v)) (∑ v' : Fin 50048, expT l (ix2 t v')) := by
  unfold smaxT
  rw [hostDivf_apply, bcastCol_apply, hostReduceAdd_apply]
  have h : S50x50048.Reduces [1] S50 := by decide
  rw [Ideal.hostReduceAdd_single reducesTo_S50x50048_S50_d1 h, constant_apply, Ideal.ofBits_zero_f32, zero_add]
  exact congrArg _ (Finset.sum_congr rfl fun k _ => congrArg (expT l) (lift_col h t k))

/-- Maximum, exponentials and normaliser are each read at an index; the narrower float format keeps the values. -/
theorem betaT_apply (l : FVec Ideal S50x50048 .f32) (L : Fin 50048 → EReal) (t : Fin 50) (hL : ∀ v, l (ix2 t v) = L v) (v : Fin 50048) :
    betaT l (ix2 t v) = Spec.smax L v := by
  rw [betaT_eq]
  unfold Spec.smax
  have hm : rowMax l (ix1 t) = max Spec.negInf ((Finset.univ : Finset (Fin 50048)).fold max Spec.negInf L) := by
    rw [rowMax_apply, show (fun v => l (ix2 t v)) = L from funext hL]
  have he : ∀ v', expT l (ix2 t v') = Ideal.exp (L v' - max Spec.negInf ((Finset.univ : Finset (Fin 50048)).fold max Spec.negInf L)) :=
    fun v' => by rw [expT_apply, hm, hL]
  rw [smaxT_apply, he v, Finset.sum_congr rfl fun v' _ => he v']

end Beta

section Chain
variable (W : Valuation τ sig (Elt Ideal))

theorem s4_v48 : (StableHlo.after hostOps0_4 W (Proc.devRef .tc main_v48) : S50x50048.Idx → EReal)
    = betaT (W main_v36 : FVec Ideal S50x50048 .f32) := by
  after_results_simp <;> rfl

theorem s3_v36 : (StableHlo.after hostOps0_3 W (Proc.devRef .tc main_v36) : S50x50048.Idx → EReal)
    = maskedT (W main_v34 : IVec S1x50048 1) (W main_v35 : FVec Ideal S50x50048 .f32) (W main_cst_11 : FVec Ideal S_ .f32) := by
  after_results <;> rfl

theorem s2_v35 : (StableHlo.after hostOps0_2 W (Proc.devRef .tc main_v35) : S50x50048.Idx → EReal)
    = dotT (W main_arg2 : FVec Ideal S50x300 .f32) (W main_v29 : FVec Ideal S50048x300 .f32) := by
  after_results <;> rfl

theorem s2_v34 : (StableHlo.after hostOps0_2 W (Proc.devRef .tc main_v34) : S1x50048.Idx → BitVec 1) = maskRow := by
  after_results <;> rfl

theorem s2_cst11 : (StableHlo.after hostOps0_2 W (Proc.devRef .tc main_cst_11) : S_.Idx → EReal)
    = (constant S_ .f32 0xFF800000#32 : FVec Ideal S_ .f32) := by
  after_results <;> rfl

end Chain

theorem v29_eq : (Gen.V2 m c main_v29 : S50048x300.Idx → EReal)
    = padT (m ((c.tc : Thread nD τ).loc main_arg1) : FVec Ideal S50000x300 .f32) padVal := by
  show StableHlo.after hostOps0_1 (V1 m c) (Proc.devRef .tc main_v29) = _
  after_results <;> rfl

theorem v48_eq : (Gen.V5 m c main_v48 : S50x50048.Idx → EReal)
    = betaT (maskedT maskRow
        (dotT (m ((c.tc : Thread nD τ).loc main_arg2) : FVec Ideal S50x300 .f32)
          (padT (m ((c.tc : Thread nD τ).loc main_arg1) : FVec Ideal S50000x300 .f32) padVal))
        (constant S_ .f32 0xFF800000#32 : FVec Ideal S_ .f32)) := by
  have ea : (Gen.V2 m c main_arg2 : S50x300.Idx → EReal) = m ((c.tc : Thread nD τ).loc main_arg2) :=
    (V2_of m c main_arg2 (by decide)).trans (V1_of m c main_arg2 (by decide))
  refine (s4_v48 (V4 m c)).trans (congrArg betaT ?_)
  refine (s3_v36 (V3 m c)).trans ?_
  refine (congr (congr (congrArg maskedT (s2_v34 (V2 m c))) (s2_v35 (V2 m c))) (s2_cst11 (V2 m c))).trans ?_
  exact congrArg (fun d => maskedT maskRow d (constant S_ .f32 0xFF800000#32 : FVec Ideal S_ .f32))
    (congr (congrArg dotT ea) (v29_eq m c))

/-- A masked logit is the inner product on a real column and the bottom element on a padding column. -/
theorem v48_apply (t : Fin 50) (v : Fin 50048) :
    (Gen.V5 m c main_v48 : S50x50048.Idx → EReal) (ix2 t v)
      = Spec.betaK (cur2 (m ((c.tc : Thread nD τ).loc main_arg2) : S50x300.Idx → EReal))
          (cur2 (m ((c.tc : Thread nD τ).loc main_arg1) : S50000x300.Idx → EReal)) t v := by
  rw [v48_eq]
  refine betaT_apply _ _ t (fun v' => ?_) v
  rw [maskedT_apply, maskRow_apply, dotT_apply]
  unfold Spec.logitK
  by_cases h : v'.val < 50000
  · rw [if_pos h, if_pos h, select_one]
    exact Finset.sum_congr rfl fun e _ => congrArg _ (padT_rho _ v' e)
  · rw [if_neg h, if_neg h, select_zero]
    rfl

theorem v52_apply (e : Fin 300) (n : Fin 800) :
    (Gen.V5 m c main_v52 : S300x800.Idx → EReal) (ix2 e n)
      = cur2 (m ((c.tc : Thread nD τ).loc main_arg3) : S300x800.Idx → EReal) e n := by
  show (StableHlo.after hostOps0_4 (V4 m c) (Proc.devRef .tc main_v52) : S300x800.Idx → EReal) (ix2 e n) = _
  after_results <;> rfl

theorem v53_apply (n : Fin 800) (t : Fin 50) :
    (Gen.V5 m c main_v53 : S800x50.Idx → EReal) (ix2 n t)
      = cur2 (m ((c.tc : Thread nD τ).loc main_arg5) : S800x50.Idx → EReal) n t := by
  show (StableHlo.after hostOps0_4 (V4 m c) (Proc.devRef .tc main_v53) : S800x50.Idx → EReal) (ix2 n t) = _
  after_results <;> rfl

theorem v54_apply (n : Fin 800) (t : Fin 50) :
    (Gen.V5 m c main_v54 : S800x50.Idx → EReal) (ix2 n t)
      = cur2 (m ((c.tc : Thread nD τ).loc main_arg7) : S800x50.Idx → EReal) n t := by
  show (StableHlo.after hostOps0_4 (V4 m c) (Proc.devRef .tc main_v54) : S800x50.Idx → EReal) (ix2 n t) = _
  after_results <;> rfl

theorem v49_apply (n : Fin 800) :
    (Gen.V5 m c main_v49 : S1x800.Idx → EReal) (ix2 0 n)
      = cur1 (m ((c.tc : Thread nD τ).loc main_arg4) : S800.Idx → EReal) n := by
  show (StableHlo.after hostOps0_4 (V4 m c) (Proc.devRef .tc main_v49) : S1x800.Idx → EReal) (ix2 0 n) = _
  after_results <;> exact shapeCast_a_1a_apply _ _ 0 n

theorem v50_apply (t : Fin 50) :
    (Gen.V5 m c main_v50 : S1x50.Idx → EReal) (ix2 0 t)
      = cur1 (m ((c.tc : Thread nD τ).loc main_arg6) : S50.Idx → EReal) t := by
  show (StableHlo.after hostOps0_4 (V4 m c) (Proc.devRef .tc main_v50) : S1x50.Idx → EReal) (ix2 0 t) = _
  after_results <;> exact shapeCast_a_1a_apply _ _ 0 t

theorem v51_apply (t : Fin 50) :
    (Gen.V5 m c main_v51 : S1x50.Idx → EReal) (ix2 0 t)
      = cur1 (m ((c.tc : Thread nD τ).loc main_arg8) : S50.Idx → EReal) t := by
  show (StableHlo.after hostOps0_4 (V4 m c) (Proc.devRef .tc main_v51) : S1x50.Idx → EReal) (ix2 0 t) = _
  after_results <;> exact shapeCast_a_1a_apply _ _ 0 t

end Cert.KernelIdeal.KHost

end
-- ==== Proof.EncPieces.lean ====
import proofs.«427360_j50826642981279_1_alg».proof.Proof.EncFrame
import Idealize.ShloMosaic.Lib.Pipeline.Value

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zero2 : (![0, 0] : Fin 2 → Nat) = fun _ => 0 := funext fun a => by fin_cases a <;> rfl

/-- A load through a rank-2 shape's whole rectangle reads the contents. -/
theorem ld_zero2 {sz : Fin 2 → ℕ} {e : EltTy} (inb : ∀ a, (![0, 0] : Fin 2 → ℕ) a + sz a ≤ sz a) (X : (Shape.mk 2 sz).Idx → Elt F e) :
    View.ld X (Rect.unit ![0, 0] sz inb) = X := View.ld_unit_zero (S := ⟨2, sz⟩) zero2 inb X

theorem acc_read_unread (xs : Vec F S512x300 .f32) :
    View.read (Elt F) (View.whole cc0_scratch0) ((Memref.isWhole_whole (sig := sig) cc0_scratch0).unread xs) = xs :=
  (Memref.isWhole_whole (sig := sig) cc0_scratch0).read_unread xs

/-- Inner point: the accumulator's new value is the old one plus the point's partial product. -/
theorem accMid_eq (c : Dev nD) (t : Fin cfg0.N) (h0 : ¬t.val % 17 = 0) (h1 : ¬t.val % 17 = 16) (xs : Vec F S512x300 .f32) :
    accMid V c t h0 h1 xs = k0_pay2 (blk0 V c 0 t) (blk0 V c 1 t) xs (blk0 V c 2 t) := by
  unfold accMid
  rw [View.read_writes_eq_canon _ _ _ (View.cover_of_tiledL (midAt V c t h0 h1 xs).1 S512x300.size (by sl_kernel_rfl))]
  unfold midAt runMid
  dsimp only
  rw [View.canon_unit_zero zero2]
  simp only [View.readAt_eq_ld, Memref.IsWhole.read_unread, ld_zero2]
  rw [acc_read_unread]

/-- First point: the same with zero for the old value. -/
theorem accFirst_eq (c : Dev nD) (t : Fin cfg0.N) (h0 : t.val % 17 = 0) :
    accFirst V c t h0 = k0_pay2 (blk0 V c 0 t) (blk0 V c 1 t) (k0_pay1 (F := F)) (blk0 V c 2 t) := by
  unfold accFirst
  rw [View.read_writes_eq_canon _ _ _ (View.cover_of_tiledL (firstAt V c t h0).1 S512x300.size (by sl_kernel_rfl))]
  unfold firstAt runFirst
  dsimp only
  sl_unfold_words
  rw [View.canon_cons_unit_zero (S := S512x300) zero2, View.readCov_unit_zero (S := S512x300) _ zero2]
  simp only [View.readAt_eq_ld, Memref.IsWhole.read_unread, ld_zero2]

/-- Last point: the accumulator moves as at an inner point. -/
theorem accLast_eq (c : Dev nD) (t : Fin cfg0.N) (h1 : t.val % 17 = 16) (xs : Vec F S512x300 .f32) :
    accLast V c t h1 xs = k0_pay2 (blk0 V c 0 t) (blk0 V c 1 t) xs (blk0 V c 2 t) := by
  unfold accLast
  rw [View.read_writes_eq_canon _ _ _ (View.cover_of_tiledL (lastAt V c t h1 xs).2.2.1 S512x300.size (by sl_kernel_rfl))]
  unfold lastAt runLast
  dsimp only
  sl_unfold_words
  rw [View.canon_unit_zero zero2]
  simp only [View.readAt_eq_ld, Memref.IsWhole.read_unread, ld_zero2]
  rw [acc_read_unread]

/-- Last point, first output: the softmax payload of the finished sum pushed through the dense layers. -/
theorem thetaLast_eq (c : Dev nD) (t : Fin cfg0.N) (h1 : t.val % 17 = 16) (xs : Vec F S512x300 .f32) :
    thetaLast V c t h1 xs
      = k0_pay3 (k0_pay5 (k0_pay2 (blk0 V c 0 t) (blk0 V c 1 t) xs (blk0 V c 2 t)) (blk0 V c 3 t) (blk0 V c 4 t) (blk0 V c 5 t) (blk0 V c 6 t))
          (k0_pay7 (k0_pay2 (blk0 V c 0 t) (blk0 V c 1 t) xs (blk0 V c 2 t)) (blk0 V c 3 t) (blk0 V c 4 t) (blk0 V c 5 t) (blk0 V c 6 t))
          (Scalar.ofBits .f32 0xFF800000#32) := by
  unfold thetaLast
  rw [View.read_writes_eq_canon _ _ _ (View.cover_of_tiledL (lastAt V c t h1 xs).1 S512x50.size (by sl_kernel_rfl))]
  unfold lastAt runLast
  dsimp only
  sl_unfold_words
  rw [View.canon_unit_zero zero2, View.readCov_unit_zero (S := S512x300) _ zero2]
  simp only [View.readAt_eq_ld, Memref.IsWhole.read_unread, ld_zero2]
  rw [acc_read_unread]

/-- Last point, second output: the divergence payload of the same. -/
theorem klLast_eq (c : Dev nD) (t : Fin cfg0.N) (h1 : t.val % 17 = 16) (xs : Vec F S512x300 .f32) :
    klLast V c t h1 xs
      = k0_pay6 (k0_pay2 (blk0 V c 0 t) (blk0 V c 1 t) xs (blk0 V c 2 t)) (blk0 V c 3 t) (blk0 V c 4 t) (blk0 V c 5 t) (blk0 V c 6 t) (blk0 V c 7 t) (blk0 V c 8 t) := by
  unfold klLast
  rw [View.read_writes_eq_canon _ _ _ (View.cover_of_tiledL (lastAt V c t h1 xs).2.1 S512x1.size (by sl_kernel_rfl))]
  unfold lastAt runLast
  dsimp only
  sl_unfold_words
  rw [View.canon_unit_zero zero2, View.readCov_unit_zero (S := S512x300) _ zero2]
  simp only [View.readAt_eq_ld, Memref.IsWhole.read_unread, ld_zero2]
  rw [acc_read_unread]

end Cert.KernelIdeal.Enc

end
-- ==== Proof.EncPayValue.lean ====
import proofs.«427360_j50826642981279_1_alg».proof.Proof.Gen.KernelIdeal.Skeleton
import proofs.«427360_j50826642981279_1_alg».proof.Proof.Spec
import Idealize.ShloMosaic.Lib.StackMember
import Idealize.ShloMosaic.Lib.ValueLayout

noncomputable section

namespace Cert.KernelIdeal.EncPayValue

open Cert.KernelIdeal Cert.KernelIdeal.Gen
open Idealize.ShloMosaic Idealize.ShloMosaic.ValueIdx
open Cert.Spec (cur2)
open scoped BigOperators

section Layout
variable {α : Type}

/-- Row-major, entry `(i, 0)` of an `[a, 1]` column sits at position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

/-- A column broadcast along the lanes reads its own row's entry. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split <;> omega
  | ⟨1, _⟩ => rfl

end Layout

/-- Into the zero block a plain matrix product is, at `(p, e)`, the sum over the contracted coordinate of the products. -/
theorem matmul_apply {M K N : ℕ} {φ₁ φ₂ : FTy} (lhs : FVec Ideal ⟨2, ![M, K]⟩ φ₁) (rhs : FVec Ideal ⟨2, ![K, N]⟩ φ₂)
    (p : Fin M) (e : Fin N) :
    matmul (DotDims.plain M K N) none lhs rhs (constant (F := Ideal) ⟨2, ![M, N]⟩ .f32 0x00000000#32) (ix2 p e)
      = ∑ k : Fin K, lhs (ix2 p k) * rhs (ix2 k e) :=
  (congrFun (matmul_zero_eq_dotGeneral _ none lhs rhs) _).trans (StackMember.dotGeneral_plain_apply none lhs rhs p e)

theorem lanesum_apply (src : FVec Ideal S512x50 .f32) (p : Fin 512) :
    multiReduction (F := Ideal) .add [1] S512 src 0x00000000#32 reduces_S512x50_S512 (.inl rfl) rfl (ix1 p)
      = ∑ t : Fin 50, src (ix2 p t) :=
  (Ideal.multiReduction_add_single src 0x00000000#32 reduces_S512x50_S512 (.inl rfl) rfl (ix1 p)).trans
    (Finset.sum_congr rfl fun t _ => congrArg src (Shape.idx_ext₂ rfl rfl))

theorem lanemax_apply (src : FVec Ideal S512x50 .f32) (p : Fin 512) :
    multiReduction (F := Ideal) .maximumf [1] S512 src 0xFF800000#32 reduces_S512x50_S512 (.inl rfl) rfl (ix1 p)
      = (Finset.univ : Finset (Fin 50)).fold max Cert.Spec.negInf (fun t => src (ix2 p t)) :=
  (Ideal.multiReduction_maximumf_single src 0xFF800000#32 reduces_S512x50_S512 (.inl rfl) rfl (ix1 p)).trans
    (congrArg ((Finset.univ : Finset (Fin 50)).fold max Cert.Spec.negInf)
      (funext fun t => congrArg src (Shape.idx_ext₂ rfl rfl)))

theorem pay1_apply (p : Fin 512) (e : Fin 300) : k0_pay1 (F := Ideal) (ix2 p e) = 0 := by
  unfold k0_pay1
  rw [shapeCast_self]
  exact Ideal.ofBits_zero_f32

/-- One accumulation step: the old accumulator plus the tile's normalised counts times the tile's table rows. -/
theorem pay2_apply (v3 : Vec Ideal S512x2944 .f32) (v5 : Vec Ideal S512x1 .f32) (v10 : Vec Ideal S512x300 .f32)
    (v11 : Vec Ideal S2944x300 .bf16) (p : Fin 512) (e : Fin 300) :
    k0_pay2 (F := Ideal) v3 v5 v10 v11 (ix2 p e)
      = v10 (ix2 p e) + ∑ k : Fin 2944, Ideal.div (v3 (ix2 p k)) (v5 (ix2 p 0)) * v11 (ix2 k e) := by
  unfold k0_pay2
  simp only [shapeCast_self]
  refine congrArg (v10 (ix2 p e) + ·) ((matmul_apply (φ₁ := .bf16) (φ₂ := .bf16) _ _ p e).trans ?_)
  exact Finset.sum_congr rfl fun k _ =>
    congrArg (fun z => Ideal.div (v3 (ix2 p k)) z * v11 (ix2 k e)) (broadcastTo_a1_ab_apply v5 _ p k)

theorem pay4_apply (v21 : Vec Ideal S512x300 .f32) (v23 : Vec Ideal S300x800 .bf16) (v26 : Vec Ideal S1x800 .f32)
    (p : Fin 512) (n : Fin 800) :
    k0_pay4 (F := Ideal) v21 v23 v26 (ix2 p n)
      = Cert.Spec.hid (cur2 v23) (fun n => v26 (ix2 0 n)) (fun e => v21 (ix2 p e)) n := by
  unfold k0_pay4 Cert.Spec.hid
  simp only [shapeCast_self]
  exact congrArg₂ max (congrArg₂ (· + ·) (matmul_apply (φ₁ := .bf16) (φ₂ := .bf16) _ _ p n)
    (broadcastTo_1b_ab_apply v26 _ p n)) Ideal.ofBits_zero_f32

theorem pay5_apply (v21 : Vec Ideal S512x300 .f32) (v23 : Vec Ideal S300x800 .bf16) (v26 : Vec Ideal S1x800 .f32)
    (v33 : Vec Ideal S800x50 .bf16) (v36 : Vec Ideal S1x50 .f32) (p : Fin 512) (t : Fin 50) :
    k0_pay5 (F := Ideal) v21 v23 v26 v33 v36 (ix2 p t)
      = Cert.Spec.muOf (cur2 v23) (fun n => v26 (ix2 0 n)) (cur2 v33) (fun t => v36 (ix2 0 t))
          (fun e => v21 (ix2 p e)) t := by
  unfold k0_pay5 Cert.Spec.muOf
  simp only [shapeCast_self]
  refine congrArg₂ (· + ·) ((matmul_apply (φ₁ := .bf16) (φ₂ := .bf16) _ _ p t).trans ?_) (broadcastTo_1b_ab_apply v36 _ p t)
  exact Finset.sum_congr rfl fun n _ => congrArg (· * v33 (ix2 n t)) (pay4_apply v21 v23 v26 p n)

/-- The divergence term of row `p`; the log-variance head is the mean head's expression at the other weights and bias. -/
theorem pay6_apply (v21 : Vec Ideal S512x300 .f32) (v23 : Vec Ideal S300x800 .bf16) (v26 : Vec Ideal S1x800 .f32)
    (v33 : Vec Ideal S800x50 .bf16) (v36 : Vec Ideal S1x50 .f32) (v40 : Vec Ideal S800x50 .bf16)
    (v43 : Vec Ideal S1x50 .f32) (p : Fin 512) :
    k0_pay6 (F := Ideal) v21 v23 v26 v33 v36 v40 v43 (ix2 p 0)
      = Cert.Spec.klOf (cur2 v23) (fun n => v26 (ix2 0 n)) (cur2 v33) (fun t => v36 (ix2 0 t))
          (cur2 v40) (fun t => v43 (ix2 0 t)) (fun e => v21 (ix2 p e)) := by
  unfold Cert.Spec.klOf
  refine congrArg (Cert.Spec.negHalf * ·) (((shapeCast_a_a1_apply _ _ p 0).trans (lanesum_apply _ p)).trans ?_)
  refine Finset.sum_congr rfl fun t _ => ?_
  show ((Cert.Spec.one + k0_pay5 (F := Ideal) v21 v23 v26 v40 v43 (ix2 p t))
      - k0_pay5 (F := Ideal) v21 v23 v26 v33 v36 (ix2 p t) * k0_pay5 (F := Ideal) v21 v23 v26 v33 v36 (ix2 p t))
      - Ideal.exp (k0_pay5 (F := Ideal) v21 v23 v26 v40 v43 (ix2 p t)) = _
  rw [pay5_apply, pay5_apply]
  rfl

/-- The softmax over any block of means: the exponential of the entry less the row's shift, over the row's sum of those. -/
theorem pay3_apply_gen (v39 : FVec Ideal S512x50 .f32) (v57 : FVec Ideal S512 .f32) (cst : Ideal .f32)
    (p : Fin 512) (t : Fin 50) :
    k0_pay3 (F := Ideal) v39 v57 cst (ix2 p t)
      = Ideal.div (Ideal.exp (v39 (ix2 p t) - max cst (v57 (ix1 p))))
          (∑ t' : Fin 50, Ideal.exp (v39 (ix2 p t') - max cst (v57 (ix1 p)))) := by
  unfold k0_pay3
  have hexp : ∀ t' : Fin 50,
      exp (subf v39 (broadcastTo S512x50 (shapeCast S512x1 (maximumf (broadcast S512 cst) v57) shapeCasts_S512_S512x1)
        broadcasts_S512x1_S512x50)) (ix2 p t') = Ideal.exp (v39 (ix2 p t') - max cst (v57 (ix1 p))) := fun t' =>
    congrArg (fun z => Ideal.exp (v39 (ix2 p t') - z))
      ((broadcastTo_a1_ab_apply _ _ p t').trans (shapeCast_a_a1_apply _ _ p 0))
  refine congrArg₂ Ideal.div (hexp t) ?_
  refine (((broadcastTo_a1_ab_apply _ _ p t).trans (shapeCast_a_a1_apply _ _ p 0)).trans (lanesum_apply _ p)).trans ?_
  exact Finset.sum_congr rfl fun t' _ => hexp t'

theorem pay7_apply (v21 : Vec Ideal S512x300 .f32) (v23 : Vec Ideal S300x800 .bf16) (v26 : Vec Ideal S1x800 .f32)
    (v33 : Vec Ideal S800x50 .bf16) (v36 : Vec Ideal S1x50 .f32) (p : Fin 512) :
    k0_pay7 (F := Ideal) v21 v23 v26 v33 v36 (ix1 p)
      = (Finset.univ : Finset (Fin 50)).fold max Cert.Spec.negInf
          (Cert.Spec.muOf (cur2 v23) (fun n => v26 (ix2 0 n)) (cur2 v33) (fun t => v36 (ix2 0 t))
            (fun e => v21 (ix2 p e))) := by
  unfold k0_pay7
  exact (lanemax_apply _ p).trans (congrArg ((Finset.univ : Finset (Fin 50)).fold max Cert.Spec.negInf)
    (funext fun t' => pay5_apply v21 v23 v26 v33 v36 p t'))

/-- The topic proportions of row `p`: the softmax of the row's means. -/
theorem pay3_apply (v21 : Vec Ideal S512x300 .f32) (v23 : Vec Ideal S300x800 .bf16) (v26 : Vec Ideal S1x800 .f32)
    (v33 : Vec Ideal S800x50 .bf16) (v36 : Vec Ideal S1x50 .f32) (p : Fin 512) (t : Fin 50) :
    k0_pay3 (F := Ideal) (k0_pay5 v21 v23 v26 v33 v36) (k0_pay7 v21 v23 v26 v33 v36)
        (Scalar.ofBits .f32 0xFF800000#32) (ix2 p t)
      = Cert.Spec.thetaOf (cur2 v23) (fun n => v26 (ix2 0 n)) (cur2 v33) (fun t => v36 (ix2 0 t))
          (fun e => v21 (ix2 p e)) t := by
  refine (pay3_apply_gen _ _ _ p t).trans ?_
  unfold Cert.Spec.thetaOf Cert.Spec.expOf Cert.Spec.mxOf
  rw [pay7_apply]
  simp only [pay5_apply]
  rfl

end Cert.KernelIdeal.EncPayValue

end
-- ==== Proof.EncValue.lean ====
import proofs.«427360_j50826642981279_1_alg».proof.Proof.EncFrame
import proofs.«427360_j50826642981279_1_alg».proof.Proof.EncPieces
import proofs.«427360_j50826642981279_1_alg».proof.Proof.EncPayValue
import proofs.«427360_j50826642981279_1_alg».proof.Proof.SpecTile

noncomputable section

namespace Cert.KernelIdeal.EncValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Spec (cur2)

variable (V : (c : Dev nD) → (b : Ref sig .tc) → Buf (Elt Ideal) ((c : Thread nD τ).loc b))

/-- A rank-2 array at natural coordinates, zero outside it. -/
def atN {n0 n1 : ℕ} (f : (⟨2, ![n0, n1]⟩ : Shape).Idx → EReal) (r k : ℕ) : EReal :=
  if h : r < n0 ∧ k < n1 then f (ix2 ⟨r, h.1⟩ ⟨k, h.2⟩) else 0
theorem atN_of {n0 n1 : ℕ} (f : (⟨2, ![n0, n1]⟩ : Shape).Idx → EReal) (i : (⟨2, ![n0, n1]⟩ : Shape).Idx) {r k : ℕ}
    (h0 : (i 0).val = r) (h1 : (i 1).val = k) : f i = atN f r k := by
  subst h0 h1
  exact ((dif_pos ⟨(i 0).isLt, (i 1).isLt⟩).trans (congrArg f (eq_ix2 i).symm)).symm

/-- Tile `s`'s addend to row `r` of the encoder input: the row's normalised counts on the tile times the table's rows there. -/
def tileN (c : Dev nD) (r s : ℕ) (e : Fin 300) : EReal :=
  ∑ k : Fin 2944, Ideal.div (atN (V c main_v26 : S1024x50048.Idx → EReal) r (2944 * s + k.val))
    (atN (V c main_v28 : S1024x1.Idx → EReal) r 0) * atN (V c main_v30 : S50048x300.Idx → EReal) (2944 * s + k.val) e.val

/-- The encoder input, its topic proportions and its divergence term, row by row, from the entering arrays. -/
def xIn (c : Dev nD) : Fin 1024 → Fin 300 → EReal :=
  Cert.Spec.xTile (cur2 (V c main_v26 : S1024x50048.Idx → EReal)) (fun b => (V c main_v28 : S1024x1.Idx → EReal) (ix2 b 0))
    (cur2 (V c main_v30 : S50048x300.Idx → EReal))
def thetaR (c : Dev nD) (b : Fin 1024) : Fin 50 → EReal :=
  Cert.Spec.thetaOf (cur2 (V c main_v52 : S300x800.Idx → EReal)) (fun n => (V c main_v49 : S1x800.Idx → EReal) (ix2 0 n))
    (cur2 (V c main_v53 : S800x50.Idx → EReal)) (fun t => (V c main_v50 : S1x50.Idx → EReal) (ix2 0 t)) (xIn V c b)
def klR (c : Dev nD) (b : Fin 1024) : EReal :=
  Cert.Spec.klOf (cur2 (V c main_v52 : S300x800.Idx → EReal)) (fun n => (V c main_v49 : S1x800.Idx → EReal) (ix2 0 n))
    (cur2 (V c main_v53 : S800x50.Idx → EReal)) (fun t => (V c main_v50 : S1x50.Idx → EReal) (ix2 0 t))
    (cur2 (V c main_v54 : S800x50.Idx → EReal)) (fun t => (V c main_v51 : S1x50.Idx → EReal) (ix2 0 t)) (xIn V c b)

theorem sum_tiles (c : Dev nD) (b : Fin 1024) (e : Fin 300) : ∑ s ∈ Finset.range 17, tileN V c b.val s e = xIn V c b e := by
  unfold xIn Cert.Spec.xTile
  rw [← Fin.sum_univ_eq_sum_range (fun s => tileN V c b.val s e) 17]
  refine Finset.sum_congr rfl fun j _ => Finset.sum_congr rfl fun k _ => ?_
  exact congrArg₂ (· * ·) (congrArg₂ Ideal.div (atN_of _ (ix2 b (Cert.Spec.tcol j k)) rfl rfl).symm (atN_of _ (ix2 b 0) rfl rfl).symm)
    (atN_of _ (ix2 (Cert.Spec.tcol j k) e) rfl rfl).symm

theorem index0 : ∀ t : Fin cfg0.N, win0_0.index t 0 = t.val / 17 ∧ win0_0.index t 1 = t.val % 17 := by decide +kernel
theorem index1 : ∀ t : Fin cfg0.N, win0_1.index t 0 = t.val / 17 ∧ win0_1.index t 1 = 0 := by decide +kernel
theorem index2 : ∀ t : Fin cfg0.N, win0_2.index t 0 = t.val % 17 ∧ win0_2.index t 1 = 0 := by decide +kernel
theorem index3 : ∀ (t : Fin cfg0.N) (a : Fin 2), win0_3.index t a = 0 := by decide +kernel
theorem index4 : ∀ (t : Fin cfg0.N) (a : Fin 2), win0_4.index t a = 0 := by decide +kernel
theorem index5 : ∀ (t : Fin cfg0.N) (a : Fin 2), win0_5.index t a = 0 := by decide +kernel
theorem index6 : ∀ (t : Fin cfg0.N) (a : Fin 2), win0_6.index t a = 0 := by decide +kernel
theorem index7 : ∀ (t : Fin cfg0.N) (a : Fin 2), win0_7.index t a = 0 := by decide +kernel
theorem index8 : ∀ (t : Fin cfg0.N) (a : Fin 2), win0_8.index t a = 0 := by decide +kernel
theorem index9 : ∀ t : Fin cfg0.N, win0_9.index t 0 = t.val / 17 ∧ win0_9.index t 1 = 0 := by decide +kernel
theorem index10 : ∀ t : Fin cfg0.N, win0_10.index t 0 = t.val / 17 ∧ win0_10.index t 1 = 0 := by decide +kernel

theorem blk_w1 (c : Dev nD) (t : Fin cfg0.N) : (Enc.blk0 V c 3 t : S300x800.Idx → EReal) = V c main_v52 :=
  funext fun j => congrArg (V c main_v52) (funext fun a => Fin.ext (win0_3.rect_emb_val_of_index_zero t a (index3 t a) j))
theorem blk_b1 (c : Dev nD) (t : Fin cfg0.N) : (Enc.blk0 V c 4 t : S1x800.Idx → EReal) = V c main_v49 :=
  funext fun j => congrArg (V c main_v49) (funext fun a => Fin.ext (win0_4.rect_emb_val_of_index_zero t a (index4 t a) j))
theorem blk_wmu (c : Dev nD) (t : Fin cfg0.N) : (Enc.blk0 V c 5 t : S800x50.Idx → EReal) = V c main_v53 :=
  funext fun j => congrArg (V c main_v53) (funext fun a => Fin.ext (win0_5.rect_emb_val_of_index_zero t a (index5 t a) j))
theorem blk_bmu (c : Dev nD) (t : Fin cfg0.N) : (Enc.blk0 V c 6 t : S1x50.Idx → EReal) = V c main_v50 :=
  funext fun j => congrArg (V c main_v50) (funext fun a => Fin.ext (win0_6.rect_emb_val_of_index_zero t a (index6 t a) j))
theorem blk_wlv (c : Dev nD) (t : Fin cfg0.N) : (Enc.blk0 V c 7 t : S800x50.Idx → EReal) = V c main_v54 :=
  funext fun j => congrArg (V c main_v54) (funext fun a => Fin.ext (win0_7.rect_emb_val_of_index_zero t a (index7 t a) j))
theorem blk_blv (c : Dev nD) (t : Fin cfg0.N) : (Enc.blk0 V c 8 t : S1x50.Idx → EReal) = V c main_v51 :=
  funext fun j => congrArg (V c main_v51) (funext fun a => Fin.ext (win0_8.rect_emb_val_of_index_zero t a (index8 t a) j))

/-- Point `t`'s blocks of the counts, totals and table sit at rows `512 (t / 17) …` and columns `2944 (t % 17) …`. -/
theorem pay2_tile (c : Dev nD) (t : Fin cfg0.N) (p : Fin 512) (e : Fin 300) (X : Vec Ideal S512x300 .f32) :
    (k0_pay2 (F := Ideal) (Enc.blk0 V c 0 t) (Enc.blk0 V c 1 t) X (Enc.blk0 V c 2 t)) (ix2 p e)
      = X (ix2 p e) + tileN V c (512 * (t.val / 17) + p.val) (t.val % 17) e := by
  rw [EncPayValue.pay2_apply]
  unfold tileN
  congr 1
  refine Finset.sum_congr rfl fun k _ => ?_
  obtain ⟨a0, a1⟩ := index0 t
  obtain ⟨b0, b1⟩ := index1 t
  obtain ⟨c0, c1⟩ := index2 t
  refine congrArg₂ (· * ·) (congrArg₂ Ideal.div (atN_of (V c main_v26) _ ?_ ?_) (atN_of (V c main_v28) _ ?_ ?_))
    (atN_of (V c main_v30) _ ?_ ?_)
  · show win0_0.index t 0 * 512 + 1 * p.val = 512 * (t.val / 17) + p.val; omega
  · show win0_0.index t 1 * 2944 + 1 * k.val = 2944 * (t.val % 17) + k.val; omega
  · show win0_1.index t 0 * 512 + 1 * p.val = 512 * (t.val / 17) + p.val; omega
  · show win0_1.index t 1 * 1 + 1 * 0 = 0; omega
  · show win0_2.index t 0 * 2944 + 1 * k.val = 2944 * (t.val % 17) + k.val; omega
  · show win0_2.index t 1 * 300 + 1 * e.val = e.val; omega

theorem acc_at_first (c : Dev nD) (t : Fin cfg0.N) (h0 : t.val % 17 = 0) :
    (Enc.stateAt V c t.val t.isLt).2.2 = Enc.accFirst V c t h0 := by rw [Enc.stateAt_first V c t h0]
theorem acc_at_mid (c : Dev nD) (t : Fin cfg0.N) (h0 : ¬t.val % 17 = 0) (h1 : ¬t.val % 17 = 16) :
    (Enc.stateAt V c t.val t.isLt).2.2 = Enc.accMid V c t h0 h1 (Enc.accBefore V c t) := by rw [Enc.stateAt_mid V c t h0 h1]
theorem acc_at_last (c : Dev nD) (t : Fin cfg0.N) (h1 : t.val % 17 = 16) :
    (Enc.stateAt V c t.val t.isLt).2.2 = Enc.accLast V c t h1 (Enc.accBefore V c t) := by rw [Enc.stateAt_last V c t h1]

/-- One step: after point `t` the accumulator holds what it found (nothing at a row's first point) plus the tile's addend. -/
theorem acc_step (c : Dev nD) (t : Fin cfg0.N) (p : Fin 512) (e : Fin 300) :
    ((Enc.stateAt V c t.val t.isLt).2.2 : S512x300.Idx → EReal) (ix2 p e)
      = (if t.val % 17 = 0 then 0 else (Enc.accBefore V c t : S512x300.Idx → EReal) (ix2 p e))
        + tileN V c (512 * (t.val / 17) + p.val) (t.val % 17) e := by
  by_cases h0 : t.val % 17 = 0
  · rw [if_pos h0, acc_at_first V c t h0, Enc.accFirst_eq, pay2_tile, EncPayValue.pay1_apply]
  · rw [if_neg h0]
    by_cases h1 : t.val % 17 = 16
    · rw [acc_at_last V c t h1, Enc.accLast_eq, pay2_tile]
    · rw [acc_at_mid V c t h0 h1, Enc.accMid_eq, pay2_tile]

/-- After point `17 i + v` the accumulator's row `p` holds the addends of tiles `0 … v` of row `512 i + p`. -/
theorem acc_eq (c : Dev nD) : ∀ (n : ℕ) (hn : n < cfg0.N) (p : Fin 512) (e : Fin 300),
    ((Enc.stateAt V c n hn).2.2 : S512x300.Idx → EReal) (ix2 p e)
      = ∑ s ∈ Finset.range (n % 17 + 1), tileN V c (512 * (n / 17) + p.val) s e := by
  intro n
  induction n with
  | zero =>
    intro hn p e
    have h := acc_step V c ⟨0, hn⟩ p e
    dsimp only at h
    rw [h, if_pos (Nat.zero_mod 17), zero_add, Nat.zero_mod, Nat.zero_add, Finset.sum_range_one]
  | succ n ih =>
    intro hn p e
    have h := acc_step V c ⟨n + 1, hn⟩ p e
    dsimp only at h
    rw [h]
    by_cases h0 : (n + 1) % 17 = 0
    · rw [if_pos h0, zero_add, h0, Nat.zero_add, Finset.sum_range_one]
    · rw [if_neg h0, Enc.accBefore_pos V c ⟨n + 1, hn⟩ (Nat.succ_ne_zero n)]
      show (Enc.stateAt V c n (Nat.lt_of_succ_lt hn)).2.2 (ix2 p e) + _ = _
      rw [ih (Nat.lt_of_succ_lt hn) p e, show (n + 1) / 17 = n / 17 by omega, show (n + 1) % 17 = n % 17 + 1 by omega,
        Finset.sum_range_succ _ (n % 17 + 1)]

theorem row_lt (t : Fin cfg0.N) (p : Fin 512) : 512 * (t.val / 17) + p.val < 1024 := by
  have := lt_of_lt_of_eq t.isLt N_0; omega

/-- At a row's last point the payload the outputs are computed from has, in row `p`, row `512 i + p` of the encoder input. -/
theorem acc_last (c : Dev nD) (t : Fin cfg0.N) (h1 : t.val % 17 = 16) (p : Fin 512) :
    (fun e : Fin 300 => k0_pay2 (F := Ideal) (Enc.blk0 V c 0 t) (Enc.blk0 V c 1 t) (Enc.accBefore V c t) (Enc.blk0 V c 2 t) (ix2 p e))
      = xIn V c ⟨_, row_lt t p⟩ := by
  funext e
  rw [← Enc.accLast_eq V c t h1, ← acc_at_last V c t h1, acc_eq V c t.val t.isLt p e, h1]
  exact sum_tiles V c ⟨_, row_lt t p⟩ e

theorem theta_blk (c : Dev nD) (t : Fin cfg0.N) (h1 : t.val % 17 = 16) (p : Fin 512) (tt : Fin 50) :
    ((Enc.stateAt V c t.val t.isLt).1 : S512x50.Idx → EReal) (ix2 p tt) = thetaR V c ⟨_, row_lt t p⟩ tt := by
  unfold thetaR
  rw [Enc.stateAt_last V c t h1]
  show (Enc.thetaLast V c t h1 _ : S512x50.Idx → EReal) _ = _
  rw [Enc.thetaLast_eq, EncPayValue.pay3_apply, blk_w1, blk_b1, blk_wmu, blk_bmu, acc_last V c t h1 p]

theorem kl_blk (c : Dev nD) (t : Fin cfg0.N) (h1 : t.val % 17 = 16) (p : Fin 512) :
    ((Enc.stateAt V c t.val t.isLt).2.1 : S512x1.Idx → EReal) (ix2 p 0) = klR V c ⟨_, row_lt t p⟩ := by
  unfold klR
  rw [Enc.stateAt_last V c t h1]
  show (Enc.klLast V c t h1 _ : S512x1.Idx → EReal) _ = _
  rw [Enc.klLast_eq, EncPayValue.pay6_apply, blk_w1, blk_b1, blk_wmu, blk_bmu, blk_wlv, blk_blv, acc_last V c t h1 p]

/-- What the two result arrays end holding. -/
def thetaG (c : Dev nD) : Buf (Elt Ideal) ((cfg0.win 9).arr.view.loc (c.tc : Thread nD τ)) :=
  fun i => thetaR V c ((i : S1024x50.Idx) 0) ((i : S1024x50.Idx) 1)
def klG (c : Dev nD) : Buf (Elt Ideal) ((cfg0.win 10).arr.view.loc (c.tc : Thread nD τ)) :=
  fun i => klR V c ((i : S1024x1.Idx) 0)

/-- An element of point `t`'s output block sits in the array at row `512 (t / 17) + p`. -/
theorem emb9 (t : Fin cfg0.N) (p : Fin 512) (tt : Fin 50) :
    (((cfg0.win 9).blk t).view.emb (ix2 p tt) : S1024x50.Idx) = ix2 ⟨_, row_lt t p⟩ tt :=
  Shape.idx_ext₂ (by show win0_9.index t 0 * 512 + 1 * p.val = 512 * (t.val / 17) + p.val; rw [(index9 t).1]; omega)
    (by show win0_9.index t 1 * 50 + 1 * tt.val = tt.val; rw [(index9 t).2]; omega)
theorem emb10 (t : Fin cfg0.N) (p : Fin 512) :
    (((cfg0.win 10).blk t).view.emb (ix2 p 0) : S1024x1.Idx) = ix2 ⟨_, row_lt t p⟩ 0 :=
  Shape.idx_ext₂ (by show win0_10.index t 0 * 512 + 1 * p.val = 512 * (t.val / 17) + p.val; rw [(index10 t).1]; omega)
    (by show win0_10.index t 1 * 1 + 1 * 0 = 0; rw [(index10 t).2])

/-- At a row's last point the outputs' blocks are the blocks of `thetaG` and `klG`. -/
theorem theta_flushed (c : Dev nD) (t : Fin cfg0.N) (hf : (cfg0.win 9).flush t = true) :
    (Enc.dat0 V c).flushed 9 t = ((cfg0.win 9).blk t).view.read (Elt Ideal) (thetaG V c) := by
  funext y
  obtain ⟨p, tt, rfl⟩ : ∃ (p : Fin 512) (tt : Fin 50), y = ix2 p tt := ⟨y 0, y 1, eq_ix2 (n0 := 512) (n1 := 50) y⟩
  show ((Enc.dat0 V c).after 9 t : S512x50.Idx → EReal) (ix2 p tt) = thetaG V c (((cfg0.win 9).blk t).view.emb (ix2 p tt))
  rw [Enc.after9, theta_blk V c t ((flush0_9 t).mp hf) p tt, emb9 t p tt]
  rfl
theorem kl_flushed (c : Dev nD) (t : Fin cfg0.N) (hf : (cfg0.win 10).flush t = true) :
    (Enc.dat0 V c).flushed 10 t = ((cfg0.win 10).blk t).view.read (Elt Ideal) (klG V c) := by
  funext y
  obtain ⟨p, z, rfl⟩ : ∃ (p : Fin 512) (z : Fin 1), y = ix2 p z := ⟨y 0, y 1, eq_ix2 (n0 := 512) (n1 := 1) y⟩
  obtain rfl : z = 0 := Subsingleton.elim _ _
  show ((Enc.dat0 V c).after 10 t : S512x1.Idx → EReal) (ix2 p 0) = klG V c (((cfg0.win 10).blk t).view.emb (ix2 p 0))
  rw [Enc.after10, kl_blk V c t ((flush0_10 t).mp hf) p, emb10 t p]
  rfl

/-- Row `b` is row `b % 512` of the block of the last point of grid row `b / 512`. -/
theorem last_pt (b : Fin 1024) : ∃ (t : Fin cfg0.N) (p : Fin 512), t.val % 17 = 16 ∧ (⟨_, row_lt t p⟩ : Fin 1024) = b :=
  ⟨⟨17 * (b.val / 512) + 16, by rw [show cfg0.N = 34 from N_0]; omega⟩, ⟨b.val % 512, by omega⟩,
    by show (17 * (b.val / 512) + 16) % 17 = 16; omega,
    Fin.ext (by show 512 * ((17 * (b.val / 512) + 16) / 17) + b.val % 512 = b.val; omega)⟩

theorem theta_arr (c : Dev nD) (b : Fin 1024) (t : Fin 50) :
    (Enc.dat0 (F := Ideal) V c).arrAt 9 cfg0.N (ValueIdx.ix2 b t) = thetaR V c b t := by
  obtain ⟨s, p, h1, rfl⟩ := last_pt b
  have h := (Enc.dat0 V c).arrAt_apply_of_mem 9 (thetaG V c) (theta_flushed V c) cfg0.N s _ s.isLt ((flush0_9 s).mpr h1)
    (((cfg0.win 9).blk s).view.emb_mem_set (ix2 p t))
  rw [emb9 s p t] at h
  exact h
theorem kl_arr (c : Dev nD) (b : Fin 1024) :
    (Enc.dat0 (F := Ideal) V c).arrAt 10 cfg0.N (ValueIdx.ix2 b 0) = klR V c b := by
  obtain ⟨s, p, h1, rfl⟩ := last_pt b
  have h := (Enc.dat0 V c).arrAt_apply_of_mem 10 (klG V c) (kl_flushed V c) cfg0.N s _ s.isLt ((flush0_10 s).mpr h1)
    (((cfg0.win 10).blk s).view.emb_mem_set (ix2 p (0 : Fin 1)))
  rw [emb10 s p] at h
  exact h

end Cert.KernelIdeal.EncValue

end
-- ==== Proof.DecPayValue.lean ====
import proofs.«427360_j50826642981279_1_alg».proof.Proof.Gen.KernelIdeal.Skeleton
import proofs.«427360_j50826642981279_1_alg».proof.Proof.Spec
import proofs.«427360_j50826642981279_1_alg».proof.Proof.SpecTile
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.DecPayValue

open Idealize.ShloMosaic Idealize.ShloMosaic.ValueIdx Cert.KernelIdeal.Gen

theorem lhs_mm_0 (i : S512x2944.Idx) (q : dot_S512x50_S50x2944_S512x2944_1_0_0_1_n_n.contr.Idx) :
    (dot_S512x50_S50x2944_S512x2944_1_0_0_1_n_n.lhsIdx i q 0).val = (i 0).val := by
  unfold DotDims.lhsIdx
  rw [dif_neg (show ¬(0 : Fin S512x50.rank) ∈ dot_S512x50_S50x2944_S512x2944_1_0_0_1_n_n.lhsBatch by decide),
    dif_pos (show (0 : Fin S512x50.rank) ∈ dot_S512x50_S50x2944_S512x2944_1_0_0_1_n_n.lhsNonContracting by decide)]
  rfl

theorem lhs_mm_1 (i : S512x2944.Idx) (q : dot_S512x50_S50x2944_S512x2944_1_0_0_1_n_n.contr.Idx) :
    (dot_S512x50_S50x2944_S512x2944_1_0_0_1_n_n.lhsIdx i q 1).val = (q ⟨0, by decide⟩).val :=
  dot_S512x50_S50x2944_S512x2944_1_0_0_1_n_n.lhsIdx_val_of_single rfl i q

theorem rhs_mm_0 (i : S512x2944.Idx) (q : dot_S512x50_S50x2944_S512x2944_1_0_0_1_n_n.contr.Idx) :
    (dot_S512x50_S50x2944_S512x2944_1_0_0_1_n_n.rhsIdx i q 0).val = (q ⟨0, by decide⟩).val :=
  dot_S512x50_S50x2944_S512x2944_1_0_0_1_n_n.rhsIdx_val_of_single rfl i q

theorem rhs_mm_1 (i : S512x2944.Idx) (q : dot_S512x50_S50x2944_S512x2944_1_0_0_1_n_n.contr.Idx) :
    (dot_S512x50_S50x2944_S512x2944_1_0_0_1_n_n.rhsIdx i q 1).val = (i 1).val := by
  unfold DotDims.rhsIdx
  rw [dif_neg (show ¬(1 : Fin S50x2944.rank) ∈ dot_S512x50_S50x2944_S512x2944_1_0_0_1_n_n.rhsBatch by decide),
    dif_pos (show (1 : Fin S50x2944.rank) ∈ dot_S512x50_S50x2944_S512x2944_1_0_0_1_n_n.rhsNonContracting by decide)]
  rfl

-- The block product into the zero block at `(p, k)`: the sum over the 50 topics of left `(p, t)` times right `(t, k)`.
theorem tile_matmul_apply (a : FVec Ideal S512x50 .bf16) (b : FVec Ideal S50x2944 .bf16) (p : Fin 512) (k : Fin 2944) :
    matmul dot_S512x50_S50x2944_S512x2944_1_0_0_1_n_n none a b (constant (F := Ideal) S512x2944 .f32 0x00000000#32) (ix2 p k)
      = ∑ t : Fin 50, a (ix2 p t) * b (ix2 t k) := by
  simp only [matmul]
  rw [Ideal.matmul_constant_zero_apply, ← Equiv.sum_comp (contrEquiv1 dot_S512x50_S50x2944_S512x2944_1_0_0_1_n_n 50 rfl rfl).symm]
  refine Finset.sum_congr rfl fun t _ => ?_
  have hk := contrEquiv1_symm_val dot_S512x50_S50x2944_S512x2944_1_0_0_1_n_n 50 rfl rfl t
  have el : dot_S512x50_S50x2944_S512x2944_1_0_0_1_n_n.lhsIdx (ix2 p k) ((contrEquiv1 dot_S512x50_S50x2944_S512x2944_1_0_0_1_n_n 50 rfl rfl).symm t) = ix2 p t :=
    funext fun a => Fin.ext (by
      match a with
      | ⟨0, _⟩ => exact lhs_mm_0 _ _
      | ⟨1, _⟩ => exact (lhs_mm_1 _ _).trans hk)
  have er : dot_S512x50_S50x2944_S512x2944_1_0_0_1_n_n.rhsIdx (ix2 p k) ((contrEquiv1 dot_S512x50_S50x2944_S512x2944_1_0_0_1_n_n 50 rfl rfl).symm t) = ix2 t k :=
    funext fun a => Fin.ext (by
      match a with
      | ⟨0, _⟩ => exact (rhs_mm_0 _ _).trans hk
      | ⟨1, _⟩ => exact rhs_mm_1 _ _)
  rw [el, er]

-- The sum over a block's 2944 columns, at row `p`.
theorem lanesum_apply (x : FVec Ideal S512x2944 .f32) (p : Fin 512) :
    multiReduction (F := Ideal) .add [1] S512 x 0x00000000#32 reduces_S512x2944_S512 (.inl rfl) rfl (ix1 p)
      = ∑ k : Fin 2944, x (ix2 p k) := by
  refine (Ideal.multiReduction_add_single x _ reduces_S512x2944_S512 (.inl rfl) rfl (ix1 p)).trans ?_
  refine Finset.sum_congr rfl fun k _ => congrArg x ?_
  funext a
  match a with
  | ⟨0, _⟩ => rfl
  | ⟨1, _⟩ => rfl

-- A vector of 512 entries seen as a 512-by-1 column reads, at `(p, 0)`, the vector at `p`.
theorem column_apply {α : Type} (y : S512.Idx → α) (p : Fin 512) :
    shapeCast S512x1 y shapeCasts_S512_S512x1 (ix2 p 0) = y (ix1 p) :=
  shapeCast_apply y _ _ _ (by
    rw [Shape.rowMajor_val_two, Shape.rowMajor_val_one]
    show p.val = p.val * 1 + 0
    omega)

theorem k1_pay1_apply (p : Fin 512) : k1_pay1 (F := Ideal) (ix2 p 0) = 0 := by
  unfold k1_pay1
  simp only [shapeCast_self]
  exact Ideal.ofBits_zero_f32

-- The accumulator after one column tile, at row `p`: the old value plus zero minus the tile's sum of log-likelihood times count.
theorem k1_pay2_apply (v3 : Vec Ideal S512x50 .f32) (v6 : Vec Ideal S50x2944 .bf16) (v12 : Vec Ideal S512x1 .f32)
    (v13 : Vec Ideal S512x2944 .f32) (p : Fin 512) :
    k1_pay2 v3 v6 v12 v13 (ix2 p 0)
      = v12 (ix2 p 0) + (0 - ∑ k : Fin 2944,
          Ideal.log ((∑ t : Fin 50, v3 (ix2 p t) * v6 (ix2 t k)) + Cert.Spec.eps) * v13 (ix2 p k)) := by
  unfold k1_pay2
  simp only [shapeCast_self]
  show v12 (ix2 p 0) + (Ideal.ofBits .f32 0x00000000#32
    - shapeCast S512x1 _ shapeCasts_S512_S512x1 (ix2 p 0)) = _
  rw [Ideal.ofBits_zero_f32, column_apply, lanesum_apply]
  refine congrArg (fun z => v12 (ix2 p 0) + (0 - z)) (Finset.sum_congr rfl fun k _ => ?_)
  show Ideal.log (matmul dot_S512x50_S50x2944_S512x2944_1_0_0_1_n_n none (truncf .bf16 v3 bitsLt_bf16_f32) v6
      (constant (F := Ideal) S512x2944 .f32 0x00000000#32) (ix2 p k) + Ideal.ofBits .f32 0x3727C5AC#32)
    * v13 (ix2 p k) = _
  rw [tile_matmul_apply]
  rfl

end Cert.KernelIdeal.DecPayValue

end
-- ==== Proof.DecValue.lean ====
import proofs.«427360_j50826642981279_1_alg».proof.Proof.DecFrame
import proofs.«427360_j50826642981279_1_alg».proof.Proof.DecPayValue
import proofs.«427360_j50826642981279_1_alg».proof.Proof.Spec
import proofs.«427360_j50826642981279_1_alg».proof.Proof.SpecTile
import Idealize.ShloMosaic.Lib.Pipeline.Value
import Idealize.ShloMosaic.Lib.ValueIdx
import Idealize.ShloMosaic.Lib.Tactic

set_option maxRecDepth 16384

noncomputable section

namespace Cert.KernelIdeal.DecValue

open Cert.KernelIdeal Cert.KernelIdeal.Gen Cert.KernelIdeal.Dec
open Idealize.ShloMosaic Idealize.ShloMosaic.TcCoe Idealize.ShloMosaic.Tactic Idealize.SL.Sem
open Idealize.ShloMosaic.Pipeline (Dat)
open Idealize.ShloMosaic.ValueIdx

section Value

variable (V : (c : Dev nD) → (b : Ref sig .tc) → Buf (Elt Ideal) ((c : Thread nD τ).loc b))

abbrev countsArr (c : Dev nD) : Vec Ideal S1024x50048 .f32 := V c main_v26
abbrev thetaArr (c : Dev nD) : Vec Ideal S1024x50 .f32 := V c main_v55_0
abbrev betaArr (c : Dev nD) : Vec Ideal S50x50048 .bf16 := V c main_v48

abbrev countsBlk (c : Dev nD) (t : Fin cfg1.N) : Vec Ideal S512x2944 .f32 := blockAt V c 0 t
abbrev thetaBlk (c : Dev nD) (t : Fin cfg1.N) : Vec Ideal S512x50 .f32 := blockAt V c 1 t
abbrev betaBlk (c : Dev nD) (t : Fin cfg1.N) : Vec Ideal S50x2944 .bf16 := blockAt V c 2 t

theorem index_maps : ∀ t : Fin cfg1.N, win1_0.index t (0 : Fin 2) = t.val / 17 ∧ win1_0.index t (1 : Fin 2) = t.val % 17
    ∧ win1_1.index t (0 : Fin 2) = t.val / 17 ∧ win1_1.index t (1 : Fin 2) = 0
    ∧ win1_2.index t (0 : Fin 2) = 0 ∧ win1_2.index t (1 : Fin 2) = t.val % 17
    ∧ win1_3.index t (0 : Fin 2) = t.val / 17 ∧ win1_3.index t (1 : Fin 2) = 0 :=
  (by decide +kernel : ∀ t : Fin grid1.N, _)

def rowOf (t : Fin cfg1.N) (p : Fin 512) : Fin 1024 :=
  ⟨512 * (t.val / 17) + p.val, by have h1 := t.isLt; have h2 : cfg1.N = 34 := N_1; have h3 := p.isLt; omega⟩

def tileOf (t : Fin cfg1.N) : Fin 17 := ⟨t.val % 17, Nat.mod_lt _ (by decide)⟩

theorem countsBlk_apply (c : Dev nD) (t : Fin cfg1.N) (p : Fin 512) (k : Fin 2944) :
    countsBlk V c t (ix2 p k) = countsArr V c (ix2 (rowOf t p) (Cert.Spec.tcol (tileOf t) k)) := by
  obtain ⟨e0, e1, e2, e3, e4, e5, e6, e7⟩ := index_maps t
  show ((cfg1.win 0).blk t).view.read (Elt Ideal) (V c (Pipeline.arrRef spec1 0)) (ix2 p k) = _
  rw [View.read_apply]
  show V c main_v26 _ = V c main_v26 _
  congr 1
  funext a; apply Fin.ext
  match a with
  | ⟨0, _⟩ => show win1_0.index t (0 : Fin 2) * 512 + 1 * p.val = 512 * (t.val / 17) + p.val; rw [e0]; omega
  | ⟨1, _⟩ => show win1_0.index t (1 : Fin 2) * 2944 + 1 * k.val = 2944 * (t.val % 17) + k.val; rw [e1]; omega

theorem thetaBlk_apply (c : Dev nD) (t : Fin cfg1.N) (p : Fin 512) (s : Fin 50) :
    thetaBlk V c t (ix2 p s) = thetaArr V c (ix2 (rowOf t p) s) := by
  obtain ⟨e0, e1, e2, e3, e4, e5, e6, e7⟩ := index_maps t
  show ((cfg1.win 1).blk t).view.read (Elt Ideal) (V c (Pipeline.arrRef spec1 1)) (ix2 p s) = _
  rw [View.read_apply]
  show V c main_v55_0 _ = V c main_v55_0 _
  congr 1
  funext a; apply Fin.ext
  match a with
  | ⟨0, _⟩ => show win1_1.index t (0 : Fin 2) * 512 + 1 * p.val = 512 * (t.val / 17) + p.val; rw [e2]; omega
  | ⟨1, _⟩ => show win1_1.index t (1 : Fin 2) * 50 + 1 * s.val = s.val; rw [e3]; omega

theorem betaBlk_apply (c : Dev nD) (t : Fin cfg1.N) (s : Fin 50) (k : Fin 2944) :
    betaBlk V c t (ix2 s k) = betaArr V c (ix2 s (Cert.Spec.tcol (tileOf t) k)) := by
  obtain ⟨e0, e1, e2, e3, e4, e5, e6, e7⟩ := index_maps t
  show ((cfg1.win 2).blk t).view.read (Elt Ideal) (V c (Pipeline.arrRef spec1 2)) (ix2 s k) = _
  rw [View.read_apply]
  show V c main_v48 _ = V c main_v48 _
  congr 1
  funext a; apply Fin.ext
  match a with
  | ⟨0, _⟩ => show win1_2.index t (0 : Fin 2) * 50 + 1 * s.val = s.val; rw [e4]; omega
  | ⟨1, _⟩ => show win1_2.index t (1 : Fin 2) * 2944 + 1 * k.val = 2944 * (t.val % 17) + k.val; rw [e5]; omega

def tileTerm (c : Dev nD) (b : Fin 1024) (j : Fin 17) : EReal :=
  0 - ∑ k : Fin 2944, Ideal.log ((∑ s : Fin 50, thetaArr V c (ix2 b s) * betaArr V c (ix2 s (Cert.Spec.tcol j k))) + Cert.Spec.eps)
    * countsArr V c (ix2 b (Cert.Spec.tcol j k))

def tileTermN (c : Dev nD) (b : Fin 1024) (j : ℕ) : EReal := if h : j < 17 then tileTerm V c b ⟨j, h⟩ else 0

-- One point's step at row `p`: what the accumulator held plus the point's tile's term for the array row.
theorem step (c : Dev nD) (t : Fin cfg1.N) (xs : Vec Ideal S512x1 .f32) (p : Fin 512) :
    upd V c t xs (ix2 p 0) = xs (ix2 p 0) + tileTerm V c (rowOf t p) (tileOf t) := by
  refine (Cert.KernelIdeal.DecPayValue.k1_pay2_apply (thetaBlk V c t) (betaBlk V c t) xs (countsBlk V c t) p).trans ?_
  unfold tileTerm
  simp only [countsBlk_apply V c t, thetaBlk_apply V c t, betaBlk_apply V c t]

theorem tileTermN_of_lt (c : Dev nD) (b : Fin 1024) (j : ℕ) (h : j < 17) : tileTermN V c b j = tileTerm V c b ⟨j, h⟩ := dif_pos h

-- After point `n` the accumulator's row `p` holds the terms of the tiles 0 … n % 17 of the array row: induction along the grid row.
theorem acc_sum (c : Dev nD) (n : ℕ) : ∀ (hn : n < cfg1.N) (p : Fin 512),
    heldAt V c n hn (ix2 p 0) = ∑ j ∈ Finset.range (n % 17 + 1), tileTermN V c (rowOf ⟨n, hn⟩ p) j := by
  induction n using Nat.strong_induction_on with
  | _ n ih =>
    intro hn p
    have hN : n < 34 := lt_of_lt_of_eq hn (show cfg1.N = 34 from N_1)
    by_cases h0 : n % 17 = 0
    · rw [heldAt_start V c ⟨n, hn⟩ h0, step, Cert.KernelIdeal.DecPayValue.k1_pay1_apply, zero_add,
        show n % 17 + 1 = 1 from by omega, Finset.sum_range_one, tileTermN_of_lt V c _ 0 (by decide)]
      exact congrArg (tileTerm V c (rowOf ⟨n, hn⟩ p)) (Fin.ext h0)
    · have hlt : n - 1 < cfg1.N := Nat.lt_of_le_of_lt (Nat.sub_le _ _) hn
      have hrow : rowOf ⟨n - 1, hlt⟩ p = rowOf ⟨n, hn⟩ p := Fin.ext (by show 512 * ((n - 1) / 17) + p.val = 512 * (n / 17) + p.val; omega)
      rw [heldAt_next V c ⟨n, hn⟩ h0, step]
      show heldAt V c (n - 1) hlt (ix2 p 0) + _ = _
      rw [ih (n - 1) (by omega) hlt p, hrow, show (n - 1) % 17 + 1 = n % 17 from by omega, Finset.sum_range_succ,
        tileTermN_of_lt V c _ _ (Nat.mod_lt _ (by decide))]
      rfl

-- At a row's last point that is all 17 tiles' terms.
theorem out_total (c : Dev nD) (t : Fin cfg1.N) (h1 : t.val % 17 = 16) (p : Fin 512) :
    heldAt V c t.val t.isLt (ix2 p 0) = ∑ j : Fin 17, tileTerm V c (rowOf t p) j := by
  refine (acc_sum V c t.val t.isLt p).trans ?_
  rw [h1]
  show ∑ j ∈ Finset.range 17, tileTermN V c (rowOf t p) j = _
  rw [← Fin.sum_univ_eq_sum_range (fun j => tileTermN V c (rowOf t p) j) 17]
  exact Finset.sum_congr rfl fun j _ => tileTermN_of_lt V c _ j.val j.isLt

def rowTotals (c : Dev nD) : Vec Ideal S1024x1 .f32 := fun i => ∑ j : Fin 17, tileTerm V c (i 0) j

theorem flushed_eq (c : Dev nD) (t : Fin cfg1.N) (hf : (cfg1.win 3).flush t = true) :
    (dat1 V c).flushed 3 t = ((cfg1.win 3).blk t).view.read (Elt Ideal) (rowTotals V c) := by
  have h1 : t.val % 17 = 16 := (flush1_3 t).mp hf
  obtain ⟨e0, e1, e2, e3, e4, e5, e6, e7⟩ := index_maps t
  show (cfg1.win 3).cut (grid1.coords t) ((dat1 V c).after 3 t) = _
  rw [after_out]
  funext y
  obtain ⟨p, q, rfl⟩ : ∃ (p : Fin 512) (q : Fin 1), y = ix2 p q := ⟨y 0, y 1, eq_ix2 y⟩
  obtain rfl : q = 0 := Subsingleton.elim _ _
  rw [View.read_apply]
  show heldAt V c t.val t.isLt (ix2 p 0) = ∑ j : Fin 17, tileTerm V c ((((cfg1.win 3).blk t).view.emb (ix2 p 0)) 0) j
  rw [out_total V c t h1 p]
  have hb : (((cfg1.win 3).blk t).view.emb (ix2 p 0)) 0 = rowOf t p :=
    Fin.ext (by show win1_3.index t (0 : Fin 2) * 512 + 1 * p.val = 512 * (t.val / 17) + p.val; rw [e6]; omega)
  rw [hb]

theorem last_point : ∀ q : Fin 2, ∃ t : Fin cfg1.N, t.val % 17 = 16 ∧ win1_3.index t (0 : Fin 2) = q.val ∧ win1_3.index t (1 : Fin 2) = 0 :=
  (by decide +kernel : ∀ q : Fin 2, ∃ t : Fin grid1.N, t.val % 17 = 16 ∧ win1_3.index t (0 : Fin 2) = q.val ∧ win1_3.index t (1 : Fin 2) = 0)

theorem arr_eq (c : Dev nD) : (dat1 V c).arrAt 3 cfg1.N = rowTotals V c :=
  (dat1 V c).arrAt_eq_of_cover 3 (rowTotals V c) (flushed_eq V c) fun i => by
    have hi0 : (i 0 : Nat) < 1024 := (i 0).isLt
    have hi1 : (i 1 : Nat) < 1 := (i 1).isLt
    obtain ⟨t, ht, q0, q1⟩ := last_point ⟨(i 0 : Nat) / 512, by omega⟩
    refine ⟨t, (flush1_3 t).mpr ht, ?_⟩
    show i ∈ ((View.whole main_v56).slice (win1_3.rect t)).set
    rw [View.set_slice_whole, Rect.mem_set_unit]
    intro a
    match a with
    | ⟨0, _⟩ => show win1_3.index t (0 : Fin 2) * 512 ≤ (i 0 : Nat) ∧ (i 0 : Nat) < win1_3.index t (0 : Fin 2) * 512 + 512
                rw [q0]; dsimp only; omega
    | ⟨1, _⟩ => show win1_3.index t (1 : Fin 2) * 1 ≤ (i 1 : Nat) ∧ (i 1 : Nat) < win1_3.index t (1 : Fin 2) * 1 + 1
                rw [q1]; omega

theorem recon_arr (c : Dev nD) (b : Fin 1024) :
    (Dec.dat1 (F := Ideal) V c).arrAt 3 cfg1.N (ix2 b 0)
      = Cert.Spec.reconTile (Cert.Spec.cur2 (V c main_v26 : S1024x50048.Idx → EReal)) (Cert.Spec.cur2 (V c main_v48 : S50x50048.Idx → EReal))
          (fun s => (V c main_v55_0 : S1024x50.Idx → EReal) (ix2 b s)) b := by
  rw [arr_eq V c]
  rfl

end Value

end Cert.KernelIdeal.DecValue

end
-- ==== Proof.KValue.lean ====
import proofs.«427360_j50826642981279_1_alg».proof.Proof.Gen.KernelIdeal.Regions
import proofs.«427360_j50826642981279_1_alg».proof.Proof.SpecOut
import proofs.«427360_j50826642981279_1_alg».proof.Proof.KHost
import proofs.«427360_j50826642981279_1_alg».proof.Proof.KRun
import proofs.«427360_j50826642981279_1_alg».proof.Proof.EncValue
import proofs.«427360_j50826642981279_1_alg».proof.Proof.DecValue

noncomputable section

namespace Cert.KernelIdeal.KValue

open Cert.KernelIdeal Cert.KernelIdeal.Gen
open Idealize.ShloMosaic Idealize.ShloMosaic.TcCoe
open Idealize.ShloMosaic.ValueIdx
open Idealize.SL.Sem
open Cert.Spec (cur1 cur2)

/-- The mean of a column of 1024 rows, summed from zero. -/
def meanT (x : FVec Ideal S1024x1 .f32) : FVec Ideal S_ .f32 :=
  Host.divf (Host.reduceAdd x (constant S_ .f32 0x00000000#32) reducesTo_S1024x1_S_d0_1 h_S_) (constant S_ .f32 0x44800000#32)

def lossT (r k : FVec Ideal S1024x1 .f32) : FVec Ideal S_ .f32 := addf (meanT r) (meanT k)

theorem meanT_apply (x : FVec Ideal S1024x1 .f32) :
    meanT x ix0 = Ideal.div (∑ b : Fin 1024, x (ix2 b 0)) Spec.c1024 := by
  show Ideal.div (Ideal.hostReduceAdd reducesTo_S1024x1_S_d0_1 x (Ideal.ofBits .f32 0x00000000#32) ix0) Spec.c1024 = _
  rw [Ideal.hostReduceAdd_total reducesTo_S1024x1_S_d0_1 (fun b => b.elim0), Ideal.ofBits_zero_f32, zero_add, sum_idx2]
  exact congrArg (fun s => Ideal.div s Spec.c1024) (Finset.sum_congr rfl fun b _ => Fin.sum_univ_one _)

theorem lossT_apply (r k : FVec Ideal S1024x1 .f32) :
    lossT r k ix0 = Spec.lossOf (fun b => r (ix2 b 0)) (fun b => k (ix2 b 0)) := by
  unfold lossT Spec.lossOf
  rw [addf_apply, meanT_apply, meanT_apply]

theorem s_v61 (W : Valuation τ sig (Elt Ideal)) : (StableHlo.after hostOps2 W (Proc.devRef .tc main_v61) : S_.Idx → EReal)
    = lossT (W main_v56 : FVec Ideal S1024x1 .f32) (W main_v55_1 : FVec Ideal S1024x1 .f32) := by
  after_results <;> rfl

section Arrays
variable (m : (ℓ : Loc nD τ sig) → Buf (Elt Ideal) ℓ) (c : Dev nD)

/-- The nine arguments by their coordinates. -/
abbrev ids := cur2 (m ((c.tc : Thread nD τ).loc main_arg0) : S1024x512.Idx → BitVec 32)
abbrev rho := cur2 (m ((c.tc : Thread nD τ).loc main_arg1) : S50000x300.Idx → EReal)
abbrev alpha := cur2 (m ((c.tc : Thread nD τ).loc main_arg2) : S50x300.Idx → EReal)
abbrev W1 := cur2 (m ((c.tc : Thread nD τ).loc main_arg3) : S300x800.Idx → EReal)
abbrev b1 := cur1 (m ((c.tc : Thread nD τ).loc main_arg4) : S800.Idx → EReal)
abbrev Wmu := cur2 (m ((c.tc : Thread nD τ).loc main_arg5) : S800x50.Idx → EReal)
abbrev bmu := cur1 (m ((c.tc : Thread nD τ).loc main_arg6) : S50.Idx → EReal)
abbrev Wlv := cur2 (m ((c.tc : Thread nD τ).loc main_arg7) : S800x50.Idx → EReal)
abbrev blv := cur1 (m ((c.tc : Thread nD τ).loc main_arg8) : S50.Idx → EReal)

/-- The arrays the launches are handed, as functions of the arguments. -/
theorem a52 : cur2 (KRun.E5 m c main_v52 : S300x800.Idx → EReal) = W1 m c :=
  funext fun e => funext fun n => KHost.v52_apply m c e n
theorem a53 : cur2 (KRun.E5 m c main_v53 : S800x50.Idx → EReal) = Wmu m c :=
  funext fun n => funext fun t => KHost.v53_apply m c n t
theorem a54 : cur2 (KRun.E5 m c main_v54 : S800x50.Idx → EReal) = Wlv m c :=
  funext fun n => funext fun t => KHost.v54_apply m c n t
theorem a49 : (fun n => (KRun.E5 m c main_v49 : S1x800.Idx → EReal) (ix2 0 n)) = b1 m c :=
  funext fun n => KHost.v49_apply m c n
theorem a50 : (fun t => (KRun.E5 m c main_v50 : S1x50.Idx → EReal) (ix2 0 t)) = bmu m c :=
  funext fun t => KHost.v50_apply m c t
theorem a51 : (fun t => (KRun.E5 m c main_v51 : S1x50.Idx → EReal) (ix2 0 t)) = blv m c :=
  funext fun t => KHost.v51_apply m c t
theorem a30 : cur2 (KRun.E5 m c main_v30 : S50048x300.Idx → EReal) = Spec.rhoPad (rho m c) :=
  funext fun v => funext fun e => KHost.v30_apply m c v e
theorem a48 : cur2 (KRun.E5 m c main_v48 : S50x50048.Idx → EReal) = Spec.betaK (alpha m c) (rho m c) :=
  funext fun t => funext fun v => KHost.v48_apply m c t v

variable (hids : Cert.Spec.IdsOk (ids m c))
include hids

theorem a26 : cur2 (KRun.E5 m c main_v26 : S1024x50048.Idx → EReal) = Spec.histo 50048 (ids m c) :=
  funext fun b => funext fun v => KHost.v26_apply m c hids b v
theorem a28 : (fun b => (KRun.E5 m c main_v28 : S1024x1.Idx → EReal) (ix2 b 0)) = Spec.total 50048 (ids m c) :=
  funext fun b => KHost.v28_apply m c hids b

/-- The encoder input the first launch accumulates is the padded, tiled form's. -/
theorem xIn_eq (b : Fin 1024) : EncValue.xIn (KRun.E5 m) c b = Spec.xK (ids m c) (rho m c) b := by
  unfold EncValue.xIn
  rw [a26 m c hids, a28 m c hids, a30 m c, Spec.xK_eq_xTile]

theorem theta_read (b : Fin 1024) (t : Fin 50) :
    (Gen.V6 m (KRun.outs m) c main_v55_0 : S1024x50.Idx → EReal) (ix2 b t)
      = Spec.thetaKer (ids m c) (rho m c) (W1 m c) (b1 m c) (Wmu m c) (bmu m c) b t := by
  rw [KRun.V6_v55_0 m c]
  refine (EncValue.theta_arr (KRun.E5 m) c b t).trans ?_
  unfold EncValue.thetaR
  rw [xIn_eq m c hids b, a52 m c, a49 m c, a53 m c, a50 m c]
  rfl

theorem kl_read (b : Fin 1024) :
    (Gen.V6 m (KRun.outs m) c main_v55_1 : S1024x1.Idx → EReal) (ix2 b 0)
      = Spec.klOf (W1 m c) (b1 m c) (Wmu m c) (bmu m c) (Wlv m c) (blv m c) (Spec.xK (ids m c) (rho m c) b) := by
  rw [KRun.V6_v55_1 m c]
  refine (EncValue.kl_arr (KRun.E5 m) c b).trans ?_
  unfold EncValue.klR
  rw [xIn_eq m c hids b, a52 m c, a49 m c, a53 m c, a50 m c, a54 m c, a51 m c]

/-- The second launch reads the counts and the topic matrix as the first found them, and the first's proportions. -/
theorem recon_read (b : Fin 1024) :
    (Gen.V7 m (KRun.outs m) c main_v56 : S1024x1.Idx → EReal) (ix2 b 0)
      = Spec.reconK (ids m c) (Spec.betaK (alpha m c) (rho m c))
          (Spec.thetaOf (W1 m c) (b1 m c) (Wmu m c) (bmu m c) (Spec.xK (ids m c) (rho m c) b)) b := by
  rw [KRun.V7_v56 m c]
  refine (DecValue.recon_arr (KRun.E6 m) c b).trans ?_
  have e26 : (KRun.E6 m c main_v26 : S1024x50048.Idx → EReal) = KRun.E5 m c main_v26 := KRun.V6_other m c main_v26 (by decide)
  have e48 : (KRun.E6 m c main_v48 : S50x50048.Idx → EReal) = KRun.E5 m c main_v48 := KRun.V6_other m c main_v48 (by decide)
  have eth : (fun s => (KRun.E6 m c main_v55_0 : S1024x50.Idx → EReal) (ix2 b s))
      = Spec.thetaOf (W1 m c) (b1 m c) (Wmu m c) (bmu m c) (Spec.xK (ids m c) (rho m c) b) :=
    funext fun s => theta_read m c hids b s
  rw [e26, e48, eth, a26 m c hids, a48 m c, Spec.reconK_eq_reconTile]

end Arrays

theorem run_spec (m : (ℓ : Loc nD τ sig) → Buf (Elt Ideal) ℓ) (ρ : Dev nD → PrngReg)
    (hids : ∀ c : Dev nD, Cert.Spec.IdsOk (cur2 (m ((c.tc : Thread nD τ).loc main_arg0) : S1024x512.Idx → BitVec 32))) :
    θ_run (defs (F := Ideal)) (onTc (τ := τ) (main (F := Ideal))) ⟨m, fun _ => 0, ρ⟩ (fun r => ∀ c : Dev nD,
      (∀ (b : Fin 1024) (t : Fin 50), (r.2.mem ((c.tc : Thread nD τ).loc main_v55_0) : S1024x50.Idx → EReal) (ValueIdx.ix2 b t)
          = Cert.Spec.thetaKer
              (cur2 (m ((c.tc : Thread nD τ).loc main_arg0) : S1024x512.Idx → BitVec 32))
              (cur2 (m ((c.tc : Thread nD τ).loc main_arg1) : S50000x300.Idx → EReal))
              (cur2 (m ((c.tc : Thread nD τ).loc main_arg3) : S300x800.Idx → EReal))
              (cur1 (m ((c.tc : Thread nD τ).loc main_arg4) : S800.Idx → EReal))
              (cur2 (m ((c.tc : Thread nD τ).loc main_arg5) : S800x50.Idx → EReal))
              (cur1 (m ((c.tc : Thread nD τ).loc main_arg6) : S50.Idx → EReal)) b t)
      ∧ (r.2.mem ((c.tc : Thread nD τ).loc main_v61) : S_.Idx → EReal) ValueIdx.ix0
          = Cert.Spec.lossKer
              (cur2 (m ((c.tc : Thread nD τ).loc main_arg0) : S1024x512.Idx → BitVec 32))
              (cur2 (m ((c.tc : Thread nD τ).loc main_arg1) : S50000x300.Idx → EReal))
              (cur2 (m ((c.tc : Thread nD τ).loc main_arg2) : S50x300.Idx → EReal))
              (cur2 (m ((c.tc : Thread nD τ).loc main_arg3) : S300x800.Idx → EReal))
              (cur1 (m ((c.tc : Thread nD τ).loc main_arg4) : S800.Idx → EReal))
              (cur2 (m ((c.tc : Thread nD τ).loc main_arg5) : S800x50.Idx → EReal))
              (cur1 (m ((c.tc : Thread nD τ).loc main_arg6) : S50.Idx → EReal))
              (cur2 (m ((c.tc : Thread nD τ).loc main_arg7) : S800x50.Idx → EReal))
              (cur1 (m ((c.tc : Thread nD τ).loc main_arg8) : S50.Idx → EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run (defs (F := Ideal)) _ _).mono (fun r h c => ?_) (KRun.run_all m ρ)
  have hm : ∀ (b : Ref sig .tc) (hb : ¬ (Proc.devRef .tc b : DevRef τ sig).isScoped),
      r.2.mem ((c.tc : Thread nD τ).loc b) = KRun.W8 m c (Proc.devRef .tc b) := fun b hb => h c _ (KRun.mem_uc b hb)
  refine ⟨fun b t => ?_, ?_, ?_, ?_, ?_, ?_, ?_, ?_, ?_, ?_, ?_⟩
  · rw [hm main_v55_0 (by decide)]
    have e : KRun.W8 m c (Proc.devRef .tc main_v55_0) = Gen.V6 m (KRun.outs m) c main_v55_0 :=
      (Gen.V8_of m (KRun.outs m) c main_v55_0 (by decide)).trans (KRun.V7_other m c main_v55_0 (by decide))
    rw [e]
    exact theta_read m c (hids c) b t
  · rw [hm main_v61 (by decide)]
    have e : (KRun.W8 m c (Proc.devRef .tc main_v61) : S_.Idx → EReal)
        = lossT (Gen.V7 m (KRun.outs m) c main_v56 : FVec Ideal S1024x1 .f32) (Gen.V7 m (KRun.outs m) c main_v55_1 : FVec Ideal S1024x1 .f32) :=
      s_v61 (Gen.V7 m (KRun.outs m) c)
    rw [e, lossT_apply]
    have e1 : (Gen.V7 m (KRun.outs m) c main_v55_1 : S1024x1.Idx → EReal) = Gen.V6 m (KRun.outs m) c main_v55_1 :=
      KRun.V7_other m c main_v55_1 (by decide)
    rw [e1, funext fun b => recon_read m c (hids c) b, funext fun b => kl_read m c (hids c) b]
    rfl
  · exact (hm main_arg0 (by decide)).trans (Gen.V8_main_arg0 m (KRun.outs m) c)
  · exact (hm main_arg1 (by decide)).trans (Gen.V8_main_arg1 m (KRun.outs m) c)
  · exact (hm main_arg2 (by decide)).trans (Gen.V8_main_arg2 m (KRun.outs m) c)
  · exact (hm main_arg3 (by decide)).trans (Gen.V8_main_arg3 m (KRun.outs m) c)
  · exact (hm main_arg4 (by decide)).trans (Gen.V8_main_arg4 m (KRun.outs m) c)
  · exact (hm main_arg5 (by decide)).trans (Gen.V8_main_arg5 m (KRun.outs m) c)
  · exact (hm main_arg6 (by decide)).trans (Gen.V8_main_arg6 m (KRun.outs m) c)
  · exact (hm main_arg7 (by decide)).trans (Gen.V8_main_arg7 m (KRun.outs m) c)
  · exact (hm main_arg8 (by decide)).trans (Gen.V8_main_arg8 m (KRun.outs m) c)

end Cert.KernelIdeal.KValue

end
-- ==== Proof.RefOps.lean ====
import proofs.«427360_j50826642981279_1_alg».proof.Proof.Gen.ReferenceIdeal
import proofs.«427360_j50826642981279_1_alg».proof.Proof.Spec
import Idealize.ShloMosaic.Lib.IdealHost
import Idealize.ShloMosaic.Lib.Pipeline.Value
import Idealize.ShloMosaic.Lib.StackMember

noncomputable section

namespace Cert.ReferenceIdeal.RefRun

open Cert.ReferenceIdeal Cert.ReferenceIdeal.Gen Idealize.ShloMosaic Idealize.ShloMosaic.ValueIdx

variable {m n : Nat}

/-- Column `k` put back into row `b` of an [m, n] array is the entry (b, k). -/
theorem lift_row (h : (⟨2, ![m, n]⟩ : Shape).Reduces [1] ⟨1, ![m]⟩) (b : Fin m) (k : Fin n) : h.lift (ix1 b) k = ix2 b k := by
  funext a; apply Fin.ext
  match a with
  | ⟨0, _⟩ => rfl
  | ⟨1, _⟩ => rfl

/-- A row sum taken from zero is the sum of the row's entries. -/
theorem rowSum_apply (hr : (⟨2, ![m, n]⟩ : Shape).ReducesTo [1] ⟨1, ![m]⟩) (g : FVec Ideal ⟨2, ![m, n]⟩ .f32) (b : Fin m) :
    Host.reduceAdd g (constant S_ .f32 0x00000000#32 : FVec Ideal S_ .f32) hr h_S_ (ix1 b) = ∑ k : Fin n, g (ix2 b k) := by
  have h : (⟨2, ![m, n]⟩ : Shape).Reduces [1] ⟨1, ![m]⟩ := ⟨hr.1, Nat.one_pos, hr.2⟩
  rw [hostReduceAdd_apply, Ideal.hostReduceAdd_single hr h, constant_apply, Ideal.ofBits_zero_f32, zero_add]
  exact Finset.sum_congr rfl fun k _ => congrArg g (lift_row h b k)

/-- A row maximum taken from a constant is the fold of `max` from it over the row's entries. -/
theorem rowMax_apply (hr : (⟨2, ![m, n]⟩ : Shape).ReducesTo [1] ⟨1, ![m]⟩) (g : FVec Ideal ⟨2, ![m, n]⟩ .f32) (c : BitVec 32) (b : Fin m) :
    Host.reduce FloatOps.maximumf g (constant S_ .f32 c : FVec Ideal S_ .f32) hr h_S_ (ix1 b)
      = (Finset.univ : Finset (Fin n)).fold max (Ideal.ofBits .f32 c) (fun k => g (ix2 b k)) := by
  have h : (⟨2, ![m, n]⟩ : Shape).Reduces [1] ⟨1, ![m]⟩ := ⟨hr.1, Nat.one_pos, hr.2⟩
  rw [Host.reduce_eq_fold_single FloatOps.maximumf g _ hr h h_S_ (ix1 b), constant_apply,
    show (g ∘ h.lift (ix1 b)) = fun k : Fin n => g (ix2 b k) from funext fun k => congrArg g (lift_row h b k)]
  rfl

/-- An axis is broadcast exactly when its extent is one, where its only coordinate is zero. -/
theorem val_bcast {k : Nat} (b : Fin k) : b.val = if k = 1 then 0 else b.val := by
  have := b.isLt; split <;> omega

/-- Row values spread along the columns read the row's value. -/
theorem rowcast_apply {α : Type} (h1 : (⟨1, ![m]⟩ : Shape).BroadcastsInDim ⟨2, ![m, 1]⟩ ![0])
    (h2 : (⟨2, ![m, 1]⟩ : Shape).BroadcastsInDim ⟨2, ![m, n]⟩ ![0, 1]) (v : (⟨1, ![m]⟩ : Shape).Idx → α) (b : Fin m) (t : Fin n) :
    broadcastInDim ⟨2, ![m, n]⟩ ![0, 1] h2 (broadcastInDim ⟨2, ![m, 1]⟩ ![0] h1 v) (ix2 b t) = v (ix1 b) := by
  rw [broadcastInDim_apply _ h2 _ (ix2 b t) (ix2 b (0 : Fin 1)) (fun a => match a with | ⟨0, _⟩ => val_bcast b | ⟨1, _⟩ => rfl),
    broadcastInDim_apply _ h1 _ (ix2 b (0 : Fin 1)) (ix1 b) (fun a => match a with | ⟨0, _⟩ => val_bcast b)]

/-- Column values repeated down the rows read the column's value. -/
theorem colcast_apply {α : Type} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α) (b : Fin m) (t : Fin n) :
    broadcastInDim ⟨2, ![m, n]⟩ ![0, 1] h2 (broadcastInDim ⟨2, ![1, n]⟩ ![1] h1 v) (ix2 b t) = v (ix1 t) := by
  rw [broadcastInDim_apply _ h2 _ (ix2 b t) (ix2 (0 : Fin 1) t) (fun a => match a with | ⟨0, _⟩ => rfl | ⟨1, _⟩ => val_bcast t),
    broadcastInDim_apply _ h1 _ (ix2 (0 : Fin 1) t) (ix1 t) (fun a => match a with | ⟨0, _⟩ => val_bcast t)]

/-- The exponential of an array read at an index. -/
theorem hostExp_apply {s : Shape} {φ : FTy} (a : FVec Ideal s φ) (i : s.Idx) : Host.exp a i = Ideal.exp (a i) := rfl

/-- A plain matrix product read at an entry is the sum over the contracted coordinate. -/
theorem dot_apply {k : Nat} (d : DotDims ⟨2, ![m, k]⟩ ⟨2, ![k, n]⟩ ⟨2, ![m, n]⟩) (hd : d = DotDims.plain m k n)
    (A : FVec Ideal ⟨2, ![m, k]⟩ .f32) (B : FVec Ideal ⟨2, ![k, n]⟩ .f32) (a : Fin m) (b : Fin n) :
    Host.dotGeneral d none A B (ix2 a b) = ∑ c : Fin k, A (ix2 a c) * B (ix2 c b) := by
  subst hd; exact StackMember.dotGeneral_plain_apply none A B a b

section Softmax

variable (h0 : S_.BroadcastsInDim ⟨1, ![m]⟩ ![]) (h1 : (⟨1, ![m]⟩ : Shape).BroadcastsInDim ⟨2, ![m, 1]⟩ ![0])
  (h2 : (⟨2, ![m, 1]⟩ : Shape).BroadcastsInDim ⟨2, ![m, n]⟩ ![0, 1]) (hr : (⟨2, ![m, n]⟩ : Shape).ReducesTo [1] ⟨1, ![m]⟩)

/-- The exponentials of the entries less their row's maximum, the maximum taken from the bottom element twice. -/
def rowEx (x : FVec Ideal ⟨2, ![m, n]⟩ .f32) : FVec Ideal ⟨2, ![m, n]⟩ .f32 :=
  Host.exp (subf x (broadcastInDim ⟨2, ![m, n]⟩ ![0, 1] h2 (broadcastInDim ⟨2, ![m, 1]⟩ ![0] h1
    (maximumf (broadcastInDim ⟨1, ![m]⟩ ![] h0 (constant S_ .f32 0xFF800000#32))
      (Host.reduce FloatOps.maximumf x (constant S_ .f32 0xFF800000#32) hr h_S_)))))

/-- The row softmax: the exponentials over their row sums. -/
def softmaxS (x : FVec Ideal ⟨2, ![m, n]⟩ .f32) : FVec Ideal ⟨2, ![m, n]⟩ .f32 :=
  Host.divf (rowEx h0 h1 h2 hr x) (broadcastInDim ⟨2, ![m, n]⟩ ![0, 1] h2 (broadcastInDim ⟨2, ![m, 1]⟩ ![0] h1
    (Host.reduceAdd (rowEx h0 h1 h2 hr x) (constant S_ .f32 0x00000000#32) hr h_S_)))

theorem rowEx_apply (x : FVec Ideal ⟨2, ![m, n]⟩ .f32) (b : Fin m) (t : Fin n) :
    rowEx h0 h1 h2 hr x (ix2 b t)
      = Ideal.exp (x (ix2 b t) - max Cert.Spec.negInf ((Finset.univ : Finset (Fin n)).fold max Cert.Spec.negInf fun k => x (ix2 b k))) := by
  unfold rowEx
  rw [hostExp_apply, subf_apply, rowcast_apply, maximumf_apply, broadcastInDim_scalar_apply, constant_apply, rowMax_apply]

theorem softmaxS_apply (x : FVec Ideal ⟨2, ![m, n]⟩ .f32) (b : Fin m) (t : Fin n) :
    softmaxS h0 h1 h2 hr x (ix2 b t) = Cert.Spec.smax (fun k => x (ix2 b k)) t := by
  unfold softmaxS Cert.Spec.smax
  rw [hostDivf_apply, rowcast_apply, rowSum_apply]
  simp only [rowEx_apply]

end Softmax

end Cert.ReferenceIdeal.RefRun

end
-- ==== Proof.RefRunStages.lean ====
import proofs.«427360_j50826642981279_1_alg».proof.Proof.RefOps

noncomputable section

namespace Cert.ReferenceIdeal.RefRun

open Cert.ReferenceIdeal Cert.ReferenceIdeal.Gen Idealize.ShloMosaic

def rowIx : IVec S1024x1 32 :=
  select (cmpi .slt (broadcastInDim S1024x1 ![0] bcast_S1024_S1024x1_0 (iotaInDim S1024 32 0)) (broadcastInDim S1024x1 ![] bcast_S_S1024x1 (constantI S_ 32 0#32))) (addi (broadcastInDim S1024x1 ![0] bcast_S1024_S1024x1_0 (iotaInDim S1024 32 0)) (broadcastInDim S1024x1 ![] bcast_S_S1024x1 (constantI S_ 32 1024#32))) (broadcastInDim S1024x1 ![0] bcast_S1024_S1024x1_0 (iotaInDim S1024 32 0))

def idWrap (ids : IVec S1024x512 32) : IVec S1024x512 32 :=
  select (cmpi .slt ids (broadcastInDim S1024x512 ![] bcast_S_S1024x512 (constantI S_ 32 0#32))) (addi ids (broadcastInDim S1024x512 ![] bcast_S_S1024x512 (constantI S_ 32 50000#32))) ids

def scatIx (r : IVec S1024x1 32) (w : IVec S1024x512 32) : IVec S1024x512x2 32 :=
  concatenate S1024x512x2 2 [⟨S1024x512x1, broadcastInDim S1024x512x1 ![0, 1] bcast_S1024x512_S1024x512x1_0_1 (broadcastInDim S1024x512 ![0, 1] bcast_S1024x1_S1024x512_0_1 r)⟩, ⟨S1024x512x1, broadcastInDim S1024x512x1 ![0, 1] bcast_S1024x512_S1024x512x1_0_1 w⟩] concatenates_S1024x512x1_S1024x512x1_S1024x512x2_d2

def hist0 (ix : IVec S1024x512x2 32) : FVec Ideal S1024x50000 .f32 :=
  Host.scatterAdd scatter_S1024x50000_S1024x512x2_S1024x512_n_01_01_2 (broadcastInDim S1024x50000 ![] bcast_S_S1024x50000 (constant S_ .f32 0x00000000#32)) ix (broadcastInDim S1024x512 ![] bcast_S_S1024x512 (constant S_ .f32 0x3F800000#32))

def clrIx : IVec S2x1 32 :=
  broadcastInDim S2x1 ![0] bcast_S2_S2x1_0 (select (cmpi .slt (fun i => lit0 (S2.rowMajor i) : IVec S2 32) (broadcastInDim S2 ![] bcast_S_S2 (constantI S_ 32 0#32))) (addi (fun i => lit0 (S2.rowMajor i) : IVec S2 32) (broadcastInDim S2 ![] bcast_S_S2 (constantI S_ 32 50000#32))) (fun i => lit0 (S2.rowMajor i) : IVec S2 32))

def hist (h0 : FVec Ideal S1024x50000 .f32) : FVec Ideal S1024x50000 .f32 :=
  Host.scatter scatter_S1024x50000_S2x1_S1024x2_0_1_1_1 (fun _ b => b) h0 clrIx (broadcastInDim S1024x2 ![] bcast_S_S1024x2 (constant S_ .f32 0x00000000#32))

def tot (h : FVec Ideal S1024x50000 .f32) : FVec Ideal S1024 .f32 :=
  Host.reduceAdd h (constant S_ .f32 0x00000000#32) reducesTo_S1024x50000_S1024_d1 h_S_

def nrm (h : FVec Ideal S1024x50000 .f32) : FVec Ideal S1024x50000 .f32 :=
  Host.divf h (broadcastInDim S1024x50000 ![0, 1] bcast_S1024x1_S1024x50000_0_1 (broadcastInDim S1024x1 ![0] bcast_S1024_S1024x1_0 (tot h)))

def xin (h : FVec Ideal S1024x50000 .f32) (rho : FVec Ideal S50000x300 .f32) : FVec Ideal S1024x300 .f32 :=
  Host.dotGeneral dot_S1024x50000_S50000x300_S1024x300_1_0_0_1_n_n none (nrm h) rho

def hidS (x : FVec Ideal S1024x300 .f32) (W1 : FVec Ideal S300x800 .f32) (b1 : FVec Ideal S800 .f32) : FVec Ideal S1024x800 .f32 :=
  maximumf (addf (Host.dotGeneral dot_S1024x300_S300x800_S1024x800_1_0_0_1_n_n none x W1) (broadcastInDim S1024x800 ![0, 1] bcast_S1x800_S1024x800_0_1 (broadcastInDim S1x800 ![1] bcast_S800_S1x800_1 b1))) (broadcastInDim S1024x800 ![] bcast_S_S1024x800 (constant S_ .f32 0x00000000#32))

def lin (hd : FVec Ideal S1024x800 .f32) (W : FVec Ideal S800x50 .f32) (bb : FVec Ideal S50 .f32) : FVec Ideal S1024x50 .f32 :=
  addf (Host.dotGeneral dot_S1024x800_S800x50_S1024x50_1_0_0_1_n_n none hd W) (broadcastInDim S1024x50 ![0, 1] bcast_S1x50_S1024x50_0_1 (broadcastInDim S1x50 ![1] bcast_S50_S1x50_1 bb))

def klS (mu : FVec Ideal S1024x50 .f32) (lv : FVec Ideal S1024x50 .f32) : FVec Ideal S1024 .f32 :=
  mulf (broadcastInDim S1024 ![] bcast_S_S1024 (constant S_ .f32 0xBF000000#32)) (Host.reduceAdd (subf (subf (addf (broadcastInDim S1024x50 ![] bcast_S_S1024x50 (constant S_ .f32 0x3F800000#32)) lv) (mulf mu mu)) (Host.exp lv)) (constant S_ .f32 0x00000000#32) reducesTo_S1024x50_S1024_d1 h_S_)

def logitS (alpha : FVec Ideal S50x300 .f32) (rho : FVec Ideal S50000x300 .f32) : FVec Ideal S50x50000 .f32 :=
  Host.dotGeneral dot_S50x300_S50000x300_S50x50000_1_1_0_0_n_n none alpha rho

/-- The topic proportions: the softmax of the means along the topics. -/
def thS (mu : FVec Ideal S1024x50 .f32) : FVec Ideal S1024x50 .f32 :=
  softmaxS bcast_S_S1024 bcast_S1024_S1024x1_0 bcast_S1024x1_S1024x50_0_1 reducesTo_S1024x50_S1024_d1 mu

/-- The topic-word distribution: the softmax of the logits along the vocabulary. -/
def betaS (l : FVec Ideal S50x50000 .f32) : FVec Ideal S50x50000 .f32 :=
  softmaxS bcast_S_S50 bcast_S50_S50x1_0 bcast_S50x1_S50x50000_0_1 reducesTo_S50x50000_S50_d1 l

def llS (th : FVec Ideal S1024x50 .f32) (beta : FVec Ideal S50x50000 .f32) : FVec Ideal S1024x50000 .f32 :=
  Host.log (addf (Host.dotGeneral dot_S1024x50_S50x50000_S1024x50000_1_0_0_1_n_n none th beta) (broadcastInDim S1024x50000 ![] bcast_S_S1024x50000 (constant S_ .f32 0x3727C5AC#32)))

def reconS (th : FVec Ideal S1024x50 .f32) (beta : FVec Ideal S50x50000 .f32) (h : FVec Ideal S1024x50000 .f32) : FVec Ideal S1024 .f32 :=
  Host.negf (Host.reduceAdd (mulf (llS th beta) h) (constant S_ .f32 0x00000000#32) reducesTo_S1024x50000_S1024_d1 h_S_)

/-- The mean of the 1024 rows' values: their sum from zero over the constant 1024. -/
def meanS (g : FVec Ideal S1024 .f32) : FVec Ideal S_ .f32 :=
  Host.divf (Host.reduceAdd g (constant S_ .f32 0x00000000#32) reducesTo_S1024_S_d0 h_S_) (constant S_ .f32 0x44800000#32)

def lossS (rc : FVec Ideal S1024 .f32) (kl : FVec Ideal S1024 .f32) : FVec Ideal S_ .f32 := addf (meanS rc) (meanS kl)

def histS (ids : IVec S1024x512 32) : FVec Ideal S1024x50000 .f32 := hist (hist0 (scatIx rowIx (idWrap ids)))

def muS (ids : IVec S1024x512 32) (rho : FVec Ideal S50000x300 .f32) (W1 : FVec Ideal S300x800 .f32) (b1 : FVec Ideal S800 .f32)
    (Wmu : FVec Ideal S800x50 .f32) (bmu : FVec Ideal S50 .f32) : FVec Ideal S1024x50 .f32 :=
  lin (hidS (xin (histS ids) rho) W1 b1) Wmu bmu

def thetaS (ids : IVec S1024x512 32) (rho : FVec Ideal S50000x300 .f32) (W1 : FVec Ideal S300x800 .f32) (b1 : FVec Ideal S800 .f32)
    (Wmu : FVec Ideal S800x50 .f32) (bmu : FVec Ideal S50 .f32) : FVec Ideal S1024x50 .f32 :=
  thS (muS ids rho W1 b1 Wmu bmu)

def lossTotS (ids : IVec S1024x512 32) (rho : FVec Ideal S50000x300 .f32) (alpha : FVec Ideal S50x300 .f32)
    (W1 : FVec Ideal S300x800 .f32) (b1 : FVec Ideal S800 .f32) (Wmu : FVec Ideal S800x50 .f32) (bmu : FVec Ideal S50 .f32)
    (Wlv : FVec Ideal S800x50 .f32) (blv : FVec Ideal S50 .f32) : FVec Ideal S_ .f32 :=
  lossS (reconS (thetaS ids rho W1 b1 Wmu bmu) (betaS (logitS alpha rho)) (histS ids))
    (klS (muS ids rho W1 b1 Wmu bmu) (muS ids rho W1 b1 Wlv blv))

end Cert.ReferenceIdeal.RefRun

end
-- ==== Proof.RefRun.lean ====
import proofs.«427360_j50826642981279_1_alg».proof.Proof.RefRunStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ nullary main_c (fun i => lit0 (S2.rowMajor i)),
    nullary main_cst (constant S_ .f32 0x00000000#32),
    unary main_cst main_v0 (broadcastInDim S1024x50000 ![] bcast_S_S1024x50000),
    nullary main_v1 (iotaInDim S1024 32 0),
    unary main_v1 main_v2 (broadcastInDim S1024x1 ![0] bcast_S1024_S1024x1_0),
    nullary main_c_0 (constantI S_ 32 0#32),
    unary main_c_0 main_v3 (broadcastInDim S1024x1 ![] bcast_S_S1024x1),
    binary main_v2 main_v3 main_v4 (cmpi .slt),
    nullary main_c_1 (constantI S_ 32 1024#32),
    unary main_c_1 main_v5 (broadcastInDim S1024x1 ![] bcast_S_S1024x1),
    binary main_v2 main_v5 main_v6 addi,
    ternary main_v4 main_v6 main_v2 main_v7 select,
    nullary main_c_2 (constantI S_ 32 0#32),
    unary main_c_2 main_v8 (broadcastInDim S1024x512 ![] bcast_S_S1024x512),
    binary main_arg0 main_v8 main_v9 (cmpi .slt),
    nullary main_c_3 (constantI S_ 32 50000#32),
    unary main_c_3 main_v10 (broadcastInDim S1024x512 ![] bcast_S_S1024x512),
    binary main_arg0 main_v10 main_v11 addi,
    ternary main_v9 main_v11 main_arg0 main_v12 select,
    unary main_v7 main_v13 (broadcastInDim S1024x512 ![0, 1] bcast_S1024x1_S1024x512_0_1),
    unary main_v13 main_v14 (broadcastInDim S1024x512x1 ![0, 1] bcast_S1024x512_S1024x512x1_0_1),
    unary main_v12 main_v15 (broadcastInDim S1024x512x1 ![0, 1] bcast_S1024x512_S1024x512x1_0_1),
    binary main_v14 main_v15 main_v16 (fun a b => concatenate S1024x512x2 2 [⟨S1024x512x1, a⟩, ⟨S1024x512x1, b⟩] concatenates_S1024x512x1_S1024x512x1_S1024x512x2_d2),
    nullary main_cst_4 (constant S_ .f32 0x3F800000#32),
    unary main_cst_4 main_v17 (broadcastInDim S1024x512 ![] bcast_S_S1024x512),
    ternary main_v0 main_v16 main_v17 main_v18 (fun x i u => Host.scatterAdd scatter_S1024x50000_S1024x512x2_S1024x512_n_01_01_2 x i u),
    nullary main_c_5 (constantI S_ 32 0#32),
    unary main_c_5 main_v19 (broadcastInDim S2 ![] bcast_S_S2),
    binary main_c main_v19 main_v20 (cmpi .slt),
    nullary main_c_6 (constantI S_ 32 50000#32),
    unary main_c_6 main_v21 (broadcastInDim S2 ![] bcast_S_S2),
    binary main_c main_v21 main_v22 addi,
    ternary main_v20 main_v22 main_c main_v23 select,
    unary main_v23 main_v24 (broadcastInDim S2x1 ![0] bcast_S2_S2x1_0),
    nullary main_cst_7 (constant S_ .f32 0x00000000#32),
    unary main_cst_7 main_v25 (broadcastInDim S1024x2 ![] bcast_S_S1024x2),
    ternary main_v18 main_v24 main_v25 main_v26 (fun x i u => Host.scatter scatter_S1024x50000_S2x1_S1024x2_0_1_1_1 (fun _ b => b) x i u),
    nullary main_cst_8 (constant S_ .f32 0x00000000#32),
    binary main_v26 main_cst_8 main_v27 (fun x v => Host.reduceAdd x v reducesTo_S1024x50000_S1024_d1 h_S_),
    unary main_v27 main_v28 (broadcastInDim S1024x1 ![0] bcast_S1024_S1024x1_0),
    unary main_v28 main_v29 (broadcastInDim S1024x50000 ![0, 1] bcast_S1024x1_S1024x50000_0_1),
    binary main_v26 main_v29 main_v30 Host.divf,
    binary main_v30 main_arg1 main_v31 (fun l r => Host.dotGeneral dot_S1024x50000_S50000x300_S1024x300_1_0_0_1_n_n none l r),
    binary main_v31 main_arg3 main_v32 (fun l r => Host.dotGeneral dot_S1024x300_S300x800_S1024x800_1_0_0_1_n_n none l r),
    unary main_arg4 main_v33 (broadcastInDim S1x800 ![1] bcast_S800_S1x800_1),
    unary main_v33 main_v34 (broadcastInDim S1024x800 ![0, 1] bcast_S1x800_S1024x800_0_1),
    binary main_v32 main_v34 main_v35 addf,
    nullary main_call0_cst (constant S_ .f32 0x00000000#32),
    unary main_call0_cst main_call0_v0 (broadcastInDim S1024x800 ![] bcast_S_S1024x800),
    binary main_v35 main_call0_v0 main_v36 maximumf,
    binary main_v36 main_arg5 main_v37 (fun l r => Host.dotGeneral dot_S1024x800_S800x50_S1024x50_1_0_0_1_n_n none l r),
    unary main_arg6 main_v38 (broadcastInDim S1x50 ![1] bcast_S50_S1x50_1),
    unary main_v38 main_v39 (broadcastInDim S1024x50 ![0, 1] bcast_S1x50_S1024x50_0_1),
    binary main_v37 main_v39 main_v40 addf,
    binary main_v36 main_arg7 main_v41 (fun l r => Host.dotGeneral dot_S1024x800_S800x50_S1024x50_1_0_0_1_n_n none l r),
    unary main_arg8 main_v42 (broadcastInDim S1x50 ![1] bcast_S50_S1x50_1),
    unary main_v42 main_v43 (broadcastInDim S1024x50 ![0, 1] bcast_S1x50_S1024x50_0_1),
    binary main_v41 main_v43 main_v44 addf,
    nullary main_cst_9 (constant S_ .f32 0x3F800000#32),
    unary main_cst_9 main_v45 (broadcastInDim S1024x50 ![] bcast_S_S1024x50),
    binary main_v45 main_v44 main_v46 addf,
    binary main_v40 main_v40 main_v47 mulf ]

abbrev ops1 : List (HloOp τ sig (Elt F)) :=
  [ binary main_v46 main_v47 main_v48 subf,
    unary main_v44 main_v49 Host.exp,
    binary main_v48 main_v49 main_v50 subf,
    nullary main_cst_10 (constant S_ .f32 0x00000000#32),
    binary main_v50 main_cst_10 main_v51 (fun x v => Host.reduceAdd x v reducesTo_S1024x50_S1024_d1 h_S_),
    nullary main_cst_11 (constant S_ .f32 0xBF000000#32),
    unary main_cst_11 main_v52 (broadcastInDim S1024 ![] bcast_S_S1024),
    binary main_v52 main_v51 main_v53 mulf,
    nullary main_cst_12 (constant S_ .f32 0xFF800000#32),
    binary main_v40 main_cst_12 main_v54 (fun x v => Host.reduce FloatOps.maximumf x v reducesTo_S1024x50_S1024_d1 h_S_),
    nullary main_cst_13 (constant S_ .f32 0xFF800000#32),
    unary main_cst_13 main_v55 (broadcastInDim S1024 ![] bcast_S_S1024),
    binary main_v55 main_v54 main_v56 maximumf,
    unary main_v56 main_v57 (broadcastInDim S1024x1 ![0] bcast_S1024_S1024x1_0),
    unary main_v57 main_v58 (broadcastInDim S1024x50 ![0, 1] bcast_S1024x1_S1024x50_0_1),
    binary main_v40 main_v58 main_v59 subf,
    unary main_v59 main_v60 Host.exp,
    nullary main_cst_14 (constant S_ .f32 0x00000000#32),
    binary main_v60 main_cst_14 main_v61 (fun x v => Host.reduceAdd x v reducesTo_S1024x50_S1024_d1 h_S_),
    unary main_v61 main_v62 (broadcastInDim S1024x1 ![0] bcast_S1024_S1024x1_0),
    unary main_v62 main_v63 (broadcastInDim S1024x50 ![0, 1] bcast_S1024x1_S1024x50_0_1),
    binary main_v60 main_v63 main_v64 Host.divf,
    binary main_arg2 main_arg1 main_v65 (fun l r => Host.dotGeneral dot_S50x300_S50000x300_S50x50000_1_1_0_0_n_n none l r),
    nullary main_cst_15 (constant S_ .f32 0xFF800000#32),
    binary main_v65 main_cst_15 main_v66 (fun x v => Host.reduce FloatOps.maximumf x v reducesTo_S50x50000_S50_d1 h_S_),
    nullary main_cst_16 (constant S_ .f32 0xFF800000#32),
    unary main_cst_16 main_v67 (broadcastInDim S50 ![] bcast_S_S50),
    binary main_v67 main_v66 main_v68 maximumf,
    unary main_v68 main_v69 (broadcastInDim S50x1 ![0] bcast_S50_S50x1_0),
    unary main_v69 main_v70 (broadcastInDim S50x50000 ![0, 1] bcast_S50x1_S50x50000_0_1),
    binary main_v65 main_v70 main_v71 subf,
    unary main_v71 main_v72 Host.exp,
    nullary main_cst_17 (constant S_ .f32 0x00000000#32),
    binary main_v72 main_cst_17 main_v73 (fun x v => Host.reduceAdd x v reducesTo_S50x50000_S50_d1 h_S_),
    unary main_v73 main_v74 (broadcastInDim S50x1 ![0] bcast_S50_S50x1_0),
    unary main_v74 main_v75 (broadcastInDim S50x50000 ![0, 1] bcast_S50x1_S50x50000_0_1),
    binary main_v72 main_v75 main_v76 Host.divf,
    binary main_v64 main_v76 main_v77 (fun l r => Host.dotGeneral dot_S1024x50_S50x50000_S1024x50000_1_0_0_1_n_n none l r),
    nullary main_cst_18 (constant S_ .f32 0x3727C5AC#32),
    unary main_cst_18 main_v78 (broadcastInDim S1024x50000 ![] bcast_S_S1024x50000),
    binary main_v77 main_v78 main_v79 addf,
    unary main_v79 main_v80 Host.log,
    binary main_v80 main_v26 main_v81 mulf,
    nullary main_cst_19 (constant S_ .f32 0x00000000#32),
    binary main_v81 main_cst_19 main_v82 (fun x v => Host.reduceAdd x v reducesTo_S1024x50000_S1024_d1 h_S_),
    unary main_v82 main_v83 Host.negf,
    nullary main_cst_20 (constant S_ .f32 0x00000000#32),
    binary main_v83 main_cst_20 main_v84 (fun x v => Host.reduceAdd x v reducesTo_S1024_S_d0 h_S_),
    nullary main_cst_21 (constant S_ .f32 0x44800000#32),
    binary main_v84 main_cst_21 main_v85 Host.divf,
    nullary main_cst_22 (constant S_ .f32 0x00000000#32),
    binary main_v53 main_cst_22 main_v86 (fun x v => Host.reduceAdd x v reducesTo_S1024_S_d0 h_S_),
    nullary main_cst_23 (constant S_ .f32 0x44800000#32),
    binary main_v86 main_cst_23 main_v87 Host.divf,
    binary main_v85 main_v87 main_v88 addf ]

abbrev ops : List (HloOp τ sig (Elt F)) := ops0 ++ ops1

set_option maxRecDepth 8192 in
theorem part0_eq (c : Dev nD) : main_part0 (F := F) c = seq ops0 := rfl

set_option maxRecDepth 8192 in
theorem part1_eq (c : Dev nD) : main_part1 (F := F) c = seq ops1 := rfl

theorem main_eq (c : Dev nD) : main (F := F) c = seq ops := by
  show (main_part0 (F := F) c >>= fun _ => main_part1 (F := F) c) = seq (ops0 ++ ops1)
  rw [seq_append, part0_eq, part1_eq]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [ops, ops0, ops1, List.cons_append, List.nil_append, List.Forall, nullary_bufs_sub, unary_bufs_sub, binary_bufs_sub, ternary_bufs_sub, and_self]

set_option maxRecDepth 8192 in
set_option maxHeartbeats 4000000 in
theorem v64_eq (V : Valuation τ sig (Elt Ideal)) :
    after (ops (F := Ideal)) V (Proc.devRef .tc main_v64)
      = thetaS (V (Proc.devRef .tc main_arg0)) (V (Proc.devRef .tc main_arg1)) (V (Proc.devRef .tc main_arg3)) (V (Proc.devRef .tc main_arg4)) (V (Proc.devRef .tc main_arg5)) (V (Proc.devRef .tc main_arg6)) := by
  show after (ops0 (F := Ideal) ++ ops1 (F := Ideal)) V _ = _
  simp only [List.cons_append, List.nil_append]
  after_results_simp
  rfl

set_option maxRecDepth 8192 in
set_option maxHeartbeats 8000000 in
theorem v88_eq (V : Valuation τ sig (Elt Ideal)) :
    after (ops (F := Ideal)) V (Proc.devRef .tc main_v88)
      = lossTotS (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  show after (ops0 (F := Ideal) ++ ops1 (F := Ideal)) V _ = _
  simp only [List.cons_append, List.nil_append]
  after_results_simp
  rfl

set_option maxRecDepth 8192 in
set_option maxHeartbeats 4000000 in
theorem args_eq (V : Valuation τ sig (Elt Ideal)) (r : Ref sig .tc)
    (hr : r ∈ [main_arg0, main_arg1, main_arg2, main_arg3, main_arg4, main_arg5, main_arg6, main_arg7, main_arg8]) :
    after (ops (F := Ideal)) V (Proc.devRef .tc r) = V (Proc.devRef .tc r) := by
  simp only [List.mem_cons, List.not_mem_nil, or_false] at hr
  rcases hr with rfl | rfl | rfl | rfl | rfl | rfl | rfl | rfl | rfl <;>
  · show after (ops0 (F := Ideal) ++ ops1 (F := Ideal)) V _ = _
    simp only [List.cons_append, List.nil_append]
    after_results_simp

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v64) = thetaS (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v88) = lossTotS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
    :=
  (θ_run defs _ _).mono (fun _ h c =>
      ⟨(h c main_v64).trans (v64_eq _), (h c main_v88).trans (v88_eq _),
        (h c main_arg0).trans (args_eq _ _ (by decide)), (h c main_arg1).trans (args_eq _ _ (by decide)), (h c main_arg2).trans (args_eq _ _ (by decide)),
        (h c main_arg3).trans (args_eq _ _ (by decide)), (h c main_arg4).trans (args_eq _ _ (by decide)), (h c main_arg5).trans (args_eq _ _ (by decide)),
        (h c main_arg6).trans (args_eq _ _ (by decide)), (h c main_arg7).trans (args_eq _ _ (by decide)), (h c main_arg8).trans (args_eq _ _ (by decide))⟩)
    (run_seq scopedRefs_eq scopedSems_eq defs main (fun _ => ops) main_eq (fun _ => ops_sub) m ρ)

end Cert.ReferenceIdeal.RefRun

end
-- ==== Proof.RefReadHisto.lean ====
import proofs.«427360_j50826642981279_1_alg».proof.Proof.RefRunStages
import proofs.«427360_j50826642981279_1_alg».proof.Proof.LibHisto
import Idealize.ShloMosaic.Lib.StableHlo.Predicate

noncomputable section

namespace Cert.ReferenceIdeal.RefRun

open Cert.ReferenceIdeal Cert.ReferenceIdeal.Gen Idealize.ShloMosaic Idealize.ShloMosaic.ValueIdx
open Idealize.ShloMosaic.StableHlo.Predicate (slt_iff_toNat toInt_ofNat_small toInt_eq_toNat_of_lt)
open Cert.Spec (cur1 cur2)

/-- A word that is not negative is kept by the wrap of negative indices. -/
theorem wrap_apply {s : Shape} (h0 : S_.BroadcastsInDim s ![]) (x y : IVec s 32) (i : s.Idx) (hx : (x i).toNat < 2 ^ 31) :
    select (cmpi .slt x (broadcastInDim s ![] h0 (constantI S_ 32 0#32))) y x i = x i := by
  have hc : cmpi .slt x (broadcastInDim s ![] h0 (constantI S_ 32 0#32)) i = 0#1 := by
    show IntOp.cmpi .slt _ _ = 0#1
    rw [broadcastInDim_scalar_apply]
    apply eq_zero_of_ne_one
    rw [slt_iff_toNat hx (by decide)]
    exact Nat.not_lt_zero _
  rw [select_apply, hc, select_zero]

/-- The row index column at row b is the word of b. -/
theorem rowIx_apply (b : Fin 1024) (z : Fin 1) : rowIx (ix2 b z) = BitVec.ofNat 32 b.val := by
  have hv : (broadcastInDim S1024x1 ![0] bcast_S1024_S1024x1_0 (iotaInDim S1024 32 0 : IVec S1024 32) : IVec S1024x1 32) (ix2 b z)
      = BitVec.ofNat 32 b.val := by
    rw [broadcastInDim_apply _ _ _ _ (ix1 b) (by intro a; fin_cases a; rfl)]
    rfl
  unfold rowIx
  rw [wrap_apply, hv]
  rw [hv, BitVec.toNat_ofNat]; have := b.isLt; omega

/-- An id in range is kept as it is. -/
theorem idWrap_apply (ids : IVec S1024x512 32) (b : Fin 1024) (s : Fin 512) (h : (ids (ix2 b s)).toNat < 50000) :
    idWrap ids (ix2 b s) = ids (ix2 b s) :=
  wrap_apply _ _ _ _ (by omega)

theorem scatIx_apply_row (r : IVec S1024x1 32) (w : IVec S1024x512 32) (b : Fin 1024) (s : Fin 512) :
    scatIx r w (ix3 b s (0 : Fin 2)) = r (ix2 b 0) := by
  unfold scatIx
  rw [concatenate_pair_apply_left (t := S1024x512x2) (s₁ := S1024x512x1) (s₂ := S1024x512x1) (2 : Fin 3) _ _ _ (ix3 b s (0 : Fin 2)) rfl (ix3 b s (0 : Fin 1)) (by intro a; fin_cases a <;> rfl)]
  rw [broadcastInDim_apply _ _ _ _ (ix2 b s) (by intro a; fin_cases a <;> rfl)]
  rw [broadcastInDim_apply _ _ _ _ (ix2 b (0 : Fin 1)) (by intro a; fin_cases a <;> rfl)]

theorem scatIx_apply_col (r : IVec S1024x1 32) (w : IVec S1024x512 32) (b : Fin 1024) (s : Fin 512) :
    scatIx r w (ix3 b s (1 : Fin 2)) = w (ix2 b s) := by
  unfold scatIx
  rw [concatenate_pair_apply_right (t := S1024x512x2) (s₁ := S1024x512x1) (s₂ := S1024x512x1) (2 : Fin 3) _ _ _ (ix3 b s (1 : Fin 2)) rfl rfl (ix3 b s (0 : Fin 1))
    (by intro a ha; fin_cases a <;> first | rfl | exact absurd rfl ha) (by rfl)]
  rw [broadcastInDim_apply _ _ _ _ (ix2 b s) (by intro a; fin_cases a <;> rfl)]

theorem clrIx_apply : clrIx (ix2 (0 : Fin 2) (0 : Fin 1)) = 1#32 ∧ clrIx (ix2 (1 : Fin 2) (0 : Fin 1)) = 2#32 := by
  constructor <;> rfl

theorem histS_apply (ids : IVec S1024x512 32) (hids : Cert.Spec.IdsOk (cur2 ids)) (b : Fin 1024) (v : Fin 50000) :
    histS ids (ix2 b v) = Cert.Spec.histo 50000 (cur2 ids) b v := by
  unfold histS hist
  rw [show scatter_S1024x50000_S2x1_S1024x2_0_1_1_1
      = (⟨[0], [1], [1], 1, scatter_S1024x50000_S2x1_S1024x2_0_1_1_1_wf⟩ : ScatterDims S1024x50000 S2x1 S1024x2) from rfl]
  rw [Cert.LibHisto.scatterSet_const_apply (N := 50000) _ _ _ _ (Ideal.ofBits .f32 0x00000000#32)
    (fun j => by rw [broadcastInDim_scalar_apply]; rfl)]
  rw [clrIx_apply.1, clrIx_apply.2]
  unfold Cert.Spec.histo
  have h12 : ((1#32 : BitVec 32).toInt = (v.val : Int) ∨ (2#32 : BitVec 32).toInt = (v.val : Int)) ↔ (v.val = 1 ∨ v.val = 2) := by
    have h1 : (1#32 : BitVec 32).toInt = 1 := by decide
    have h2 : (2#32 : BitVec 32).toInt = 2 := by decide
    rw [h1, h2]; omega
  by_cases hv : v.val = 1 ∨ v.val = 2
  · rw [if_pos (h12.2 hv), if_pos hv]; exact Ideal.ofBits_zero_f32
  · rw [if_neg (fun h => hv (h12.1 h)), if_neg hv]
    unfold hist0
    rw [show scatter_S1024x50000_S1024x512x2_S1024x512_n_01_01_2
        = (⟨[], [0, 1], [0, 1], 2, scatter_S1024x50000_S1024x512x2_S1024x512_n_01_01_2_wf⟩ : ScatterDims S1024x50000 S1024x512x2 S1024x512) from rfl]
    rw [Cert.LibHisto.scatterAdd_apply (N := 50000)]
    rw [broadcastInDim_scalar_apply, constant_apply, Ideal.ofBits_zero_f32, zero_add]
    rw [Finset.sum_eq_single b]
    · refine Finset.sum_congr rfl fun s _ => ?_
      rw [scatIx_apply_row, scatIx_apply_col, rowIx_apply, idWrap_apply _ _ _ (hids b s), broadcastInDim_scalar_apply, constant_apply,
        Ideal.ofBits_one_f32]
      have hb : (BitVec.ofNat 32 b.val).toInt = (b.val : Int) := toInt_ofNat_small _ (by have := b.isLt; omega)
      have hi : (ids (ix2 b s)).toInt = ((ids (ix2 b s)).toNat : Int) :=
        toInt_eq_toNat_of_lt (by have : (ids (ix2 b s)).toNat < 50000 := hids b s; omega)
      rw [hb, hi]
      by_cases hc : (ids (ix2 b s)).toNat = v.val
      · rw [if_pos ⟨rfl, by exact_mod_cast hc⟩, if_pos hc]
      · rw [if_neg (fun h => hc (by exact_mod_cast h.2)), if_neg hc]
    · intro b' _ hne
      refine Finset.sum_eq_zero fun s _ => ?_
      rw [scatIx_apply_row, rowIx_apply, if_neg]
      intro h
      rw [toInt_ofNat_small _ (by have := b'.isLt; omega)] at h
      exact hne (Fin.ext (by exact_mod_cast h.1))
    · intro h; exact absurd (Finset.mem_univ b) h

/-- The encoder input at (b, e): the counts over their row total, times the table. -/
theorem xin_apply (h : FVec Ideal S1024x50000 .f32) (rho : FVec Ideal S50000x300 .f32) (b : Fin 1024) (e : Fin 300) :
    xin h rho (ix2 b e) = ∑ v : Fin 50000, Ideal.div (h (ix2 b v)) (∑ v' : Fin 50000, h (ix2 b v')) * rho (ix2 v e) := by
  unfold xin nrm tot
  rw [dot_apply dot_S1024x50000_S50000x300_S1024x300_1_0_0_1_n_n rfl]
  refine Finset.sum_congr rfl fun v _ => ?_
  rw [hostDivf_apply, rowcast_apply, rowSum_apply]

/-- With the counts of the ids, the encoder input is the plain form's. -/
theorem xin_histS (ids : IVec S1024x512 32) (hids : Cert.Spec.IdsOk (cur2 ids)) (rho : FVec Ideal S50000x300 .f32) (b : Fin 1024) :
    (fun e => xin (histS ids) rho (ix2 b e)) = Cert.Spec.xR (cur2 ids) (cur2 rho) b := by
  funext e
  rw [xin_apply]
  unfold Cert.Spec.xR Cert.Spec.total
  simp only [histS_apply ids hids]

end Cert.ReferenceIdeal.RefRun

end
-- ==== Proof.RefReadEnc.lean ====
import proofs.«427360_j50826642981279_1_alg».proof.Proof.RefRunStages

noncomputable section

namespace Cert.ReferenceIdeal.RefRun

open Cert.ReferenceIdeal Cert.ReferenceIdeal.Gen Idealize.ShloMosaic Idealize.ShloMosaic.ValueIdx
open Cert.Spec (cur1 cur2)

variable (x : FVec Ideal S1024x300 .f32) (W1 : FVec Ideal S300x800 .f32) (b1 : FVec Ideal S800 .f32)
  (W Wlv : FVec Ideal S800x50 .f32) (bb blv : FVec Ideal S50 .f32) (b : Fin 1024) (t : Fin 50)

/-- An affine head at (b, t): the row of the hidden layer times the weight column, plus the bias. -/
theorem lin_apply (hd : FVec Ideal S1024x800 .f32) :
    lin hd W bb (ix2 b t) = (∑ n : Fin 800, hd (ix2 b n) * W (ix2 n t)) + bb (ix1 t) := by
  unfold lin
  rw [addf_apply, dot_apply dot_S1024x800_S800x50_S1024x50_1_0_0_1_n_n rfl, colcast_apply]

/-- The hidden layer at (b, n): the rectified affine map of row b of the encoder input. -/
theorem hidS_apply (n : Fin 800) : hidS x W1 b1 (ix2 b n) = Cert.Spec.hid (cur2 W1) (cur1 b1) (fun e => x (ix2 b e)) n := by
  unfold hidS Cert.Spec.hid
  rw [maximumf_apply, addf_apply, dot_apply dot_S1024x300_S300x800_S1024x800_1_0_0_1_n_n rfl, colcast_apply,
    broadcastInDim_scalar_apply, constant_apply, Ideal.ofBits_zero_f32]

/-- A head of the hidden layer at (b, t) is the head of row b of the encoder input. -/
theorem mu_of_x : lin (hidS x W1 b1) W bb (ix2 b t)
    = Cert.Spec.muOf (cur2 W1) (cur1 b1) (cur2 W) (cur1 bb) (fun e => x (ix2 b e)) t := by
  rw [lin_apply]
  unfold Cert.Spec.muOf
  simp only [hidS_apply]

/-- The topic proportions at (b, t) are the softmax of the means of row b of the encoder input. -/
theorem theta_of_x : thS (lin (hidS x W1 b1) W bb) (ix2 b t)
    = Cert.Spec.thetaOf (cur2 W1) (cur1 b1) (cur2 W) (cur1 bb) (fun e => x (ix2 b e)) t := by
  unfold thS
  rw [softmaxS_apply]
  exact congrArg (fun f => Cert.Spec.smax f t) (funext fun k => mu_of_x x W1 b1 W bb b k)

/-- The KL term of row b: minus one half of the sum over the topics of 1 + lv - mu * mu - exp lv. -/
theorem kl_of_x : klS (lin (hidS x W1 b1) W bb) (lin (hidS x W1 b1) Wlv blv) (ix1 b)
    = Cert.Spec.klOf (cur2 W1) (cur1 b1) (cur2 W) (cur1 bb) (cur2 Wlv) (cur1 blv) (fun e => x (ix2 b e)) := by
  unfold klS Cert.Spec.klOf
  rw [mulf_apply, broadcastInDim_scalar_apply, constant_apply, rowSum_apply]
  refine congrArg _ (Finset.sum_congr rfl fun k _ => ?_)
  rw [subf_apply, subf_apply, addf_apply, mulf_apply, hostExp_apply, broadcastInDim_scalar_apply, constant_apply, mu_of_x, mu_of_x]
  rfl

end Cert.ReferenceIdeal.RefRun

end
-- ==== Proof.RefReadDec.lean ====
import proofs.«427360_j50826642981279_1_alg».proof.Proof.RefRunStages

noncomputable section

namespace Cert.ReferenceIdeal.RefRun

open Cert.ReferenceIdeal Cert.ReferenceIdeal.Gen Idealize.ShloMosaic Idealize.ShloMosaic.ValueIdx
open Cert.Spec (cur1 cur2)
open scoped BigOperators

/-- The topic-word logit at (t, v): the inner product of topic t's row with word v's row. -/
theorem logitS_apply (alpha : FVec Ideal S50x300 .f32) (rho : FVec Ideal S50000x300 .f32) (t : Fin 50) (v : Fin 50000) :
    logitS alpha rho (ix2 t v) = ∑ e : Fin 300, alpha (ix2 t e) * rho (ix2 v e) := by
  unfold logitS
  simp only [Host.dotGeneral]
  rw [Ideal.dotGeneral_apply,
    ← Equiv.sum_comp (contrEquiv1 dot_S50x300_S50000x300_S50x50000_1_1_0_0_n_n 300 rfl rfl).symm]
  refine Finset.sum_congr rfl fun e _ => ?_
  have c2 := contrEquiv1_symm_val dot_S50x300_S50000x300_S50x50000_1_1_0_0_n_n 300 rfl rfl e
  have l2 : dot_S50x300_S50000x300_S50x50000_1_1_0_0_n_n.lhsIdx (ix2 t v)
      ((contrEquiv1 dot_S50x300_S50000x300_S50x50000_1_1_0_0_n_n 300 rfl rfl).symm e) = ix2 t e := by
    funext ax; apply Fin.ext
    match ax with
    | ⟨0, _⟩ => rfl
    | ⟨1, _⟩ => exact c2
  have r2 : dot_S50x300_S50000x300_S50x50000_1_1_0_0_n_n.rhsIdx (ix2 t v)
      ((contrEquiv1 dot_S50x300_S50000x300_S50x50000_1_1_0_0_n_n 300 rfl rfl).symm e) = ix2 v e := by
    funext ax; apply Fin.ext
    match ax with
    | ⟨0, _⟩ => rfl
    | ⟨1, _⟩ => exact c2
  rw [l2, r2]

/-- The topic-word distribution at (t, v): the softmax of row t of the logits. -/
theorem beta_apply (alpha : FVec Ideal S50x300 .f32) (rho : FVec Ideal S50000x300 .f32) (t : Fin 50) (v : Fin 50000) :
    betaS (logitS alpha rho) (ix2 t v) = Cert.Spec.betaR (cur2 alpha) (cur2 rho) t v := by
  unfold betaS Cert.Spec.betaR
  rw [softmaxS_apply]
  exact congrArg (fun f => Cert.Spec.smax f v) (funext fun v' => logitS_apply alpha rho t v')

/-- The log-likelihood of word v in row b under the mixture of the topics. -/
theorem llS_apply (th : FVec Ideal S1024x50 .f32) (beta : FVec Ideal S50x50000 .f32) (b : Fin 1024) (v : Fin 50000) :
    llS th beta (ix2 b v) = Ideal.log ((∑ t : Fin 50, th (ix2 b t) * beta (ix2 t v)) + Cert.Spec.eps) := by
  unfold llS
  show Ideal.log (_ + _) = _
  rw [dot_apply dot_S1024x50_S50x50000_S1024x50000_1_0_0_1_n_n rfl, broadcastInDim_scalar_apply]
  rfl

/-- The reconstruction term of row b: the negated sum over the words of the log-likelihood times the count. -/
theorem reconS_apply (th : FVec Ideal S1024x50 .f32) (beta : FVec Ideal S50x50000 .f32) (h : FVec Ideal S1024x50000 .f32) (b : Fin 1024) :
    reconS th beta h (ix1 b)
      = -(∑ v : Fin 50000, Ideal.log ((∑ t : Fin 50, th (ix2 b t) * beta (ix2 t v)) + Cert.Spec.eps) * h (ix2 b v)) := by
  unfold reconS
  show -(Host.reduceAdd (mulf (llS th beta) h) _ _ _ (ix1 b)) = _
  rw [rowSum_apply]
  exact congrArg Neg.neg (Finset.sum_congr rfl fun v _ => by rw [mulf_apply, llS_apply])

/-- A sum over a rank-1 index set is the sum over its coordinate. -/
theorem sum_idx1 {n : Nat} (f : (⟨1, ![n]⟩ : Shape).Idx → EReal) : ∑ i, f i = ∑ a : Fin n, f (ix1 a) :=
  Fintype.sum_equiv ⟨fun i => i 0, fun a => ix1 a, fun i => (eq_ix1 i).symm, fun _ => rfl⟩ _ _
    (fun i => congrArg f (eq_ix1 i))

theorem meanS_apply (g : FVec Ideal S1024 .f32) : meanS g ix0 = Ideal.div (∑ b : Fin 1024, g (ix1 b)) Cert.Spec.c1024 := by
  unfold meanS
  rw [hostDivf_apply, hostReduceAdd_apply, Ideal.hostReduceAdd_total _ (fun b => b.elim0), constant_apply, constant_apply,
    Ideal.ofBits_zero_f32, zero_add, sum_idx1]

theorem lossS_apply (rc kl : FVec Ideal S1024 .f32) : lossS rc kl ix0 = Cert.Spec.lossOf (cur1 rc) (cur1 kl) := by
  unfold lossS
  rw [addf_apply, meanS_apply, meanS_apply]
  rfl

end Cert.ReferenceIdeal.RefRun

end
-- ==== Proof.RefValue.lean ====
import proofs.«427360_j50826642981279_1_alg».proof.Proof.RefRun
import proofs.«427360_j50826642981279_1_alg».proof.Proof.RefReadHisto
import proofs.«427360_j50826642981279_1_alg».proof.Proof.RefReadEnc
import proofs.«427360_j50826642981279_1_alg».proof.Proof.RefReadDec
import proofs.«427360_j50826642981279_1_alg».proof.Proof.SpecOut

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RefRun
open Cert.Spec (cur1 cur2)

variable (ids : IVec S1024x512 32) (rho : FVec Ideal S50000x300 .f32) (alpha : FVec Ideal S50x300 .f32) (W1 : FVec Ideal S300x800 .f32)
  (b1 : FVec Ideal S800 .f32) (Wmu : FVec Ideal S800x50 .f32) (bmu : FVec Ideal S50 .f32) (Wlv : FVec Ideal S800x50 .f32) (blv : FVec Ideal S50 .f32)

/-- For ids in range the first result at (b, t) is the plain form of the topic proportions. -/
theorem thetaS_apply (hids : Cert.Spec.IdsOk (cur2 ids)) (b : Fin 1024) (t : Fin 50) :
    thetaS ids rho W1 b1 Wmu bmu (ix2 b t)
      = Cert.Spec.thetaRef (cur2 ids) (cur2 rho) (cur2 W1) (cur1 b1) (cur2 Wmu) (cur1 bmu) b t := by
  unfold thetaS muS Cert.Spec.thetaRef
  rw [theta_of_x, xin_histS ids hids]

/-- For ids in range the second result is the plain form of the loss. -/
theorem lossTotS_apply (hids : Cert.Spec.IdsOk (cur2 ids)) :
    lossTotS ids rho alpha W1 b1 Wmu bmu Wlv blv ix0
      = Cert.Spec.lossRef (cur2 ids) (cur2 rho) (cur2 alpha) (cur2 W1) (cur1 b1) (cur2 Wmu) (cur1 bmu) (cur2 Wlv) (cur1 blv) := by
  unfold lossTotS Cert.Spec.lossRef
  rw [lossS_apply]
  refine congrArg₂ Cert.Spec.lossOf (funext fun b => ?_) (funext fun b => ?_)
  · show reconS _ _ _ (ix1 b) = _
    rw [reconS_apply]
    unfold Cert.Spec.reconR
    simp only [thetaS_apply ids rho W1 b1 Wmu bmu hids, beta_apply, histS_apply ids hids, Cert.Spec.thetaRef]
  · show klS _ _ (ix1 b) = _
    unfold muS
    rw [kl_of_x, xin_histS ids hids]

theorem run_spec (m : (ℓ : Loc nD τ sig) → Buf (Elt Ideal) ℓ) (ρ : Dev nD → PrngReg)
    (hids : ∀ c : Dev nD, Cert.Spec.IdsOk (cur2 (m ((c.tc : Thread nD τ).loc main_arg0) : S1024x512.Idx → BitVec 32))) :
    θ_run (defs (F := Ideal)) (onTc (τ := τ) (main (F := Ideal))) ⟨m, fun _ => 0, ρ⟩ (fun r => ∀ c : Dev nD,
      (∀ (b : Fin 1024) (t : Fin 50), (r.2.mem ((c.tc : Thread nD τ).loc main_v64) : S1024x50.Idx → EReal) (ValueIdx.ix2 b t)
          = Cert.Spec.thetaRef
              (cur2 (m ((c.tc : Thread nD τ).loc main_arg0) : S1024x512.Idx → BitVec 32))
              (cur2 (m ((c.tc : Thread nD τ).loc main_arg1) : S50000x300.Idx → EReal))
              (cur2 (m ((c.tc : Thread nD τ).loc main_arg3) : S300x800.Idx → EReal))
              (cur1 (m ((c.tc : Thread nD τ).loc main_arg4) : S800.Idx → EReal))
              (cur2 (m ((c.tc : Thread nD τ).loc main_arg5) : S800x50.Idx → EReal))
              (cur1 (m ((c.tc : Thread nD τ).loc main_arg6) : S50.Idx → EReal)) b t)
      ∧ (r.2.mem ((c.tc : Thread nD τ).loc main_v88) : S_.Idx → EReal) ValueIdx.ix0
          = Cert.Spec.lossRef
              (cur2 (m ((c.tc : Thread nD τ).loc main_arg0) : S1024x512.Idx → BitVec 32))
              (cur2 (m ((c.tc : Thread nD τ).loc main_arg1) : S50000x300.Idx → EReal))
              (cur2 (m ((c.tc : Thread nD τ).loc main_arg2) : S50x300.Idx → EReal))
              (cur2 (m ((c.tc : Thread nD τ).loc main_arg3) : S300x800.Idx → EReal))
              (cur1 (m ((c.tc : Thread nD τ).loc main_arg4) : S800.Idx → EReal))
              (cur2 (m ((c.tc : Thread nD τ).loc main_arg5) : S800x50.Idx → EReal))
              (cur1 (m ((c.tc : Thread nD τ).loc main_arg6) : S50.Idx → EReal))
              (cur2 (m ((c.tc : Thread nD τ).loc main_arg7) : S800x50.Idx → EReal))
              (cur1 (m ((c.tc : Thread nD τ).loc main_arg8) : S50.Idx → EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
      obtain ⟨h64, h88, ha⟩ := h c
      refine ⟨fun b t => ?_, ?_, ha⟩
      · rw [h64]; exact thetaS_apply _ _ _ _ _ _ (hids c) b t
      · rw [h88]; exact lossTotS_apply _ _ _ _ _ _ _ _ _ (hids c))
    (RefRun.run m ρ)

end Cert.ReferenceIdeal.RefValue

end
-- ==== Proof.MathSums.lean ====
import proofs.«427360_j50826642981279_1_alg».proof.Proof.Spec
import Mathlib.Algebra.BigOperators.Fin
import Mathlib.Logic.Equiv.Fin.Basic
import Mathlib.Data.Fintype.BigOperators

noncomputable section

namespace Cert.Spec.Sums

/-- The reals embed additively, so the embedding passes through a finite sum. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- Split M = N + P: the first block is the sum of `f`, the second a sum of zeros. -/
theorem sum_pad {N M : Nat} (h : N ≤ M) (f : Fin N → EReal) (g : Fin M → EReal)
    (h1 : ∀ (v : Fin M) (hv : v.val < N), g v = f ⟨v.val, hv⟩) (h2 : ∀ v : Fin M, N ≤ v.val → g v = 0) :
    ∑ v : Fin M, g v = ∑ v : Fin N, f v := by
  obtain ⟨P, rfl⟩ := Nat.exists_eq_add_of_le h
  rw [Fin.sum_univ_add, Finset.sum_eq_zero fun j _ => h2 (Fin.natAdd N j) (by simp), add_zero]
  refine Finset.sum_congr rfl fun i _ => ?_
  rw [h1 (Fin.castAdd P i) i.isLt]
  rfl

/-- The 48 padding columns carry zeros. -/
theorem sum_padded (f : Fin 50048 → EReal) (g : Fin 50000 → EReal)
    (hf : ∀ v : Fin 50048, f v = if hv : v.val < 50000 then g ⟨v.val, hv⟩ else 0) :
    ∑ v : Fin 50048, f v = ∑ v : Fin 50000, g v :=
  sum_pad (by norm_num) g f (fun v hv => by rw [hf, dif_pos hv]) fun v hv => by rw [hf, dif_neg (by omega)]

/-- (j, k) ↦ 2944 j + k is a bijection of the 17 × 2944 pairs onto the 50048 columns. -/
theorem sum_tiles (f : Fin 50048 → EReal) :
    ∑ j : Fin 17, ∑ k : Fin 2944, f (tcol j k) = ∑ v : Fin 50048, f v := by
  rw [← Fintype.sum_prod_type' (f := fun (j : Fin 17) (k : Fin 2944) => f (tcol j k))]
  exact Fintype.sum_equiv (finProdFinEquiv (m := 17) (n := 2944)) _ f fun p => congrArg f (Fin.ext
    (show 2944 * p.1.val + p.2.val = p.2.val + 2944 * p.1.val from Nat.add_comm _ _))

end Cert.Spec.Sums

end
-- ==== Proof.MathBeta.lean ====
import proofs.«427360_j50826642981279_1_alg».proof.Proof.MathSums
import Mathlib.Data.Finset.Fold

noncomputable section

namespace Cert.Spec

open Idealize.ShloMosaic

variable (rho : Fin 50000 → Fin 300 → EReal) (alpha : Fin 50 → Fin 300 → EReal)

def Real2 {n m : Nat} (a : Fin n → Fin m → EReal) : Prop := ∀ i j, ∃ r : ℝ, a i j = (r : EReal)

namespace Beta

theorem negInf_eq_bot : negInf = ⊥ := by
  simp [Ideal.ofBits, Ideal.ieee]

theorem exp_bot_sub (M : EReal) : Ideal.exp (⊥ - M) = 0 := by
  rw [sub_eq_add_neg, EReal.bot_add, Ideal.exp_bot]

/-- Each side is an upper bound of the other's entries: bottom entries never raise a maximum. -/
theorem fold_max_pad {N M : Nat} (h : N ≤ M) (l : Fin N → EReal) (lK : Fin M → EReal)
    (h1 : ∀ (v : Fin M) (hv : v.val < N), lK v = l ⟨v.val, hv⟩) (h2 : ∀ v : Fin M, N ≤ v.val → lK v = ⊥) :
    (Finset.univ : Finset (Fin M)).fold max ⊥ lK = (Finset.univ : Finset (Fin N)).fold max ⊥ l := by
  apply le_antisymm
  · refine (Finset.fold_max_le _).2 ⟨bot_le, fun x _ => ?_⟩
    rcases lt_or_ge x.val N with hx | hx
    · rw [h1 x hx]
      exact (Finset.le_fold_max _).2 (Or.inr ⟨_, Finset.mem_univ _, le_rfl⟩)
    · rw [h2 x hx]
      exact bot_le
  · refine (Finset.fold_max_le _).2 ⟨bot_le, fun x _ => ?_⟩
    refine (Finset.le_fold_max _).2 (Or.inr ⟨Fin.castLE h x, Finset.mem_univ _, ?_⟩)
    rw [h1 (Fin.castLE h x) x.isLt]
    exact le_rfl

/-- Bottom logits leave the maximum alone and their exponentials are zero, so the normaliser is the plain one. -/
theorem smax_pad {N M : Nat} (h : N ≤ M) (l : Fin N → EReal) (lK : Fin M → EReal)
    (h1 : ∀ (v : Fin M) (hv : v.val < N), lK v = l ⟨v.val, hv⟩) (h2 : ∀ v : Fin M, N ≤ v.val → lK v = negInf)
    (v : Fin M) (hv : v.val < N) : smax lK v = smax l ⟨v.val, hv⟩ := by
  have h2' : ∀ v : Fin M, N ≤ v.val → lK v = ⊥ := fun v hv => by rw [h2 v hv, negInf_eq_bot]
  unfold smax
  rw [negInf_eq_bot, fold_max_pad h l lK h1 h2']
  generalize max ⊥ ((Finset.univ : Finset (Fin N)).fold max ⊥ l) = Mx
  rw [h1 v hv]
  congr 1
  refine Sums.sum_pad h (fun v' => Ideal.exp (l v' - Mx)) _ (fun w hw => ?_) (fun w hw => ?_)
  · rw [h1 w hw]
  · rw [h2' w hw, exp_bot_sub]

end Beta

theorem betaK_eq_betaR (t : Fin 50) (v : Fin 50048) (hv : v.val < 50000) :
    betaK alpha rho t v = betaR alpha rho t ⟨v.val, hv⟩ := by
  unfold betaK betaR
  refine Beta.smax_pad (by norm_num) _ _ (fun w hw => ?_) (fun w hw => ?_) v hv
  · unfold logitK logitR
    rw [if_pos hw]
    refine Finset.sum_congr rfl (fun e _ => ?_)
    rw [rhoPad, dif_pos hw]
  · unfold logitK
    rw [if_neg (by omega)]

namespace Beta

/-- The maximum of real logits is real, so every exponential is a positive real and so is the normaliser. -/
theorem smax_real {N : Nat} (l : Fin N → EReal) (hl : ∀ v, ∃ r : ℝ, l v = (r : EReal)) (v : Fin N) :
    ∃ r : ℝ, 0 ≤ r ∧ smax l v = (r : EReal) := by
  choose lr hlr using hl
  unfold smax
  have hM : ∃ m : ℝ, max negInf ((Finset.univ : Finset (Fin N)).fold max negInf l) = (m : EReal) := by
    rw [negInf_eq_bot]
    have hbot : max ⊥ ((Finset.univ : Finset (Fin N)).fold max ⊥ l) ≠ ⊥ := by
      apply ne_of_gt
      refine lt_of_lt_of_le ?_ (le_max_of_le_right ((Finset.le_fold_max _).2 (Or.inr ⟨v, Finset.mem_univ _, le_rfl⟩)))
      rw [hlr v]
      exact EReal.bot_lt_coe _
    have htop : max ⊥ ((Finset.univ : Finset (Fin N)).fold max ⊥ l) ≠ ⊤ := by
      apply ne_of_lt
      refine max_lt bot_lt_top ((Finset.fold_max_lt _).2 ⟨bot_lt_top, fun x _ => ?_⟩)
      rw [hlr x]
      exact EReal.coe_lt_top _
    exact ⟨_, (EReal.coe_toReal htop hbot).symm⟩
  obtain ⟨m, hm⟩ := hM
  rw [hm]
  have hexp : ∀ w : Fin N, Ideal.exp (l w - (m : EReal)) = ((Real.exp (lr w - m) : ℝ) : EReal) := fun w => by
    rw [hlr w, ← EReal.coe_sub, Ideal.exp_coe]
  have hsum : ∑ w : Fin N, Ideal.exp (l w - (m : EReal)) = ((∑ w : Fin N, Real.exp (lr w - m) : ℝ) : EReal) := by
    rw [Sums.coe_sum]
    exact Finset.sum_congr rfl (fun w _ => hexp w)
  have hpos : 0 < ∑ w : Fin N, Real.exp (lr w - m) :=
    Finset.sum_pos (fun i _ => Real.exp_pos _) ⟨v, Finset.mem_univ v⟩
  rw [hsum, hexp v, Ideal.div_coe hpos.ne', ← EReal.coe_mul]
  exact ⟨_, mul_nonneg (Real.exp_pos _).le (by positivity), rfl⟩

end Beta

theorem logitR_real (hα : Real2 alpha) (hρ : Real2 rho) (t : Fin 50) (v : Fin 50000) :
    ∃ r : ℝ, logitR alpha rho t v = (r : EReal) := by
  choose a ha using hα
  choose p hp using hρ
  refine ⟨∑ e : Fin 300, a t e * p v e, ?_⟩
  unfold logitR
  rw [Sums.coe_sum]
  refine Finset.sum_congr rfl (fun e _ => ?_)
  rw [ha, hp, EReal.coe_mul]

theorem betaR_real (hα : Real2 alpha) (hρ : Real2 rho) (t : Fin 50) (v : Fin 50000) :
    ∃ r : ℝ, 0 ≤ r ∧ betaR alpha rho t v = (r : EReal) := by
  unfold betaR
  exact Beta.smax_real _ (fun w => logitR_real rho alpha hα hρ t w) v

end Cert.Spec

end
-- ==== Proof.PreDecode.lean ====
import proofs.«427360_j50826642981279_1_alg».proof.Pre_finite_inputs
import proofs.«427360_j50826642981279_1_alg».proof.Proof.Gen.Pre_finite_inputs
import proofs.«427360_j50826642981279_1_alg».proof.Proof.Spec
import proofs.«427360_j50826642981279_1_alg».proof.Proof.MathBeta
import Idealize.ShloMosaic.Lib.ReduceAll
import Idealize.ShloMosaic.Lib.StableHlo.Predicate

noncomputable section

namespace Cert.PreDecode

open Idealize.ShloMosaic
open Cert.Pre_finite_inputs (S1024x512 S50000x300 S50x300 S300x800 S800 S800x50 S50 S_)

instance : Subsingleton S_.Idx := ⟨fun a b => funext fun d => d.elim0⟩

theorem real_of_abs_lt (x : EReal)
    (hx : Ideal.cmp .olt (max x (-x)) (Ideal.ofBits .f32 0x7F800000#32) = 1#1) : ∃ r : ℝ, x = (r : EReal) := by
  have htop : Ideal.ofBits .f32 0x7F800000#32 = (⊤ : EReal) := by
    simp [Ideal.ofBits, Ideal.ieee]
  rw [htop] at hx
  simp only [Ideal.cmp, StableHlo.Predicate.ofBool_eq_one_iff, decide_eq_true_eq] at hx
  induction x using EReal.rec with
  | bot => simp at hx
  | coe r => exact ⟨r, rfl⟩
  | top => simp at hx

theorem toNat_lt_of_signed (w : BitVec 32) (h0 : IntOp.cmpi .sge w (0#32) = 1#1)
    (h1 : IntOp.cmpi .slt w (50000#32) = 1#1) : w.toNat < 50000 := by
  unfold IntOp.cmpi at h0 h1
  rw [StableHlo.Predicate.ofBool_eq_one_iff] at h0 h1
  simp only [BitVec.slt, BitVec.sle, decide_eq_true_eq] at h0 h1
  have e0 : (0#32).toInt = 0 := by decide
  have e1 : (50000#32).toInt = 50000 := by decide
  rw [e0] at h0
  rw [e1] at h1

  have hc := BitVec.toInt_eq_toNat_cond w
  have h32 := w.isLt
  split at hc <;> omega

variable [Cert.Pre_finite_inputs.Facts]
variable (a0 : IVec S1024x512 32) (a1 : FVec Ideal S50000x300 .f32) (a2 : FVec Ideal S50x300 .f32)
  (a3 : FVec Ideal S300x800 .f32) (a4 : FVec Ideal S800 .f32) (a5 : FVec Ideal S800x50 .f32)
  (a6 : FVec Ideal S50 .f32) (a7 : FVec Ideal S800x50 .f32) (a8 : FVec Ideal S50 .f32)

/-- The printed predicate is a conjunction of nine reductions, read once: the last bounds the ids, the first two are the finiteness of the two tables. -/
theorem decode (h : Cert.Pre_finite_inputs.fn (F := Ideal) a0 a1 a2 a3 a4 a5 a6 a7 a8 = fun _ => 1#1) :
    Cert.Spec.IdsOk (Cert.Spec.cur2 a0) ∧ Cert.Spec.Real2 (Cert.Spec.cur2 a1) ∧ Cert.Spec.Real2 (Cert.Spec.cur2 a2) := by
  have e := congrFun h ValueIdx.ix0
  dsimp only [Cert.Pre_finite_inputs.fn, Cert.Pre_finite_inputs.fn_part1, Cert.Pre_finite_inputs.fn_part2] at e
  simp only [andi, IntOp.andi_eq_one] at e
  refine ⟨fun b s => ?_, fun i j => ?_, fun i j => ?_⟩
  · have hb := Host.reduce_andi_all _ _ _ _ _ e.2 (ValueIdx.ix2 b s)
    simp only [andi, cmpi, broadcastInDim, constantI, IntOp.andi_eq_one] at hb
    exact toNat_lt_of_signed _ hb.1 hb.2
  · have hb := Host.reduce_andi_all _ _ _ _ _ e.1.1.1.1.1.1.1.1 (ValueIdx.ix2 i j)
    simp only [cmpf, Host.absf, broadcastInDim, constant] at hb
    exact real_of_abs_lt _ hb
  · have hb := Host.reduce_andi_all _ _ _ _ _ e.1.1.1.1.1.1.1.2 (ValueIdx.ix2 i j)
    simp only [cmpf, Host.absf, broadcastInDim, constant] at hb
    exact real_of_abs_lt _ hb

end Cert.PreDecode

end
-- ==== Proof.MathHisto.lean ====
import proofs.«427360_j50826642981279_1_alg».proof.Proof.MathSums

noncomputable section

namespace Cert.Spec

open Idealize.ShloMosaic

variable (ids : Fin 1024 → Fin 512 → BitVec 32) (rho : Fin 50000 → Fin 300 → EReal)

/-- No id in range names a padding column, and a padding column is neither of the two cleared ones. -/
theorem histo_pad (h : IdsOk ids) (b : Fin 1024) (v : Fin 50048) :
    histo 50048 ids b v = if hv : v.val < 50000 then histo 50000 ids b ⟨v.val, hv⟩ else 0 := by
  by_cases hv : v.val < 50000
  · rw [dif_pos hv]
    rfl
  · rw [dif_neg hv]
    unfold histo
    rw [if_neg (by omega)]
    refine Finset.sum_eq_zero fun s _ => if_neg ?_
    have := h b s
    omega

theorem total_pad (h : IdsOk ids) (b : Fin 1024) : total 50048 ids b = total 50000 ids b :=
  Sums.sum_padded _ _ (histo_pad ids h b)

/-- A padding column contributes a product with a zero table entry. -/
theorem xK_eq_xR (h : IdsOk ids) (b : Fin 1024) (e : Fin 300) : xK ids rho b e = xR ids rho b e := by
  unfold xK xR
  rw [Sums.sum_tiles (fun v => Ideal.div (histo 50048 ids b v) (total 50048 ids b) * rhoPad rho v e)]
  refine Sums.sum_padded _ _ fun v => ?_
  unfold rhoPad
  by_cases hv : v.val < 50000
  · rw [dif_pos hv, dif_pos hv, histo_pad ids h b v, dif_pos hv, total_pad ids h b]
  · rw [dif_neg hv, dif_neg hv, mul_zero]

end Cert.Spec

end
-- ==== Proof.MathTheta.lean ====
import proofs.«427360_j50826642981279_1_alg».proof.Proof.MathSums

noncomputable section

namespace Cert.Spec

open Idealize.ShloMosaic

namespace MathTheta

/-- Below its bound the shifted exponent is real or bottom, so its exponential is a non-negative real. -/
theorem exp_sub_real_of_le {a M : EReal} (h : a ≤ M) : ∃ r : ℝ, 0 ≤ r ∧ Ideal.exp (a - M) = (r : EReal) := by
  induction M using EReal.rec with
  | bot =>
    obtain rfl := le_bot_iff.mp h
    exact ⟨0, le_rfl, by rw [EReal.bot_sub]; rfl⟩
  | top => exact ⟨0, le_rfl, by rw [EReal.sub_top]; rfl⟩
  | coe m =>
    induction a using EReal.rec with
    | bot => exact ⟨0, le_rfl, by rw [EReal.bot_sub]; rfl⟩
    | top => exact absurd h (not_le.mpr (EReal.coe_lt_top m))
    | coe a => exact ⟨Real.exp (a - m), (Real.exp_pos _).le, by rw [← EReal.coe_sub]; rfl⟩

theorem le_max_fold {n : Nat} (μ : Fin n → EReal) (t : Fin n) :
    μ t ≤ max negInf ((Finset.univ : Finset (Fin n)).fold max negInf μ) :=
  le_trans ((Finset.le_fold_max _).mpr (Or.inr ⟨t, Finset.mem_univ t, le_rfl⟩)) (le_max_right _ _)

/-- The exponentials are non-negative reals; a zero normaliser makes every quotient 0 / 0 = ⊥, a positive one a real. -/
theorem softmax_range {n : Nat} (μ : Fin n → EReal) :
    (∀ t, ∃ r : ℝ, 0 ≤ r ∧ smax μ t = (r : EReal)) ∨ (∀ t, smax μ t = ⊥) := by
  unfold smax
  choose r hr0 hr using fun t => exp_sub_real_of_le (le_max_fold μ t)
  have hs : (∑ t' : Fin n, Ideal.exp (μ t' - max negInf ((Finset.univ : Finset (Fin n)).fold max negInf μ)))
      = ((∑ t' : Fin n, r t' : ℝ) : EReal) := by
    rw [Sums.coe_sum]; exact Finset.sum_congr rfl fun t' _ => hr t'
  by_cases hz : (∑ t' : Fin n, r t') = 0
  · right
    intro t
    have hrt : r t = 0 := (Finset.sum_eq_zero_iff_of_nonneg fun i _ => hr0 i).mp hz t (Finset.mem_univ t)
    rw [hs, hr t, hz, hrt, EReal.coe_zero, Ideal.div, if_pos rfl, if_neg (lt_irrefl _)]
  · left
    intro t
    refine ⟨r t * (1 / ∑ t' : Fin n, r t'), mul_nonneg (hr0 t) ?_, ?_⟩
    · exact one_div_nonneg.mpr (Finset.sum_nonneg fun i _ => hr0 i)
    · rw [hs, hr t, Ideal.div_coe hz, ← EReal.coe_mul]

end MathTheta

variable (W1 : Fin 300 → Fin 800 → EReal) (b1 : Fin 800 → EReal) (Wmu : Fin 800 → Fin 50 → EReal) (bmu : Fin 50 → EReal)

theorem thetaOf_range (x : Fin 300 → EReal) :
    (∀ t, ∃ r : ℝ, 0 ≤ r ∧ thetaOf W1 b1 Wmu bmu x t = (r : EReal)) ∨ (∀ t, thetaOf W1 b1 Wmu bmu x t = ⊥) :=
  MathTheta.softmax_range (muOf W1 b1 Wmu bmu x)

end Cert.Spec

end
-- ==== Proof.MathRecon.lean ====
import proofs.«427360_j50826642981279_1_alg».proof.Proof.MathSums
import Mathlib.Data.EReal.Operations

noncomputable section

namespace Cert.Spec

open Idealize.ShloMosaic

namespace MathRecon

theorem sum_ne_top' {ι : Type} (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun k hk => h k (Finset.mem_insert_of_mem hk))

/-- With the top element excluded a sum never meets top plus bottom, the one corner where negation is not additive. -/
theorem neg_sum' {ι : Type} (s : Finset ι) (a : ι → EReal) (h : ∀ i ∈ s, a i ≠ ⊤) :
    -(∑ i ∈ s, a i) = ∑ i ∈ s, -(a i) := by
  classical
  induction s using Finset.induction_on with
  | empty => simp
  | insert i s hi ih =>
    have hs : ∀ k ∈ s, a k ≠ ⊤ := fun k hk => h k (Finset.mem_insert_of_mem hk)
    have hi' : a i ≠ ⊤ := h i (Finset.mem_insert_self i s)
    rw [Finset.sum_insert hi, Finset.sum_insert hi,
      EReal.neg_add (Or.inr (sum_ne_top' s a hs)) (Or.inl hi'), sub_eq_add_neg, ih hs]

/-- Times zero it is zero; times a positive real bottom stays bottom and a real stays real. -/
theorem mul_nonneg_real_ne_top {x : EReal} (hx : x ≠ ⊤) {r : ℝ} (hr : 0 ≤ r) : x * (r : EReal) ≠ ⊤ := by
  rcases hr.eq_or_lt with h0 | hpos
  · subst h0; simp
  · induction x using EReal.rec with
    | bot => rw [EReal.bot_mul_coe_of_pos hpos]; exact bot_ne_top
    | coe y => rw [← EReal.coe_mul]; exact EReal.coe_ne_top _
    | top => exact absurd rfl hx

theorem log_ne_top' {y : EReal} (hy : y ≠ ⊤) : Ideal.log y ≠ ⊤ := by
  induction y using EReal.rec with
  | bot => simp
  | coe r =>
    rw [Ideal.log_coe]
    split_ifs
    · exact bot_ne_top
    · exact EReal.coe_ne_top _
  | top => exact absurd rfl hy

theorem eps_ne_top : eps ≠ ⊤ := by
  simp only [eps, Ideal.ofBits, Ideal.ieee]
  rw [if_neg (by decide)]
  split_ifs <;> exact EReal.coe_ne_top _

/-- A histogram entry is zero on the cleared columns, else a finite sum of zeros and ones. -/
theorem histo_real (ids : Fin 1024 → Fin 512 → BitVec 32) (N : Nat) (b : Fin 1024) (v : Fin N) :
    ∃ r : ℝ, 0 ≤ r ∧ histo N ids b v = (r : EReal) := by
  unfold histo
  split_ifs
  · exact ⟨0, le_refl _, by simp⟩
  · refine ⟨∑ s : Fin 512, if (ids b s).toNat = v.val then (1 : ℝ) else 0,
      Finset.sum_nonneg fun s _ => by split_ifs <;> norm_num, ?_⟩
    rw [Sums.coe_sum]
    refine Finset.sum_congr rfl fun s _ => ?_
    split_ifs <;> simp

end MathRecon

open MathRecon

variable (ids : Fin 1024 → Fin 512 → BitVec 32)

/-- No summand is the top element, so negation passes through the tiled sum; the padding columns carry a zero count. -/
theorem recon_core (bK : Fin 50 → Fin 50048 → EReal) (bR : Fin 50 → Fin 50000 → EReal) (th : Fin 50 → EReal) (b : Fin 1024)
    (hhist : ∀ v : Fin 50048, histo 50048 ids b v = if hv : v.val < 50000 then histo 50000 ids b ⟨v.val, hv⟩ else 0)
    (hβ : ∀ (t : Fin 50) (v : Fin 50048) (hv : v.val < 50000), bK t v = bR t ⟨v.val, hv⟩)
    (hβr : ∀ (t : Fin 50) (v : Fin 50000), ∃ r : ℝ, 0 ≤ r ∧ bR t v = (r : EReal))
    (hθ : (∀ t, ∃ r : ℝ, 0 ≤ r ∧ th t = (r : EReal)) ∨ (∀ t, th t = ⊥)) :
    reconK ids bK th b = reconR ids bR th b := by
  set g : Fin 50000 → EReal := fun v => Ideal.log ((∑ t : Fin 50, th t * bR t v) + eps) * histo 50000 ids b v with hg
  have hf : ∀ v : Fin 50048, Ideal.log ((∑ t : Fin 50, th t * bK t v) + eps) * histo 50048 ids b v
      = if h : v.val < 50000 then g ⟨v.val, h⟩ else 0 := by
    intro v
    rw [hhist v]
    by_cases h : v.val < 50000
    · rw [dif_pos h, dif_pos h]
      have : ∑ t : Fin 50, th t * bK t v = ∑ t : Fin 50, th t * bR t ⟨v.val, h⟩ :=
        Finset.sum_congr rfl fun t _ => by rw [hβ t v h]
      rw [this]
    · rw [dif_neg h, dif_neg h, mul_zero]
  have hth : ∀ t, th t ≠ ⊤ := by
    intro t
    rcases hθ with h | h
    · obtain ⟨r, _, hr⟩ := h t; rw [hr]; exact EReal.coe_ne_top _
    · rw [h t]; exact bot_ne_top
  have hgtop : ∀ v, g v ≠ ⊤ := by
    intro v
    obtain ⟨c, hc0, hc⟩ := histo_real ids 50000 b v
    show Ideal.log ((∑ t : Fin 50, th t * bR t v) + eps) * histo 50000 ids b v ≠ ⊤
    rw [hc]
    refine mul_nonneg_real_ne_top (log_ne_top' (EReal.add_ne_top (sum_ne_top' _ _ fun t _ => ?_) eps_ne_top)) hc0
    obtain ⟨r, hr0, hr⟩ := hβr t v
    rw [hr]
    exact mul_nonneg_real_ne_top (hth t) hr0
  have hftop : ∀ v : Fin 50048, (if h : v.val < 50000 then g ⟨v.val, h⟩ else 0) ≠ ⊤ := by
    intro v
    split_ifs
    · exact hgtop _
    · exact EReal.zero_ne_top
  unfold reconK reconR
  simp only [hf, zero_sub]
  rw [← neg_sum' Finset.univ _ fun j _ => sum_ne_top' _ _ fun k _ => hftop (tcol j k),
    Sums.sum_tiles (fun v => if h : v.val < 50000 then g ⟨v.val, h⟩ else 0),
    Sums.sum_padded (fun v => if h : v.val < 50000 then g ⟨v.val, h⟩ else 0) g fun _ => rfl]

end Cert.Spec

end
-- ==== Proof.Bridge.lean ====
import proofs.«427360_j50826642981279_1_alg».proof.Proof.MathHisto
import proofs.«427360_j50826642981279_1_alg».proof.Proof.MathBeta
import proofs.«427360_j50826642981279_1_alg».proof.Proof.MathTheta
import proofs.«427360_j50826642981279_1_alg».proof.Proof.MathRecon

noncomputable section

namespace Cert.Spec

open Idealize.ShloMosaic

variable (ids : Fin 1024 → Fin 512 → BitVec 32) (rho : Fin 50000 → Fin 300 → EReal) (alpha : Fin 50 → Fin 300 → EReal)
variable (W1 : Fin 300 → Fin 800 → EReal) (b1 : Fin 800 → EReal)
  (Wmu : Fin 800 → Fin 50 → EReal) (bmu : Fin 50 → EReal) (Wlv : Fin 800 → Fin 50 → EReal) (blv : Fin 50 → EReal)

theorem reconK_eq_reconR (h : IdsOk ids) (hα : Real2 alpha) (hρ : Real2 rho) (x : Fin 300 → EReal) (b : Fin 1024) :
    reconK ids (betaK alpha rho) (thetaOf W1 b1 Wmu bmu x) b = reconR ids (betaR alpha rho) (thetaOf W1 b1 Wmu bmu x) b :=
  recon_core ids _ _ _ b (histo_pad ids h b) (betaK_eq_betaR rho alpha) (betaR_real rho alpha hα hρ) (thetaOf_range W1 b1 Wmu bmu x)

theorem theta_bridge (h : IdsOk ids) (b : Fin 1024) (t : Fin 50) :
    thetaOf W1 b1 Wmu bmu (xK ids rho b) t = thetaOf W1 b1 Wmu bmu (xR ids rho b) t := by
  rw [show xK ids rho b = xR ids rho b from funext fun e => xK_eq_xR ids rho h b e]

theorem loss_bridge (h : IdsOk ids) (hα : Real2 alpha) (hρ : Real2 rho) :
    lossOf (fun b => reconK ids (betaK alpha rho) (thetaOf W1 b1 Wmu bmu (xK ids rho b)) b) (fun b => klOf W1 b1 Wmu bmu Wlv blv (xK ids rho b))
      = lossOf (fun b => reconR ids (betaR alpha rho) (thetaOf W1 b1 Wmu bmu (xR ids rho b)) b) (fun b => klOf W1 b1 Wmu bmu Wlv blv (xR ids rho b)) := by
  have hx : ∀ b, xK ids rho b = xR ids rho b := fun b => funext fun e => xK_eq_xR ids rho h b e
  have hr : (fun b => reconK ids (betaK alpha rho) (thetaOf W1 b1 Wmu bmu (xK ids rho b)) b)
      = fun b => reconR ids (betaR alpha rho) (thetaOf W1 b1 Wmu bmu (xR ids rho b)) b :=
    funext fun b => by rw [hx b]; exact reconK_eq_reconR ids rho alpha W1 b1 Wmu bmu h hα hρ _ b
  have hk : (fun b => klOf W1 b1 Wmu bmu Wlv blv (xK ids rho b)) = fun b => klOf W1 b1 Wmu bmu Wlv blv (xR ids rho b) :=
    funext fun b => by rw [hx b]
  rw [hr, hk]

end Cert.Spec

end
-- ==== Proof.BridgeOut.lean ====
import proofs.«427360_j50826642981279_1_alg».proof.Proof.Bridge
import proofs.«427360_j50826642981279_1_alg».proof.Proof.SpecOut

noncomputable section

namespace Cert.Spec

open Idealize.ShloMosaic

variable (ids : Fin 1024 → Fin 512 → BitVec 32) (rho : Fin 50000 → Fin 300 → EReal) (alpha : Fin 50 → Fin 300 → EReal)
variable (W1 : Fin 300 → Fin 800 → EReal) (b1 : Fin 800 → EReal)
  (Wmu : Fin 800 → Fin 50 → EReal) (bmu : Fin 50 → EReal) (Wlv : Fin 800 → Fin 50 → EReal) (blv : Fin 50 → EReal)

theorem thetaKer_eq_thetaRef (h : IdsOk ids) (b : Fin 1024) (t : Fin 50) :
    thetaKer ids rho W1 b1 Wmu bmu b t = thetaRef ids rho W1 b1 Wmu bmu b t :=
  theta_bridge ids rho W1 b1 Wmu bmu h b t

theorem lossKer_eq_lossRef (h : IdsOk ids) (hα : Real2 alpha) (hρ : Real2 rho) :
    lossKer ids rho alpha W1 b1 Wmu bmu Wlv blv = lossRef ids rho alpha W1 b1 Wmu bmu Wlv blv :=
  loss_bridge ids rho alpha W1 b1 Wmu bmu Wlv blv h hα hρ

end Cert.Spec

end
-- ==== Proof.lean ====
import proofs.«427360_j50826642981279_1_alg».proof.Defs
import proofs.«427360_j50826642981279_1_alg».proof.Proof.Gen.Kernel
import proofs.«427360_j50826642981279_1_alg».proof.Proof.Gen.KernelIdeal
import proofs.«427360_j50826642981279_1_alg».proof.Proof.Gen.ReferenceIdeal
import proofs.«427360_j50826642981279_1_alg».proof.Proof.Gen.Pre_finite_inputs
import proofs.«427360_j50826642981279_1_alg».proof.Proof.KbKRun
import proofs.«427360_j50826642981279_1_alg».proof.Proof.KRun
import proofs.«427360_j50826642981279_1_alg».proof.Proof.KValue
import proofs.«427360_j50826642981279_1_alg».proof.Proof.RefValue
import proofs.«427360_j50826642981279_1_alg».proof.Proof.PreDecode
import proofs.«427360_j50826642981279_1_alg».proof.Proof.BridgeOut

noncomputable section

namespace Cert.Proof

open Idealize.ShloMosaic Idealize.ShloMosaic.TcCoe Idealize.SL.Sem
open Cert.Spec (cur1 cur2)

theorem frame_k : Cert.frame_Kernel := fun m ρ _ => Cert.Kernel.KRun.frame (F := Bits) m ρ

theorem frame_ki : Cert.frame_KernelIdeal := fun m ρ _ => Cert.KernelIdeal.KRun.frame (F := Ideal) m ρ

theorem frame_ri : Cert.frame_ReferenceIdeal := fun m ρ _ =>
  (θ_run Cert.ReferenceIdeal.defs _ _).mono (fun _ h c => (h c).2.2) (Cert.ReferenceIdeal.RefRun.run m ρ)

theorem preserves : Cert.preserves_Kernel_KernelIdeal := trivial

section Results
variable (m : (ℓ : Loc Cert.KernelIdeal.nD Cert.KernelIdeal.τ Cert.KernelIdeal.sig) → Buf (Elt Ideal) ℓ) (c : Dev Cert.KernelIdeal.nD)

abbrev aIds := cur2 (m ((c.tc : Thread Cert.KernelIdeal.nD Cert.KernelIdeal.τ).loc Cert.KernelIdeal.main_arg0) : Cert.KernelIdeal.S1024x512.Idx → BitVec 32)
abbrev aRho := cur2 (m ((c.tc : Thread Cert.KernelIdeal.nD Cert.KernelIdeal.τ).loc Cert.KernelIdeal.main_arg1) : Cert.KernelIdeal.S50000x300.Idx → EReal)
abbrev aAlpha := cur2 (m ((c.tc : Thread Cert.KernelIdeal.nD Cert.KernelIdeal.τ).loc Cert.KernelIdeal.main_arg2) : Cert.KernelIdeal.S50x300.Idx → EReal)
abbrev aW1 := cur2 (m ((c.tc : Thread Cert.KernelIdeal.nD Cert.KernelIdeal.τ).loc Cert.KernelIdeal.main_arg3) : Cert.KernelIdeal.S300x800.Idx → EReal)
abbrev aB1 := cur1 (m ((c.tc : Thread Cert.KernelIdeal.nD Cert.KernelIdeal.τ).loc Cert.KernelIdeal.main_arg4) : Cert.KernelIdeal.S800.Idx → EReal)
abbrev aWmu := cur2 (m ((c.tc : Thread Cert.KernelIdeal.nD Cert.KernelIdeal.τ).loc Cert.KernelIdeal.main_arg5) : Cert.KernelIdeal.S800x50.Idx → EReal)
abbrev aBmu := cur1 (m ((c.tc : Thread Cert.KernelIdeal.nD Cert.KernelIdeal.τ).loc Cert.KernelIdeal.main_arg6) : Cert.KernelIdeal.S50.Idx → EReal)
abbrev aWlv := cur2 (m ((c.tc : Thread Cert.KernelIdeal.nD Cert.KernelIdeal.τ).loc Cert.KernelIdeal.main_arg7) : Cert.KernelIdeal.S800x50.Idx → EReal)
abbrev aBlv := cur1 (m ((c.tc : Thread Cert.KernelIdeal.nD Cert.KernelIdeal.τ).loc Cert.KernelIdeal.main_arg8) : Cert.KernelIdeal.S50.Idx → EReal)

def thetaArr : Cert.KernelIdeal.S1024x50.Idx → EReal := fun j =>
  Cert.Spec.thetaKer (aIds m c) (aRho m c) (aW1 m c) (aB1 m c) (aWmu m c) (aBmu m c) (j 0) (j 1)

def lossArr : Cert.KernelIdeal.S_.Idx → EReal := fun _ =>
  Cert.Spec.lossKer (aIds m c) (aRho m c) (aAlpha m c) (aW1 m c) (aB1 m c) (aWmu m c) (aBmu m c) (aWlv m c) (aBlv m c)
end Results

/-- The kernel ends at the padded, tiled form by its run; the reference's plain form equals it under the precondition. -/
theorem algebraic : Cert.algebraic_KernelIdeal_ReferenceIdeal := by
  intro m g m' g' hpre hagree
  have hids : ∀ c : Dev Cert.KernelIdeal.nD, Cert.Spec.IdsOk (aIds m c) :=
    fun c => (Cert.PreDecode.decode _ _ _ _ _ _ _ _ _ (hpre c)).1
  have hρ : ∀ c : Dev Cert.KernelIdeal.nD, Cert.Spec.Real2 (aRho m c) :=
    fun c => (Cert.PreDecode.decode _ _ _ _ _ _ _ _ _ (hpre c)).2.1
  have hα : ∀ c : Dev Cert.KernelIdeal.nD, Cert.Spec.Real2 (aAlpha m c) :=
    fun c => (Cert.PreDecode.decode _ _ _ _ _ _ _ _ _ (hpre c)).2.2
  have hids' : ∀ c : Dev Cert.ReferenceIdeal.nD, Cert.Spec.IdsOk
      (cur2 (m' ((c.tc : Thread Cert.ReferenceIdeal.nD Cert.ReferenceIdeal.τ).loc Cert.ReferenceIdeal.main_arg0) : Cert.ReferenceIdeal.S1024x512.Idx → BitVec 32)) :=
    fun c => by rw [(hagree c).1]; exact hids c
  refine ⟨fun c => thetaArr m c, fun c => lossArr m c, ?_, ?_⟩
  · refine (θ_run _ _ _).mono (fun r h c => ?_) (Cert.KernelIdeal.KValue.run_spec m g hids)
    obtain ⟨h0, h1, hargs⟩ := h c
    exact ⟨funext fun j => (congrArg _ (ValueIdx.eq_ix2 j)).trans (h0 (j 0) (j 1)),
      funext fun j => (congrArg _ (ValueIdx.eq_ix0 j)).trans h1, hargs⟩
  · refine (θ_run _ _ _).mono (fun r h c => ?_) (Cert.ReferenceIdeal.RefValue.run_spec m' g' hids')
    obtain ⟨h0, h1, hargs⟩ := h c
    obtain ⟨e0, e1, e2, e3, e4, e5, e6, e7, e8⟩ := hagree c
    refine ⟨funext fun j => (congrArg _ (ValueIdx.eq_ix2 j)).trans ((h0 (j 0) (j 1)).trans ?_),
      funext fun j => (congrArg _ (ValueIdx.eq_ix0 j)).trans (h1.trans ?_), hargs⟩
    · rw [e0, e1, e3, e4, e5, e6]
      exact (Cert.Spec.thetaKer_eq_thetaRef _ _ _ _ _ _ (hids c) _ _).symm
    · rw [e0, e1, e2, e3, e4, e5, e6, e7, e8]
      exact (Cert.Spec.lossKer_eq_lossRef _ _ _ _ _ _ _ _ _ (hids c) (hα c) (hρ c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
